-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v185)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v185) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v276) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S128x256 : Shape := ⟨2, ![128, 256]⟩
abbrev S64 : Shape := ⟨1, ![64]⟩
abbrev S256 : Shape := ⟨1, ![256]⟩
abbrev S256x256 : Shape := ⟨2, ![256, 256]⟩
abbrev S256x40 : Shape := ⟨2, ![256, 40]⟩
abbrev S40 : Shape := ⟨1, ![40]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S64 : S_.BroadcastsInDim S64 (![] : Fin 0 → Fin S64.rank)
  reducesTo_S64_S_d0 : S64.ReducesTo [0] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S256x1 .f32) (main_arg16 : FVec F S1 .f32) (main_v63 : IVec S_ 1) (main_v67 : IVec S_ 1) : IVec S_ 1 :=
  let main_v68 : IVec S_ 1 := andi main_v63 main_v67
  let main_v69 : FVec F S256x1 .f32 := Host.absf main_arg15
  let main_cst_26 : FVec F S_ .f32 := constant S_ .f32 0x7F800000#32
  let main_v70 : FVec F S256x1 .f32 := broadcastInDim S256x1 ![] bcast_S_S256x1 main_cst_26
  let main_v71 : IVec S256x1 1 := cmpf .olt main_v69 main_v70
  let main_c_27 : IVec S_ 1 := constantI S_ 1 1#1
  let main_v72 : IVec S_ 1 := (fun x v => Host.reduce IntOp.andi x v reducesTo_S256x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S256x40 .f32) (main_arg13 : FVec F S40 .f32) (main_arg14 : FVec F S40 .f32) (main_arg15 : FVec F S256x1 .f32) (main_arg16 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x40 .f32 := Host.absf main_arg12
  let main_cst_20 : FVec F S_ .f32 := constant S_ .f32 0x7F800000#32
  let main_v55 : FVec F S256x40 .f32 := broadcastInDim S256x40 ![] bcast_S_S256x40 main_cst_20
  let main_v56 : IVec S256x40 1 := cmpf .olt main_v54 main_v55
  let main_c_21 : IVec S_ 1 := constantI S_ 1 1#1
  let main_v57 : IVec S_ 1 := (fun x v => Host.reduce IntOp.andi x v reducesTo_S256x40_S_d0_1 h_S_) main_v56 main_c_21
  let main_v58 : IVec S_ 1 := andi main_v53 main_v57
  let main_v59 : FVec F S40 .f32 := Host.absf main_arg13
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  let main_v64 : FVec F S40 .f32 := Host.absf main_arg14
  let main_cst_24 : FVec F S_ .f32 := constant S_ .f32 0x7F800000#32
  let main_v65 : FVec F S40 .f32 := broadcastInDim S40 ![] bcast_S_S40 main_cst_24
  let main_v66 : IVec S40 1 := cmpf .olt main_v64 main_v65
  let main_c_25 : IVec S_ 1 := constantI S_ 1 1#1
  let main_v67 : IVec S_ 1 := (fun x v => Host.reduce IntOp.andi x v reducesTo_S40_S_d0 h_S_) main_v66 main_c_25
  fn_part4 (F := F) main_arg15 main_arg16 main_v63 main_v67

def fn_part2 {F : FTy → Type} [FloatOps F] (main_arg8 : FVec F S64 .f32) (main_arg9 : FVec F S64 .f32) (main_arg10 : FVec F S256x256 .f32) (main_arg11 : FVec F S256 .f32) (main_arg12 : FVec F S256x40 .f32) (main_arg13 : FVec F S40 .f32) (main_arg14 : FVec F S40 .f32) (main_arg15 : FVec F S256x1 .f32) (main_arg16 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_v48 main_v49 main_v50

def fn_part1 {F : FTy → Type} [FloatOps F] (main_arg5 : FVec F S128x256 .f32) (main_arg6 : FVec F S256 .f32) (main_arg7 : FVec F S256x256 .f32) (main_arg8 : FVec F S64 .f32) (main_arg9 : FVec F S64 .f32) (main_arg10 : FVec F S256x256 .f32) (main_arg11 : FVec F S256 .f32) (main_arg12 : FVec F S256x40 .f32) (main_arg13 : FVec F S40 .f32) (main_arg14 : FVec F S40 .f32) (main_arg15 : FVec F S256x1 .f32) (main_arg16 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : IVec S2x500000 32) (main_arg2 : FVec F S128x256 .f32) (main_arg3 : FVec F S64 .f32) (main_arg4 : FVec F S64 .f32) (main_arg5 : FVec F S128x256 .f32) (main_arg6 : FVec F S256 .f32) (main_arg7 : FVec F S256x256 .f32) (main_arg8 : FVec F S64 .f32) (main_arg9 : FVec F S64 .f32) (main_arg10 : FVec F S256x256 .f32) (main_arg11 : FVec F S256 .f32) (main_arg12 : FVec F S256x40 .f32) (main_arg13 : FVec F S40 .f32) (main_arg14 : FVec F S40 .f32) (main_arg15 : FVec F S256x1 .f32) (main_arg16 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x500000 : Shape := ⟨2, ![2, 500000]⟩
abbrev S128x256 : Shape := ⟨2, ![128, 256]⟩
abbrev S64 : Shape := ⟨1, ![64]⟩
abbrev S256 : Shape := ⟨1, ![256]⟩
abbrev S256x256 : Shape := ⟨2, ![256, 256]⟩
abbrev S256x40 : Shape := ⟨2, ![256, 40]⟩
abbrev S40 : Shape := ⟨1, ![40]⟩
abbrev S256x1 : Shape := ⟨2, ![256, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S50000 : Shape := ⟨1, ![50000]⟩
abbrev S500000x1 : Shape := ⟨2, ![500000, 1]⟩
abbrev S500000x128 : Shape := ⟨2, ![500000, 128]⟩
abbrev S50000x1 : Shape := ⟨2, ![50000, 1]⟩
abbrev S1x64 : Shape := ⟨2, ![1, 64]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S2000x64 : Shape := ⟨2, ![2000, 64]⟩
abbrev S2000 : Shape := ⟨1, ![2000]⟩
abbrev S2000x1 : Shape := ⟨2, ![2000, 1]⟩
abbrev S550000 : Shape := ⟨1, ![550000]⟩
abbrev S550000x1 : Shape := ⟨2, ![550000, 1]⟩
abbrev S550000x128 : Shape := ⟨2, ![550000, 128]⟩
abbrev S550000x256 : Shape := ⟨2, ![550000, 256]⟩
abbrev S550912x128 : Shape := ⟨2, ![550912, 128]⟩
abbrev S550912x256 : Shape := ⟨2, ![550912, 256]⟩
abbrev S2048x128 : Shape := ⟨2, ![2048, 128]⟩
abbrev S2048x256 : Shape := ⟨2, ![2048, 256]⟩
abbrev S2048 : Shape := ⟨1, ![2048]⟩
abbrev S2048x1 : Shape := ⟨2, ![2048, 1]⟩
abbrev S500000x256 : Shape := ⟨2, ![500000, 256]⟩
abbrev S1x40 : Shape := ⟨2, ![1, 40]⟩
abbrev S1x1 : Shape := ⟨2, ![1, 1]⟩
abbrev S50000x40 : Shape := ⟨2, ![50000, 40]⟩
abbrev S2000x40 : Shape := ⟨2, ![2000, 40]⟩
abbrev S550000x40 : Shape := ⟨2, ![550000, 40]⟩
abbrev S550912x40 : Shape := ⟨2, ![550912, 40]⟩
abbrev S2048x40 : Shape := ⟨2, ![2048, 40]⟩

abbrev nBuf : Space → Nat
  | .hbm => 281
  | .vmem => 57
  | .smem => 0
  | _ => 0

abbrev hbmTy0_0 (i : Nat) : BufTy := match i % 128 with
  | 0 => ⟨S50000x128, .f32⟩
  | 1 => ⟨S2x500000, .i32⟩
  | 2 => ⟨S128x256, .f32⟩
  | 3 => ⟨S64, .f32⟩
  | 4 => ⟨S64, .f32⟩
  | 5 => ⟨S128x256, .f32⟩
  | 6 => ⟨S256, .f32⟩
  | 7 => ⟨S256x256, .f32⟩
  | 8 => ⟨S64, .f32⟩
  | 9 => ⟨S64, .f32⟩
  | 10 => ⟨S256x256, .f32⟩
  | 11 => ⟨S256, .f32⟩
  | 12 => ⟨S256x40, .f32⟩
  | 13 => ⟨S40, .f32⟩
  | 14 => ⟨S40, .f32⟩
  | 15 => ⟨S256x1, .f32⟩
  | 16 => ⟨S1, .f32⟩
  | 17 => ⟨S1x500000, .i32⟩
  | 18 => ⟨S500000, .i32⟩
  | 19 => ⟨S1x500000, .i32⟩
  | 20 => ⟨S500000, .i32⟩
  | 21 => ⟨S_, .f32⟩
  | 22 => ⟨S500000, .f32⟩
  | 23 => ⟨S_, .f32⟩
  | 24 => ⟨S50000, .f32⟩
  | 25 => ⟨S500000x1, .i32⟩
  | 26 => ⟨S50000, .f32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000x128, .f32⟩
  | 36 => ⟨S_, .f32⟩
  | 37 => ⟨S50000x128, .f32⟩
  | 38 => ⟨S500000x1, .i32⟩
  | 39 => ⟨S50000x128, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S1x64, .f32⟩
  | 47 => ⟨S1x64, .f32⟩
  | 48 => ⟨S1x256, .f32⟩
  | 49 => ⟨S50000x256, .f32⟩
  | 50 => ⟨S50000x256, .f32⟩
  | 51 => ⟨S50000, .i32⟩
  | 52 => ⟨S550000, .i32⟩
  | 53 => ⟨S550000, .i32⟩
  | 54 => ⟨S_, .i32⟩
  | 55 => ⟨S550000, .i32⟩
  | 56 => ⟨S550000, .i1⟩
  | 57 => ⟨S_, .i32⟩
  | 58 => ⟨S550000, .i32⟩
  | 59 => ⟨S550000, .i32⟩
  | 60 => ⟨S550000, .i32⟩
  | 61 => ⟨S550000x1, .i32⟩
  | 62 => ⟨S550000x128, .f32⟩
  | 63 => ⟨S_, .i32⟩
  | 64 => ⟨S550000, .i32⟩
  | 65 => ⟨S550000, .i1⟩
  | 66 => ⟨S_, .i32⟩
  | 67 => ⟨S550000, .i32⟩
  | 68 => ⟨S550000, .i32⟩
  | 69 => ⟨S550000, .i32⟩
  | 70 => ⟨S550000x1, .i32⟩
  | 71 => ⟨S550000x128, .f32⟩
  | 72 => ⟨S_, .i32⟩
  | 73 => ⟨S550000, .i32⟩
  | 74 => ⟨S550000, .i1⟩
  | 75 => ⟨S_, .i32⟩
  | 76 => ⟨S550000, .i32⟩
  | 77 => ⟨S550000, .i32⟩
  | 78 => ⟨S550000, .i32⟩
  | 79 => ⟨S550000x1, .i32⟩
  | 80 => ⟨S550000x256, .f32⟩
  | 81 => ⟨S_, .i32⟩
  | 82 => ⟨S_, .f32⟩
  | 83 => ⟨S550912x128, .f32⟩
  | 84 => ⟨S_, .i32⟩
  | 85 => ⟨S_, .f32⟩
  | 86 => ⟨S550912x128, .f32⟩
  | 87 => ⟨S_, .i32⟩
  | 88 => ⟨S_, .f32⟩
  | 89 => ⟨S550912x256, .f32⟩
  | 90 => ⟨S550912x256, .f32⟩
  | 91 => ⟨S550000x256, .f32⟩
  | 92 => ⟨S_, .f32⟩
  | 93 => ⟨S50000x256, .f32⟩
  | 94 => ⟨S550000x1, .i32⟩
  | 95 => ⟨S50000x256, .f32⟩
  | 96 => ⟨S50000x256, .f32⟩
  | 97 => ⟨S_, .f32⟩
  | 98 => ⟨S50000x256, .f32⟩
  | 99 => ⟨S50000x256, .i1⟩
  | 100 => ⟨S50000x256, .f32⟩
  | 101 => ⟨S_, .f32⟩
  | 102 => ⟨S50000x256, .f32⟩
  | 103 => ⟨S50000x256, .f32⟩
  | 104 => ⟨S50000x256, .f32⟩
  | 105 => ⟨S_, .f32⟩
  | 106 => ⟨S500000, .f32⟩
  | 107 => ⟨S_, .f32⟩
  | 108 => ⟨S50000, .f32⟩
  | 109 => ⟨S500000x1, .i32⟩
  | 110 => ⟨S50000, .f32⟩
  | 111 => ⟨S_, .i32⟩
  | 112 => ⟨S500000, .i32⟩
  | 113 => ⟨S500000, .i1⟩
  | 114 => ⟨S_, .i32⟩
  | 115 => ⟨S500000, .i32⟩
  | 116 => ⟨S500000, .i32⟩
  | 117 => ⟨S500000, .i32⟩
  | 118 => ⟨S500000x1, .i32⟩
  | 119 => ⟨S500000x256, .f32⟩
  | 120 => ⟨S_, .f32⟩
  | 121 => ⟨S50000x256, .f32⟩
  | 122 => ⟨S500000x1, .i32⟩
  | 123 => ⟨S50000x256, .f32⟩
  | 124 => ⟨S_, .f32⟩
  | 125 => ⟨S50000, .f32⟩
  | 126 => ⟨S50000, .f32⟩
  | 127 => ⟨S50000x1, .f32⟩
  | _ => ⟨S50000x128, .f32⟩

abbrev hbmTy0_1 (i : Nat) : BufTy := match i % 128 with
  | 0 => ⟨S50000x256, .f32⟩
  | 1 => ⟨S50000x256, .f32⟩
  | 2 => ⟨S1x64, .f32⟩
  | 3 => ⟨S1x64, .f32⟩
  | 4 => ⟨S1x256, .f32⟩
  | 5 => ⟨S50000x256, .f32⟩
  | 6 => ⟨S50000x256, .f32⟩
  | 7 => ⟨S50000, .i32⟩
  | 8 => ⟨S550000, .i32⟩
  | 9 => ⟨S550000, .i32⟩
  | 10 => ⟨S_, .i32⟩
  | 11 => ⟨S550000, .i32⟩
  | 12 => ⟨S550000, .i1⟩
  | 13 => ⟨S_, .i32⟩
  | 14 => ⟨S550000, .i32⟩
  | 15 => ⟨S550000, .i32⟩
  | 16 => ⟨S550000, .i32⟩
  | 17 => ⟨S550000x1, .i32⟩
  | 18 => ⟨S550000x256, .f32⟩
  | 19 => ⟨S_, .i32⟩
  | 20 => ⟨S550000, .i32⟩
  | 21 => ⟨S550000, .i1⟩
  | 22 => ⟨S_, .i32⟩
  | 23 => ⟨S550000, .i32⟩
  | 24 => ⟨S550000, .i32⟩
  | 25 => ⟨S550000, .i32⟩
  | 26 => ⟨S550000x1, .i32⟩
  | 27 => ⟨S550000x256, .f32⟩
  | 28 => ⟨S_, .i32⟩
  | 29 => ⟨S550000, .i32⟩
  | 30 => ⟨S550000, .i1⟩
  | 31 => ⟨S_, .i32⟩
  | 32 => ⟨S550000, .i32⟩
  | 33 => ⟨S550000, .i32⟩
  | 34 => ⟨S550000, .i32⟩
  | 35 => ⟨S550000x1, .i32⟩
  | 36 => ⟨S550000x256, .f32⟩
  | 37 => ⟨S_, .i32⟩
  | 38 => ⟨S_, .f32⟩
  | 39 => ⟨S550912x256, .f32⟩
  | 40 => ⟨S_, .i32⟩
  | 41 => ⟨S_, .f32⟩
  | 42 => ⟨S550912x256, .f32⟩
  | 43 => ⟨S_, .i32⟩
  | 44 => ⟨S_, .f32⟩
  | 45 => ⟨S550912x256, .f32⟩
  | 46 => ⟨S550912x256, .f32⟩
  | 47 => ⟨S550000x256, .f32⟩
  | 48 => ⟨S_, .f32⟩
  | 49 => ⟨S50000x256, .f32⟩
  | 50 => ⟨S550000x1, .i32⟩
  | 51 => ⟨S50000x256, .f32⟩
  | 52 => ⟨S50000x256, .f32⟩
  | 53 => ⟨S_, .f32⟩
  | 54 => ⟨S50000x256, .f32⟩
  | 55 => ⟨S50000x256, .i1⟩
  | 56 => ⟨S50000x256, .f32⟩
  | 57 => ⟨S_, .f32⟩
  | 58 => ⟨S50000x256, .f32⟩
  | 59 => ⟨S50000x256, .f32⟩
  | 60 => ⟨S50000x256, .f32⟩
  | 61 => ⟨S_, .f32⟩
  | 62 => ⟨S500000, .f32⟩
  | 63 => ⟨S_, .f32⟩
  | 64 => ⟨S50000, .f32⟩
  | 65 => ⟨S500000x1, .i32⟩
  | 66 => ⟨S50000, .f32⟩
  | 67 => ⟨S_, .i32⟩
  | 68 => ⟨S500000, .i32⟩
  | 69 => ⟨S500000, .i1⟩
  | 70 => ⟨S_, .i32⟩
  | 71 => ⟨S500000, .i32⟩
  | 72 => ⟨S500000, .i32⟩
  | 73 => ⟨S500000, .i32⟩
  | 74 => ⟨S500000x1, .i32⟩
  | 75 => ⟨S500000x256, .f32⟩
  | 76 => ⟨S_, .f32⟩
  | 77 => ⟨S50000x256, .f32⟩
  | 78 => ⟨S500000x1, .i32⟩
  | 79 => ⟨S50000x256, .f32⟩
  | 80 => ⟨S_, .f32⟩
  | 81 => ⟨S50000, .f32⟩
  | 82 => ⟨S50000, .f32⟩
  | 83 => ⟨S50000x1, .f32⟩
  | 84 => ⟨S50000x256, .f32⟩
  | 85 => ⟨S50000x256, .f32⟩
  | 86 => ⟨S1x40, .f32⟩
  | 87 => ⟨S1x40, .f32⟩
  | 88 => ⟨S1x1, .f32⟩
  | 89 => ⟨S50000x40, .f32⟩
  | 90 => ⟨S50000x1, .f32⟩
  | 91 => ⟨S50000, .i32⟩
  | 92 => ⟨S550000, .i32⟩
  | 93 => ⟨S550000, .i32⟩
  | 94 => ⟨S_, .i32⟩
  | 95 => ⟨S550000, .i32⟩
  | 96 => ⟨S550000, .i1⟩
  | 97 => ⟨S_, .i32⟩
  | 98 => ⟨S550000, .i32⟩
  | 99 => ⟨S550000, .i32⟩
  | 100 => ⟨S550000, .i32⟩
  | 101 => ⟨S550000x1, .i32⟩
  | 102 => ⟨S550000x256, .f32⟩
  | 103 => ⟨S_, .i32⟩
  | 104 => ⟨S550000, .i32⟩
  | 105 => ⟨S550000, .i1⟩
  | 106 => ⟨S_, .i32⟩
  | 107 => ⟨S550000, .i32⟩
  | 108 => ⟨S550000, .i32⟩
  | 109 => ⟨S550000, .i32⟩
  | 110 => ⟨S550000x1, .i32⟩
  | 111 => ⟨S550000x256, .f32⟩
  | 112 => ⟨S_, .i32⟩
  | 113 => ⟨S550000, .i32⟩
  | 114 => ⟨S550000, .i1⟩
  | 115 => ⟨S_, .i32⟩
  | 116 => ⟨S550000, .i32⟩
  | 117 => ⟨S550000, .i32⟩
  | 118 => ⟨S550000, .i32⟩
  | 119 => ⟨S550000x1, .i32⟩
  | 120 => ⟨S550000x40, .f32⟩
  | 121 => ⟨S_, .i32⟩
  | 122 => ⟨S_, .f32⟩
  | 123 => ⟨S550912x256, .f32⟩
  | 124 => ⟨S_, .i32⟩
  | 125 => ⟨S_, .f32⟩
  | 126 => ⟨S550912x256, .f32⟩
  | 127 => ⟨S_, .i32⟩
  | _ => ⟨S50000x128, .f32⟩

abbrev hbmTy0_2 (i : Nat) : BufTy := match i % 128 with
  | 0 => ⟨S_, .f32⟩
  | 1 => ⟨S550912x40, .f32⟩
  | 2 => ⟨S550912x40, .f32⟩
  | 3 => ⟨S550000x40, .f32⟩
  | 4 => ⟨S_, .f32⟩
  | 5 => ⟨S50000x40, .f32⟩
  | 6 => ⟨S550000x1, .i32⟩
  | 7 => ⟨S50000x40, .f32⟩
  | 8 => ⟨S50000x40, .f32⟩
  | 9 => ⟨S50000x40, .f32⟩
  | 10 => ⟨S_, .f32⟩
  | 11 => ⟨S50000, .f32⟩
  | 12 => ⟨S_, .f32⟩
  | 13 => ⟨S50000, .f32⟩
  | 14 => ⟨S50000, .f32⟩
  | 15 => ⟨S50000x1, .f32⟩
  | 16 => ⟨S50000x40, .f32⟩
  | 17 => ⟨S50000x40, .f32⟩
  | 18 => ⟨S50000x40, .f32⟩
  | 19 => ⟨S_, .f32⟩
  | 20 => ⟨S50000, .f32⟩
  | 21 => ⟨S50000x1, .f32⟩
  | 22 => ⟨S50000x1, .f32⟩
  | 23 => ⟨S50000x40, .f32⟩
  | 24 => ⟨S50000x40, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x64, .f32⟩
  | .local _ .vmem, ⟨4, _⟩ => ⟨S1x64, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2000x256, .f32⟩
  | .local _ .vmem, ⟨20, _⟩ => ⟨S2000x256, .f32⟩
  | .local _ .vmem, ⟨21, _⟩ => ⟨S256x256, .f32⟩
  | .local _ .vmem, ⟨22, _⟩ => ⟨S1x64, .f32⟩
  | .local _ .vmem, ⟨23, _⟩ => ⟨S1x64, .f32⟩
  | .local _ .vmem, ⟨24, _⟩ => ⟨S256x256, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2048x256, .f32⟩
  | .local _ .vmem, ⟨31, _⟩ => ⟨S2048x256, .f32⟩
  | .local _ .vmem, ⟨32, _⟩ => ⟨S2048x256, .f32⟩
  | .local _ .vmem, ⟨33, _⟩ => ⟨S2048x256, .f32⟩
  | .local _ .vmem, ⟨34, _⟩ => ⟨S2048x256, .f32⟩
  | .local _ .vmem, ⟨35, _⟩ => ⟨S2048x256, .f32⟩
  | .local _ .vmem, ⟨36, _⟩ => ⟨S2048x256, .f32⟩
  | .local _ .vmem, ⟨37, _⟩ => ⟨S2048x256, .f32⟩
  | .local _ .vmem, ⟨38, _⟩ => ⟨S2000x256, .f32⟩
  | .local _ .vmem, ⟨39, _⟩ => ⟨S2000x256, .f32⟩
  | .local _ .vmem, ⟨40, _⟩ => ⟨S256x40, .f32⟩
  | .local _ .vmem, ⟨41, _⟩ => ⟨S1x40, .f32⟩
  | .local _ .vmem, ⟨42, _⟩ => ⟨S1x40, .f32⟩
  | .local _ .vmem, ⟨43, _⟩ => ⟨S256x1, .f32⟩
  | .local _ .vmem, ⟨44, _⟩ => ⟨S1x1, .f32⟩
  | .local _ .vmem, ⟨45, _⟩ => ⟨S2000x40, .f32⟩
  | .local _ .vmem, ⟨46, _⟩ => ⟨S2000x40, .f32⟩
  | .local _ .vmem, ⟨47, _⟩ => ⟨S2000x1, .f32⟩
  | .local _ .vmem, ⟨48, _⟩ => ⟨S2000x1, .f32⟩
  | .local _ .vmem, ⟨49, _⟩ => ⟨S2048x256, .f32⟩
  | .local _ .vmem, ⟨50, _⟩ => ⟨S2048x256, .f32⟩
  | .local _ .vmem, ⟨51, _⟩ => ⟨S2048x256, .f32⟩
  | .local _ .vmem, ⟨52, _⟩ => ⟨S2048x256, .f32⟩
  | .local _ .vmem, ⟨53, _⟩ => ⟨S2048x40, .f32⟩
  | .local _ .vmem, ⟨54, _⟩ => ⟨S2048x40, .f32⟩
  | .local _ .vmem, ⟨55, _⟩ => ⟨S2048x40, .f32⟩
  | .local _ .vmem, ⟨56, _⟩ => ⟨S2048x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c : Ref sig .tc := ⟨.hbm, 27, rfl⟩
abbrev main_v8 : Ref sig .tc := ⟨.hbm, 28, rfl⟩
abbrev main_v9 : Ref sig .tc := ⟨.hbm, 29, rfl⟩
abbrev main_c_1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26_0 : Ref sig .tc := ⟨.hbm, 49, rfl⟩
abbrev main_v26_1 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_6 : Ref sig .tc := ⟨.hbm, 63, rfl⟩
abbrev main_v37 : Ref sig .tc := ⟨.hbm, 64, rfl⟩
abbrev main_v38 : Ref sig .tc := ⟨.hbm, 65, rfl⟩
abbrev main_c_7 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_8 : Ref sig .tc := ⟨.hbm, 72, rfl⟩
abbrev main_v44 : Ref sig .tc := ⟨.hbm, 73, rfl⟩
abbrev main_v45 : Ref sig .tc := ⟨.hbm, 74, rfl⟩
abbrev main_c_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_10 : Ref sig .tc := ⟨.hbm, 81, rfl⟩
abbrev main_call0_v0 : Ref sig .tc := ⟨.hbm, 82, rfl⟩
abbrev main_v51 : Ref sig .tc := ⟨.hbm, 83, rfl⟩
abbrev main_c_11 : Ref sig .tc := ⟨.hbm, 84, rfl⟩
abbrev main_call1_v0 : Ref sig .tc := ⟨.hbm, 85, rfl⟩
abbrev main_v52 : Ref sig .tc := ⟨.hbm, 86, rfl⟩
abbrev main_c_12 : Ref sig .tc := ⟨.hbm, 87, rfl⟩
abbrev main_call2_v0 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_13 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_14 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_15 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_16 : Ref sig .tc := ⟨.hbm, 105, rfl⟩
abbrev main_v66 : Ref sig .tc := ⟨.hbm, 106, rfl⟩
abbrev main_cst_17 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_18 : Ref sig .tc := ⟨.hbm, 111, rfl⟩
abbrev main_v70 : Ref sig .tc := ⟨.hbm, 112, rfl⟩
abbrev main_v71 : Ref sig .tc := ⟨.hbm, 113, rfl⟩
abbrev main_c_19 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_20 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_21 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88_0 : Ref sig .tc := ⟨.hbm, 133, rfl⟩
abbrev main_v88_1 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_c_22 : Ref sig .tc := ⟨.hbm, 138, rfl⟩
abbrev main_v92 : Ref sig .tc := ⟨.hbm, 139, rfl⟩
abbrev main_v93 : Ref sig .tc := ⟨.hbm, 140, rfl⟩
abbrev main_c_23 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_c_24 : Ref sig .tc := ⟨.hbm, 147, rfl⟩
abbrev main_v99 : Ref sig .tc := ⟨.hbm, 148, rfl⟩
abbrev main_v100 : Ref sig .tc := ⟨.hbm, 149, rfl⟩
abbrev main_c_25 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_c_26 : Ref sig .tc := ⟨.hbm, 156, rfl⟩
abbrev main_v106 : Ref sig .tc := ⟨.hbm, 157, rfl⟩
abbrev main_v107 : Ref sig .tc := ⟨.hbm, 158, rfl⟩
abbrev main_c_27 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_c_28 : Ref sig .tc := ⟨.hbm, 165, rfl⟩
abbrev main_call4_v0 : Ref sig .tc := ⟨.hbm, 166, rfl⟩
abbrev main_v113 : Ref sig .tc := ⟨.hbm, 167, rfl⟩
abbrev main_c_29 : Ref sig .tc := ⟨.hbm, 168, rfl⟩
abbrev main_call5_v0 : Ref sig .tc := ⟨.hbm, 169, rfl⟩
abbrev main_v114 : Ref sig .tc := ⟨.hbm, 170, rfl⟩
abbrev main_c_30 : Ref sig .tc := ⟨.hbm, 171, rfl⟩
abbrev main_call6_v0 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_cst_31 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_cst_32 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_cst_33 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_cst_34 : Ref sig .tc := ⟨.hbm, 189, rfl⟩
abbrev main_v128 : Ref sig .tc := ⟨.hbm, 190, rfl⟩
abbrev main_cst_35 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_c_36 : Ref sig .tc := ⟨.hbm, 195, rfl⟩
abbrev main_v132 : Ref sig .tc := ⟨.hbm, 196, rfl⟩
abbrev main_v133 : Ref sig .tc := ⟨.hbm, 197, rfl⟩
abbrev main_c_37 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_cst_38 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_cst_39 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150_0 : Ref sig .tc := ⟨.hbm, 217, rfl⟩
abbrev main_v150_1 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_c_40 : Ref sig .tc := ⟨.hbm, 222, rfl⟩
abbrev main_v154 : Ref sig .tc := ⟨.hbm, 223, rfl⟩
abbrev main_v155 : Ref sig .tc := ⟨.hbm, 224, rfl⟩
abbrev main_c_41 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_c_42 : Ref sig .tc := ⟨.hbm, 231, rfl⟩
abbrev main_v161 : Ref sig .tc := ⟨.hbm, 232, rfl⟩
abbrev main_v162 : Ref sig .tc := ⟨.hbm, 233, rfl⟩
abbrev main_c_43 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_c_44 : Ref sig .tc := ⟨.hbm, 240, rfl⟩
abbrev main_v168 : Ref sig .tc := ⟨.hbm, 241, rfl⟩
abbrev main_v169 : Ref sig .tc := ⟨.hbm, 242, rfl⟩
abbrev main_c_45 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_c_46 : Ref sig .tc := ⟨.hbm, 249, rfl⟩
abbrev main_call8_v0 : Ref sig .tc := ⟨.hbm, 250, rfl⟩
abbrev main_v175 : Ref sig .tc := ⟨.hbm, 251, rfl⟩
abbrev main_c_47 : Ref sig .tc := ⟨.hbm, 252, rfl⟩
abbrev main_call9_v0 : Ref sig .tc := ⟨.hbm, 253, rfl⟩
abbrev main_v176 : Ref sig .tc := ⟨.hbm, 254, rfl⟩
abbrev main_c_48 : Ref sig .tc := ⟨.hbm, 255, rfl⟩
abbrev main_call10_v0 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_cst_49 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_call11_cst : Ref sig .tc := ⟨.hbm, 266, rfl⟩
abbrev main_call11_v0 : Ref sig .tc := ⟨.hbm, 267, rfl⟩
abbrev main_call11_cst_0 : Ref sig .tc := ⟨.hbm, 268, rfl⟩
abbrev main_call11_v1 : Ref sig .tc := ⟨.hbm, 269, rfl⟩
abbrev main_call11_v2 : Ref sig .tc := ⟨.hbm, 270, rfl⟩
abbrev main_call11_v3 : Ref sig .tc := ⟨.hbm, 271, rfl⟩
abbrev main_call11_v4 : Ref sig .tc := ⟨.hbm, 272, rfl⟩
abbrev main_call11_v5 : Ref sig .tc := ⟨.hbm, 273, rfl⟩
abbrev main_call11_v6 : Ref sig .tc := ⟨.hbm, 274, rfl⟩
abbrev main_call11_cst_1 : Ref sig .tc := ⟨.hbm, 275, rfl⟩
abbrev main_call11_v7 : Ref sig .tc := ⟨.hbm, 276, rfl⟩
abbrev main_call11_v8 : Ref sig .tc := ⟨.hbm, 277, rfl⟩
abbrev main_call11_v9 : Ref sig .tc := ⟨.hbm, 278, rfl⟩
abbrev main_call11_v10 : Ref sig .tc := ⟨.hbm, 279, rfl⟩
abbrev main_v185 : Ref sig .tc := ⟨.hbm, 280, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg6_0 : Ref sig .tc := ⟨.vmem, 45, rfl⟩
abbrev cc4_stg6_1 : Ref sig .tc := ⟨.vmem, 46, rfl⟩
abbrev cc4_stg7_0 : Ref sig .tc := ⟨.vmem, 47, rfl⟩
abbrev cc4_stg7_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg2_1 : Ref sig .tc := ⟨.vmem, 54, rfl⟩
abbrev cc5_stg3_0 : Ref sig .tc := ⟨.vmem, 55, rfl⟩
abbrev cc5_stg3_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem4_0 : DmaSem sig := 43
abbrev cc4_sem5_0 : DmaSem sig := 44
abbrev cc4_sem6_0 : DmaSem sig := 45
abbrev cc4_sem6_1 : DmaSem sig := 46
abbrev cc4_sem7_0 : DmaSem sig := 47
abbrev cc4_sem7_1 : DmaSem sig := 48
abbrev cc5_sem0_0 : DmaSem sig := 49
abbrev cc5_sem0_1 : DmaSem sig := 50
abbrev cc5_sem1_0 : DmaSem sig := 51
abbrev cc5_sem1_1 : DmaSem sig := 52
abbrev cc5_sem2_0 : DmaSem sig := 53
abbrev cc5_sem2_1 : DmaSem sig := 54
abbrev cc5_sem3_0 : DmaSem sig := 55
abbrev cc5_sem3_1 : DmaSem sig := 56

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![269], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![269], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2048x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x40 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S2000x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![269], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2048x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S64_S1x64 : S64.ShapeCasts S1x64
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  slices_S2000x256_o0_0_S2000x64 : S2000x256.Slices ![0, 0] S2000x64
  reduces_S2000x64_S2000 : S2000x64.Reduces [1] S2000
  shapeCasts_S2000_S2000x1 : S2000.ShapeCasts S2000x1
  broadcasts_S2000x1_S2000x64 : S2000x1.Broadcasts S2000x64
  broadcasts_S1x64_S2000x64 : S1x64.Broadcasts S2000x64
  inb_S2000x256_S2000x64_0_0 : ∀ a, (![0, 0] : Fin 2 → Nat) a + S2000x64.size a ≤ S2000x256.size a
  h_S2000x64 : 0 < S2000x64.numel
  slices_S2000x256_o0_64_S2000x64 : S2000x256.Slices ![0, 64] S2000x64
  inb_S2000x256_S2000x64_0_64 : ∀ a, (![0, 64] : Fin 2 → Nat) a + S2000x64.size a ≤ S2000x256.size a
  slices_S2000x256_o0_128_S2000x64 : S2000x256.Slices ![0, 128] S2000x64
  inb_S2000x256_S2000x64_0_128 : ∀ a, (![0, 128] : Fin 2 → Nat) a + S2000x64.size a ≤ S2000x256.size a
  slices_S2000x256_o0_192_S2000x64 : S2000x256.Slices ![0, 192] S2000x64
  inb_S2000x256_S2000x64_0_192 : ∀ a, (![0, 192] : Fin 2 → Nat) a + S2000x64.size a ≤ S2000x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  concatenates_S500000_S50000_S550000_d0 : Shape.Concatenates [S500000, S50000] S550000 0
  bcast_S_S550000 : S_.BroadcastsInDim S550000 (![] : Fin 0 → Fin S550000.rank)
  bcast_S550000_S550000x1_0 : S550000.BroadcastsInDim S550000x1 (![0] : Fin 1 → Fin S550000x1.rank)
  pads_S550000x128_S550912x128_09120_000 : S550000x128.Pads (![0, 0] : Fin 2 → Nat) ![912, 0] ![0, 0] S550912x128
  h_S_ : 0 < S_.numel
  pads_S550000x256_S550912x256_09120_000 : S550000x256.Pads (![0, 0] : Fin 2 → Nat) ![912, 0] ![0, 0] S550912x256
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S2048x128_S2048 : S2048x128.Reduces [1] S2048
  shapeCasts_S2048_S2048x1 : S2048.ShapeCasts S2048x1
  broadcasts_S2048x1_S2048x256 : S2048x1.Broadcasts S2048x256
  slices_S550912x256_S550000x256_0_0 : S550912x256.Slices ![0, 0] S550000x256
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  reduces_S2048x256_S2048 : S2048x256.Reduces [1] S2048
  shapeCasts_S40_S1x40 : S40.ShapeCasts S1x40
  shapeCasts_S1_S1x1 : S1.ShapeCasts S1x1
  inb_S256x40_S256x40_0_0 : ∀ a, (![0, 0] : Fin 2 → Nat) a + S256x40.size a ≤ S256x40.size a
  h_S256x40 : 0 < S256x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  reduces_S2000x40_S2000 : S2000x40.Reduces [1] S2000
  broadcasts_S2000x1_S2000x40 : S2000x1.Broadcasts S2000x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  pads_S550000x40_S550912x40_09120_000 : S550000x40.Pads (![0, 0] : Fin 2 → Nat) ![912, 0] ![0, 0] S550912x40
  inb_S2048x40_S2048x40_0_0 : ∀ a, (![0, 0] : Fin 2 → Nat) a + S2048x40.size a ≤ S2048x40.size a
  h_S2048x40 : 0 < S2048x40.numel
  shapeCasts_S2048x40_S2048x40 : S2048x40.ShapeCasts S2048x40
  broadcasts_S2048x1_S2048x40 : S2048x1.Broadcasts S2048x40
  slices_S550912x40_S550000x40_0_0 : S550912x40.Slices ![0, 0] S550000x40
  bcast_S_S50000x40 : S_.BroadcastsInDim S50000x40 (![] : Fin 0 → Fin S50000x40.rank)
  bcast_S50000x1_S50000x40_0_1 : S50000x1.BroadcastsInDim S50000x40 (![0, 1] : Fin 2 → Fin S50000x40.rank)
  reducesTo_S50000x40_S50000_d1 : S50000x40.ReducesTo [1] S50000
  scatter_S50000_S500000x1_S500000_n_0_0_1_wf : ScatterDims.WF S50000 S500000x1 S500000 [] [0] [0] 1
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S2000x128_S128x256_S2000x256_1_0_0_1_n_n_wf : DotDims.WF S2000x128 S128x256 S2000x256 [1] [0] [0] [1] [] []
  gather_S50000x128_S550000x1_S550000x128_1_0_n_n_0_1_1128_wf : GatherDims.WF S50000x128 S550000x1 S550000x128 [1] [0] [] [0] [] 1 ![1, 128]
  gather_S50000x256_S550000x1_S550000x256_1_0_n_n_0_1_1256_wf : GatherDims.WF S50000x256 S550000x1 S550000x256 [1] [0] [] [0] [] 1 ![1, 256]
  scatter_S50000x256_S550000x1_S550000x256_1_0_0_1_wf : ScatterDims.WF S50000x256 S550000x1 S550000x256 [1] [0] [0] 1
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  dot_S2000x256_S256x256_S2000x256_1_0_0_1_n_n_wf : DotDims.WF S2000x256 S256x256 S2000x256 [1] [0] [0] [1] [] []
  dot_S2000x256_S256x40_S2000x40_1_0_0_1_n_n_wf : DotDims.WF S2000x256 S256x40 S2000x40 [1] [0] [0] [1] [] []
  dot_S2000x256_S256x1_S2000x1_1_0_0_1_n_n_wf : DotDims.WF S2000x256 S256x1 S2000x1 [1] [0] [0] [1] [] []
  gather_S50000x40_S550000x1_S550000x40_1_0_n_n_0_1_140_wf : GatherDims.WF S50000x40 S550000x1 S550000x40 [1] [0] [] [0] [] 1 ![1, 40]
  scatter_S50000x40_S550000x1_S550000x40_1_0_0_1_wf : ScatterDims.WF S50000x40 S550000x1 S550000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S550912x128.size a
  hwx1_0 : ∀ i : grid1.Coords, EltTy.bits .f32 = 32 ∨ (Rect.block (s := S550912x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S550912x128.size a
  hwx1_1 : ∀ i : grid1.Coords, EltTy.bits .f32 = 32 ∨ (Rect.block (s := S550912x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S550912x256.size a
  hwx1_2 : ∀ i : grid1.Coords, EltTy.bits .f32 = 32 ∨ (Rect.block (s := S550912x256) S2048x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S550912x256.size a
  hwx1_3 : ∀ i : grid1.Coords, EltTy.bits .f32 = 32 ∨ (Rect.block (s := S550912x256) S2048x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S50000x256.size a
  hwx2_6 : ∀ i : grid2.Coords, EltTy.bits .f32 = 32 ∨ (Rect.block (s := S50000x256) S2000x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x256.size a ≤ S50000x256.size a
  hwx2_7 : ∀ i : grid2.Coords, EltTy.bits .f32 = 32 ∨ (Rect.block (s := S50000x256) S2000x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S550912x256.size a
  hwx3_0 : ∀ i : grid3.Coords, EltTy.bits .f32 = 32 ∨ (Rect.block (s := S550912x256) S2048x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S550912x256.size a
  hwx3_1 : ∀ i : grid3.Coords, EltTy.bits .f32 = 32 ∨ (Rect.block (s := S550912x256) S2048x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x256.size a ≤ S550912x256.size a
  hwx3_2 : ∀ i : grid3.Coords, EltTy.bits .f32 = 32 ∨ (Rect.block (s := S550912x256) S2048x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x256.size a ≤ S550912x256.size a
  hwx3_3 : ∀ i : grid3.Coords, EltTy.bits .f32 = 32 ∨ (Rect.block (s := S550912x256) S2048x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x40.size a ≤ S256x40.size a
  hwx4_1 : ∀ i : grid4.Coords, EltTy.bits .f32 = 32 ∨ (Rect.block (s := S256x40) S256x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x40.size a ≤ S1x40.size a
  hwx4_3 : ∀ i : grid4.Coords, EltTy.bits .f32 = 32 ∨ (Rect.block (s := S1x40) S1x40.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x1.size a ≤ S256x1.size a
  hwx4_4 : ∀ i : grid4.Coords, EltTy.bits .f32 = 32 ∨ (Rect.block (s := S256x1) S256x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x40.size a ≤ S50000x40.size a
  hwx4_6 : ∀ i : grid4.Coords, EltTy.bits .f32 = 32 ∨ (Rect.block (s := S50000x40) S2000x40.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x1.size a ≤ S50000x1.size a
  hwx4_7 : ∀ i : grid4.Coords, EltTy.bits .f32 = 32 ∨ (Rect.block (s := S50000x1) S2000x1.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x256.size a ≤ S550912x256.size a
  hwx5_0 : ∀ i : grid5.Coords, EltTy.bits .f32 = 32 ∨ (Rect.block (s := S550912x256) S2048x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x256.size a ≤ S550912x256.size a
  hwx5_1 : ∀ i : grid5.Coords, EltTy.bits .f32 = 32 ∨ (Rect.block (s := S550912x256) S2048x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x40.size a ≤ S550912x40.size a
  hwx5_2 : ∀ i : grid5.Coords, EltTy.bits .f32 = 32 ∨ (Rect.block (s := S550912x40) S2048x40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x40.size a ≤ S550912x40.size a
  hwx5_3 : ∀ i : grid5.Coords, EltTy.bits .f32 = 32 ∨ (Rect.block (s := S550912x40) S2048x40.size (cc5_transform_3 i) (hinb5_3 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def gather_S50000x256_S550000x1_S550000x256_1_0_n_n_0_1_1256 : GatherDims S50000x256 S550000x1 S550000x256 where
  offsetDims := [1]
  collapsedSliceDims := [0]
  operandBatchingDims := []
  startIndicesBatchingDims := []
  startIndexMap := [0]
  indexVectorDim := 1
  sliceSizes := ![1, 256]
  wf := gather_S50000x256_S550000x1_S550000x256_1_0_n_n_0_1_1256_wf
def scatter_S50000x256_S550000x1_S550000x256_1_0_0_1 : ScatterDims S50000x256 S550000x1 S550000x256 where
  updateWindowDims := [1]
  insertedWindowDims := [0]
  scatterDimsToOperandDims := [0]
  indexVectorDim := 1
  wf := scatter_S50000x256_S550000x1_S550000x256_1_0_0_1_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf
def gather_S50000x40_S550000x1_S550000x40_1_0_n_n_0_1_140 : GatherDims S50000x40 S550000x1 S550000x40 where
  offsetDims := [1]
  collapsedSliceDims := [0]
  operandBatchingDims := []
  startIndicesBatchingDims := []
  startIndexMap := [0]
  indexVectorDim := 1
  sliceSizes := ![1, 40]
  wf := gather_S50000x40_S550000x1_S550000x40_1_0_n_n_0_1_140_wf
def scatter_S50000x40_S550000x1_S550000x40_1_0_0_1 : ScatterDims S50000x40 S550000x1 S550000x40 where
  updateWindowDims := [1]
  insertedWindowDims := [0]
  scatterDimsToOperandDims := [0]
  indexVectorDim := 1
  wf := scatter_S50000x40_S550000x1_S550000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26_0) S2000x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_1) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v51) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v54) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v65) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v85) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v86) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v87) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v88_0) S2000x256.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v88_1) S2000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v113) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v114) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v115) S2048x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v116) S2048x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v127) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S256x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v147) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v148) S1x40.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg15) S256x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v149) S1x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v150_0) S2000x40.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v150_1) S2000x1.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v175) S2048x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v176) S2048x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v177) S2048x40.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v178) S2048x40.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S128x256 : Shape := ⟨2, ![128, 256]⟩
abbrev S64 : Shape := ⟨1, ![64]⟩
abbrev S256 : Shape := ⟨1, ![256]⟩
abbrev S256x256 : Shape := ⟨2, ![256, 256]⟩
abbrev S256x40 : Shape := ⟨2, ![256, 40]⟩
abbrev S40 : Shape := ⟨1, ![40]⟩
abbrev S256x1 : Shape := ⟨2, ![256, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S50000 : Shape := ⟨1, ![50000]⟩
abbrev S500000x1 : Shape := ⟨2, ![500000, 1]⟩
abbrev S500000x128 : Shape := ⟨2, ![500000, 128]⟩
abbrev S50000x1 : Shape := ⟨2, ![50000, 1]⟩
abbrev S50000x256 : Shape := ⟨2, ![50000, 256]⟩
abbrev S50000x4x64 : Shape := ⟨3, ![50000, 4, 64]⟩
abbrev S50000x4 : Shape := ⟨2, ![50000, 4]⟩
abbrev S50000x4x1 : Shape := ⟨3, ![50000, 4, 1]⟩
abbrev S1x1x64 : Shape := ⟨3, ![1, 1, 64]⟩
abbrev S550000 : Shape := ⟨1, ![550000]⟩
abbrev S550000x1 : Shape := ⟨2, ![550000, 1]⟩
abbrev S550000x128 : Shape := ⟨2, ![550000, 128]⟩
abbrev S550000x4x64 : Shape := ⟨3, ![550000, 4, 64]⟩
abbrev S550000x1x1 : Shape := ⟨3, ![550000, 1, 1]⟩
abbrev S1x256 : Shape := ⟨2, ![1, 256]⟩
abbrev S500000x256 : Shape := ⟨2, ![500000, 256]⟩
abbrev S550000x256 : Shape := ⟨2, ![550000, 256]⟩
abbrev S50000x40 : Shape := ⟨2, ![50000, 40]⟩
abbrev S50000x1x40 : Shape := ⟨3, ![50000, 1, 40]⟩
abbrev S50000x1x1 : Shape := ⟨3, ![50000, 1, 1]⟩
abbrev S1x1x40 : Shape := ⟨3, ![1, 1, 40]⟩
abbrev S550000x1x40 : Shape := ⟨3, ![550000, 1, 40]⟩
abbrev S1x1 : Shape := ⟨2, ![1, 1]⟩

abbrev nBuf : Space → Nat
  | .hbm => 416
  | .vmem => 0
  | .smem => 0
  | _ => 0

abbrev hbmTy0_0 (i : Nat) : BufTy := match i % 128 with
  | 0 => ⟨S50000x128, .f32⟩
  | 1 => ⟨S2x500000, .i32⟩
  | 2 => ⟨S128x256, .f32⟩
  | 3 => ⟨S64, .f32⟩
  | 4 => ⟨S64, .f32⟩
  | 5 => ⟨S128x256, .f32⟩
  | 6 => ⟨S256, .f32⟩
  | 7 => ⟨S256x256, .f32⟩
  | 8 => ⟨S64, .f32⟩
  | 9 => ⟨S64, .f32⟩
  | 10 => ⟨S256x256, .f32⟩
  | 11 => ⟨S256, .f32⟩
  | 12 => ⟨S256x40, .f32⟩
  | 13 => ⟨S40, .f32⟩
  | 14 => ⟨S40, .f32⟩
  | 15 => ⟨S256x1, .f32⟩
  | 16 => ⟨S1, .f32⟩
  | 17 => ⟨S1x500000, .i32⟩
  | 18 => ⟨S500000, .i32⟩
  | 19 => ⟨S1x500000, .i32⟩
  | 20 => ⟨S500000, .i32⟩
  | 21 => ⟨S_, .f32⟩
  | 22 => ⟨S500000, .f32⟩
  | 23 => ⟨S_, .f32⟩
  | 24 => ⟨S50000, .f32⟩
  | 25 => ⟨S500000x1, .i32⟩
  | 26 => ⟨S50000, .f32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000x128, .f32⟩
  | 36 => ⟨S_, .f32⟩
  | 37 => ⟨S50000x128, .f32⟩
  | 38 => ⟨S500000x1, .i32⟩
  | 39 => ⟨S50000x128, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S50000x256, .f32⟩
  | 47 => ⟨S50000x4x64, .f32⟩
  | 48 => ⟨S_, .f32⟩
  | 49 => ⟨S50000x4, .f32⟩
  | 50 => ⟨S50000x4x1, .f32⟩
  | 51 => ⟨S_, .f32⟩
  | 52 => ⟨S50000x4x1, .f32⟩
  | 53 => ⟨S50000x4x1, .f32⟩
  | 54 => ⟨S50000x4x64, .f32⟩
  | 55 => ⟨S50000x4x64, .f32⟩
  | 56 => ⟨S50000x4x64, .f32⟩
  | 57 => ⟨S_, .f32⟩
  | 58 => ⟨S50000x4, .f32⟩
  | 59 => ⟨S50000x4x1, .f32⟩
  | 60 => ⟨S_, .f32⟩
  | 61 => ⟨S50000x4x1, .f32⟩
  | 62 => ⟨S50000x4x1, .f32⟩
  | 63 => ⟨S50000x4x64, .f32⟩
  | 64 => ⟨S50000x4x64, .f32⟩
  | 65 => ⟨S_, .f32⟩
  | 66 => ⟨S50000x4x1, .f32⟩
  | 67 => ⟨S50000x4x1, .f32⟩
  | 68 => ⟨S50000x4x1, .f32⟩
  | 69 => ⟨S50000x4x64, .f32⟩
  | 70 => ⟨S50000x4x64, .f32⟩
  | 71 => ⟨S1x1x64, .f32⟩
  | 72 => ⟨S50000x4x64, .f32⟩
  | 73 => ⟨S50000x4x64, .f32⟩
  | 74 => ⟨S1x1x64, .f32⟩
  | 75 => ⟨S50000x4x64, .f32⟩
  | 76 => ⟨S50000x4x64, .f32⟩
  | 77 => ⟨S50000, .i32⟩
  | 78 => ⟨S550000, .i32⟩
  | 79 => ⟨S550000, .i32⟩
  | 80 => ⟨S_, .i32⟩
  | 81 => ⟨S550000, .i32⟩
  | 82 => ⟨S550000, .i1⟩
  | 83 => ⟨S_, .i32⟩
  | 84 => ⟨S550000, .i32⟩
  | 85 => ⟨S550000, .i32⟩
  | 86 => ⟨S550000, .i32⟩
  | 87 => ⟨S550000x1, .i32⟩
  | 88 => ⟨S550000x128, .f32⟩
  | 89 => ⟨S_, .i32⟩
  | 90 => ⟨S550000, .i32⟩
  | 91 => ⟨S550000, .i1⟩
  | 92 => ⟨S_, .i32⟩
  | 93 => ⟨S550000, .i32⟩
  | 94 => ⟨S550000, .i32⟩
  | 95 => ⟨S550000, .i32⟩
  | 96 => ⟨S550000x1, .i32⟩
  | 97 => ⟨S550000x128, .f32⟩
  | 98 => ⟨S550000x128, .f32⟩
  | 99 => ⟨S_, .f32⟩
  | 100 => ⟨S550000, .f32⟩
  | 101 => ⟨S550000, .f32⟩
  | 102 => ⟨S550000x128, .f32⟩
  | 103 => ⟨S_, .f32⟩
  | 104 => ⟨S550000, .f32⟩
  | 105 => ⟨S550000, .f32⟩
  | 106 => ⟨S550000, .f32⟩
  | 107 => ⟨S_, .f32⟩
  | 108 => ⟨S550000, .f32⟩
  | 109 => ⟨S550000, .f32⟩
  | 110 => ⟨S550000x128, .f32⟩
  | 111 => ⟨S_, .f32⟩
  | 112 => ⟨S550000, .f32⟩
  | 113 => ⟨S550000, .f32⟩
  | 114 => ⟨S_, .i32⟩
  | 115 => ⟨S550000, .i32⟩
  | 116 => ⟨S550000, .i1⟩
  | 117 => ⟨S_, .i32⟩
  | 118 => ⟨S550000, .i32⟩
  | 119 => ⟨S550000, .i32⟩
  | 120 => ⟨S550000, .i32⟩
  | 121 => ⟨S550000x1, .i32⟩
  | 122 => ⟨S550000x4x64, .f32⟩
  | 123 => ⟨S550000x1x1, .f32⟩
  | 124 => ⟨S550000x4x64, .f32⟩
  | 125 => ⟨S550000x4x64, .f32⟩
  | 126 => ⟨S_, .f32⟩
  | 127 => ⟨S50000x4x64, .f32⟩
  | _ => ⟨S50000x128, .f32⟩

abbrev hbmTy0_1 (i : Nat) : BufTy := match i % 128 with
  | 0 => ⟨S550000x1, .i32⟩
  | 1 => ⟨S50000x4x64, .f32⟩
  | 2 => ⟨S50000x256, .f32⟩
  | 3 => ⟨S50000x256, .f32⟩
  | 4 => ⟨S50000x256, .f32⟩
  | 5 => ⟨S1x256, .f32⟩
  | 6 => ⟨S50000x256, .f32⟩
  | 7 => ⟨S50000x256, .f32⟩
  | 8 => ⟨S_, .f32⟩
  | 9 => ⟨S50000x256, .f32⟩
  | 10 => ⟨S50000x256, .i1⟩
  | 11 => ⟨S_, .f32⟩
  | 12 => ⟨S50000x256, .f32⟩
  | 13 => ⟨S50000x256, .i1⟩
  | 14 => ⟨S_, .f32⟩
  | 15 => ⟨S_, .f32⟩
  | 16 => ⟨S50000x256, .f32⟩
  | 17 => ⟨S50000x256, .f32⟩
  | 18 => ⟨S50000x256, .f32⟩
  | 19 => ⟨S_, .f32⟩
  | 20 => ⟨S50000x256, .f32⟩
  | 21 => ⟨S50000x256, .f32⟩
  | 22 => ⟨S50000x256, .f32⟩
  | 23 => ⟨S_, .f32⟩
  | 24 => ⟨S500000, .f32⟩
  | 25 => ⟨S_, .f32⟩
  | 26 => ⟨S50000, .f32⟩
  | 27 => ⟨S500000x1, .i32⟩
  | 28 => ⟨S50000, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000x256, .f32⟩
  | 38 => ⟨S_, .f32⟩
  | 39 => ⟨S50000x256, .f32⟩
  | 40 => ⟨S500000x1, .i32⟩
  | 41 => ⟨S50000x256, .f32⟩
  | 42 => ⟨S_, .f32⟩
  | 43 => ⟨S50000, .f32⟩
  | 44 => ⟨S50000, .f32⟩
  | 45 => ⟨S50000x1, .f32⟩
  | 46 => ⟨S50000x256, .f32⟩
  | 47 => ⟨S50000x256, .f32⟩
  | 48 => ⟨S50000x256, .f32⟩
  | 49 => ⟨S50000x4x64, .f32⟩
  | 50 => ⟨S_, .f32⟩
  | 51 => ⟨S50000x4, .f32⟩
  | 52 => ⟨S50000x4x1, .f32⟩
  | 53 => ⟨S_, .f32⟩
  | 54 => ⟨S50000x4x1, .f32⟩
  | 55 => ⟨S50000x4x1, .f32⟩
  | 56 => ⟨S50000x4x64, .f32⟩
  | 57 => ⟨S50000x4x64, .f32⟩
  | 58 => ⟨S50000x4x64, .f32⟩
  | 59 => ⟨S_, .f32⟩
  | 60 => ⟨S50000x4, .f32⟩
  | 61 => ⟨S50000x4x1, .f32⟩
  | 62 => ⟨S_, .f32⟩
  | 63 => ⟨S50000x4x1, .f32⟩
  | 64 => ⟨S50000x4x1, .f32⟩
  | 65 => ⟨S50000x4x64, .f32⟩
  | 66 => ⟨S50000x4x64, .f32⟩
  | 67 => ⟨S_, .f32⟩
  | 68 => ⟨S50000x4x1, .f32⟩
  | 69 => ⟨S50000x4x1, .f32⟩
  | 70 => ⟨S50000x4x1, .f32⟩
  | 71 => ⟨S50000x4x64, .f32⟩
  | 72 => ⟨S50000x4x64, .f32⟩
  | 73 => ⟨S1x1x64, .f32⟩
  | 74 => ⟨S50000x4x64, .f32⟩
  | 75 => ⟨S50000x4x64, .f32⟩
  | 76 => ⟨S1x1x64, .f32⟩
  | 77 => ⟨S50000x4x64, .f32⟩
  | 78 => ⟨S50000x4x64, .f32⟩
  | 79 => ⟨S50000, .i32⟩
  | 80 => ⟨S550000, .i32⟩
  | 81 => ⟨S550000, .i32⟩
  | 82 => ⟨S_, .i32⟩
  | 83 => ⟨S550000, .i32⟩
  | 84 => ⟨S550000, .i1⟩
  | 85 => ⟨S_, .i32⟩
  | 86 => ⟨S550000, .i32⟩
  | 87 => ⟨S550000, .i32⟩
  | 88 => ⟨S550000, .i32⟩
  | 89 => ⟨S550000x1, .i32⟩
  | 90 => ⟨S550000x256, .f32⟩
  | 91 => ⟨S_, .i32⟩
  | 92 => ⟨S550000, .i32⟩
  | 93 => ⟨S550000, .i1⟩
  | 94 => ⟨S_, .i32⟩
  | 95 => ⟨S550000, .i32⟩
  | 96 => ⟨S550000, .i32⟩
  | 97 => ⟨S550000, .i32⟩
  | 98 => ⟨S550000x1, .i32⟩
  | 99 => ⟨S550000x256, .f32⟩
  | 100 => ⟨S550000x256, .f32⟩
  | 101 => ⟨S_, .f32⟩
  | 102 => ⟨S550000, .f32⟩
  | 103 => ⟨S550000, .f32⟩
  | 104 => ⟨S550000x256, .f32⟩
  | 105 => ⟨S_, .f32⟩
  | 106 => ⟨S550000, .f32⟩
  | 107 => ⟨S550000, .f32⟩
  | 108 => ⟨S550000, .f32⟩
  | 109 => ⟨S_, .f32⟩
  | 110 => ⟨S550000, .f32⟩
  | 111 => ⟨S550000, .f32⟩
  | 112 => ⟨S550000x256, .f32⟩
  | 113 => ⟨S_, .f32⟩
  | 114 => ⟨S550000, .f32⟩
  | 115 => ⟨S550000, .f32⟩
  | 116 => ⟨S_, .i32⟩
  | 117 => ⟨S550000, .i32⟩
  | 118 => ⟨S550000, .i1⟩
  | 119 => ⟨S_, .i32⟩
  | 120 => ⟨S550000, .i32⟩
  | 121 => ⟨S550000, .i32⟩
  | 122 => ⟨S550000, .i32⟩
  | 123 => ⟨S550000x1, .i32⟩
  | 124 => ⟨S550000x4x64, .f32⟩
  | 125 => ⟨S550000x1x1, .f32⟩
  | 126 => ⟨S550000x4x64, .f32⟩
  | 127 => ⟨S550000x4x64, .f32⟩
  | _ => ⟨S50000x128, .f32⟩

abbrev hbmTy0_2 (i : Nat) : BufTy := match i % 128 with
  | 0 => ⟨S_, .f32⟩
  | 1 => ⟨S50000x4x64, .f32⟩
  | 2 => ⟨S550000x1, .i32⟩
  | 3 => ⟨S50000x4x64, .f32⟩
  | 4 => ⟨S50000x256, .f32⟩
  | 5 => ⟨S50000x256, .f32⟩
  | 6 => ⟨S50000x256, .f32⟩
  | 7 => ⟨S1x256, .f32⟩
  | 8 => ⟨S50000x256, .f32⟩
  | 9 => ⟨S50000x256, .f32⟩
  | 10 => ⟨S_, .f32⟩
  | 11 => ⟨S50000x256, .f32⟩
  | 12 => ⟨S50000x256, .i1⟩
  | 13 => ⟨S_, .f32⟩
  | 14 => ⟨S50000x256, .f32⟩
  | 15 => ⟨S50000x256, .i1⟩
  | 16 => ⟨S_, .f32⟩
  | 17 => ⟨S_, .f32⟩
  | 18 => ⟨S50000x256, .f32⟩
  | 19 => ⟨S50000x256, .f32⟩
  | 20 => ⟨S50000x256, .f32⟩
  | 21 => ⟨S_, .f32⟩
  | 22 => ⟨S50000x256, .f32⟩
  | 23 => ⟨S50000x256, .f32⟩
  | 24 => ⟨S50000x256, .f32⟩
  | 25 => ⟨S_, .f32⟩
  | 26 => ⟨S500000, .f32⟩
  | 27 => ⟨S_, .f32⟩
  | 28 => ⟨S50000, .f32⟩
  | 29 => ⟨S500000x1, .i32⟩
  | 30 => ⟨S50000, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x256, .f32⟩
  | 40 => ⟨S_, .f32⟩
  | 41 => ⟨S50000x256, .f32⟩
  | 42 => ⟨S500000x1, .i32⟩
  | 43 => ⟨S50000x256, .f32⟩
  | 44 => ⟨S_, .f32⟩
  | 45 => ⟨S50000, .f32⟩
  | 46 => ⟨S50000, .f32⟩
  | 47 => ⟨S50000x1, .f32⟩
  | 48 => ⟨S50000x256, .f32⟩
  | 49 => ⟨S50000x256, .f32⟩
  | 50 => ⟨S50000x40, .f32⟩
  | 51 => ⟨S50000x1x40, .f32⟩
  | 52 => ⟨S_, .f32⟩
  | 53 => ⟨S50000x1, .f32⟩
  | 54 => ⟨S50000x1x1, .f32⟩
  | 55 => ⟨S_, .f32⟩
  | 56 => ⟨S50000x1x1, .f32⟩
  | 57 => ⟨S50000x1x1, .f32⟩
  | 58 => ⟨S50000x1x40, .f32⟩
  | 59 => ⟨S50000x1x40, .f32⟩
  | 60 => ⟨S50000x1x40, .f32⟩
  | 61 => ⟨S_, .f32⟩
  | 62 => ⟨S50000x1, .f32⟩
  | 63 => ⟨S50000x1x1, .f32⟩
  | 64 => ⟨S_, .f32⟩
  | 65 => ⟨S50000x1x1, .f32⟩
  | 66 => ⟨S50000x1x1, .f32⟩
  | 67 => ⟨S50000x1x40, .f32⟩
  | 68 => ⟨S50000x1x40, .f32⟩
  | 69 => ⟨S_, .f32⟩
  | 70 => ⟨S50000x1x1, .f32⟩
  | 71 => ⟨S50000x1x1, .f32⟩
  | 72 => ⟨S50000x1x1, .f32⟩
  | 73 => ⟨S50000x1x40, .f32⟩
  | 74 => ⟨S50000x1x40, .f32⟩
  | 75 => ⟨S1x1x40, .f32⟩
  | 76 => ⟨S50000x1x40, .f32⟩
  | 77 => ⟨S50000x1x40, .f32⟩
  | 78 => ⟨S1x1x40, .f32⟩
  | 79 => ⟨S50000x1x40, .f32⟩
  | 80 => ⟨S50000x1x40, .f32⟩
  | 81 => ⟨S50000, .i32⟩
  | 82 => ⟨S550000, .i32⟩
  | 83 => ⟨S550000, .i32⟩
  | 84 => ⟨S_, .i32⟩
  | 85 => ⟨S550000, .i32⟩
  | 86 => ⟨S550000, .i1⟩
  | 87 => ⟨S_, .i32⟩
  | 88 => ⟨S550000, .i32⟩
  | 89 => ⟨S550000, .i32⟩
  | 90 => ⟨S550000, .i32⟩
  | 91 => ⟨S550000x1, .i32⟩
  | 92 => ⟨S550000x256, .f32⟩
  | 93 => ⟨S_, .i32⟩
  | 94 => ⟨S550000, .i32⟩
  | 95 => ⟨S550000, .i1⟩
  | 96 => ⟨S_, .i32⟩
  | 97 => ⟨S550000, .i32⟩
  | 98 => ⟨S550000, .i32⟩
  | 99 => ⟨S550000, .i32⟩
  | 100 => ⟨S550000x1, .i32⟩
  | 101 => ⟨S550000x256, .f32⟩
  | 102 => ⟨S550000x256, .f32⟩
  | 103 => ⟨S_, .f32⟩
  | 104 => ⟨S550000, .f32⟩
  | 105 => ⟨S550000, .f32⟩
  | 106 => ⟨S550000x256, .f32⟩
  | 107 => ⟨S_, .f32⟩
  | 108 => ⟨S550000, .f32⟩
  | 109 => ⟨S550000, .f32⟩
  | 110 => ⟨S550000, .f32⟩
  | 111 => ⟨S_, .f32⟩
  | 112 => ⟨S550000, .f32⟩
  | 113 => ⟨S550000, .f32⟩
  | 114 => ⟨S550000x256, .f32⟩
  | 115 => ⟨S_, .f32⟩
  | 116 => ⟨S550000, .f32⟩
  | 117 => ⟨S550000, .f32⟩
  | 118 => ⟨S_, .i32⟩
  | 119 => ⟨S550000, .i32⟩
  | 120 => ⟨S550000, .i1⟩
  | 121 => ⟨S_, .i32⟩
  | 122 => ⟨S550000, .i32⟩
  | 123 => ⟨S550000, .i32⟩
  | 124 => ⟨S550000, .i32⟩
  | 125 => ⟨S550000x1, .i32⟩
  | 126 => ⟨S550000x1x40, .f32⟩
  | 127 => ⟨S550000x1x1, .f32⟩
  | _ => ⟨S50000x128, .f32⟩

abbrev hbmTy0_3 (i : Nat) : BufTy := match i % 128 with
  | 0 => ⟨S550000x1x40, .f32⟩
  | 1 => ⟨S550000x1x40, .f32⟩
  | 2 => ⟨S_, .f32⟩
  | 3 => ⟨S50000x1x40, .f32⟩
  | 4 => ⟨S550000x1, .i32⟩
  | 5 => ⟨S50000x1x40, .f32⟩
  | 6 => ⟨S_, .f32⟩
  | 7 => ⟨S50000x40, .f32⟩
  | 8 => ⟨S_, .f32⟩
  | 9 => ⟨S50000x40, .f32⟩
  | 10 => ⟨S50000x40, .f32⟩
  | 11 => ⟨S50000x1, .f32⟩
  | 12 => ⟨S50000x40, .f32⟩
  | 13 => ⟨S50000x40, .f32⟩
  | 14 => ⟨S1x1, .f32⟩
  | 15 => ⟨S50000x40, .f32⟩
  | 16 => ⟨S50000x40, .f32⟩
  | 17 => ⟨S_, .f32⟩
  | 18 => ⟨S50000, .f32⟩
  | 19 => ⟨S_, .f32⟩
  | 20 => ⟨S50000, .f32⟩
  | 21 => ⟨S50000, .f32⟩
  | 22 => ⟨S50000x1, .f32⟩
  | 23 => ⟨S50000x40, .f32⟩
  | 24 => ⟨S50000x40, .f32⟩
  | 25 => ⟨S50000x40, .f32⟩
  | 26 => ⟨S_, .f32⟩
  | 27 => ⟨S50000, .f32⟩
  | 28 => ⟨S50000x1, .f32⟩
  | 29 => ⟨S50000x1, .f32⟩
  | 30 => ⟨S50000x40, .f32⟩
  | 31 => ⟨S50000x40, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c : Ref sig .tc := ⟨.hbm, 27, rfl⟩
abbrev main_v8 : Ref sig .tc := ⟨.hbm, 28, rfl⟩
abbrev main_v9 : Ref sig .tc := ⟨.hbm, 29, rfl⟩
abbrev main_c_1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_6 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_8 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_9 : Ref sig .tc := ⟨.hbm, 80, rfl⟩
abbrev main_v52 : Ref sig .tc := ⟨.hbm, 81, rfl⟩
abbrev main_v53 : Ref sig .tc := ⟨.hbm, 82, rfl⟩
abbrev main_c_10 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_11 : Ref sig .tc := ⟨.hbm, 89, rfl⟩
abbrev main_v59 : Ref sig .tc := ⟨.hbm, 90, rfl⟩
abbrev main_v60 : Ref sig .tc := ⟨.hbm, 91, rfl⟩
abbrev main_c_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_call0_v0 : Ref sig .tc := ⟨.hbm, 98, rfl⟩
abbrev main_call0_cst : Ref sig .tc := ⟨.hbm, 99, rfl⟩
abbrev main_call0_v1 : Ref sig .tc := ⟨.hbm, 100, rfl⟩
abbrev main_v66 : Ref sig .tc := ⟨.hbm, 101, rfl⟩
abbrev main_call1_v0 : Ref sig .tc := ⟨.hbm, 102, rfl⟩
abbrev main_call1_cst : Ref sig .tc := ⟨.hbm, 103, rfl⟩
abbrev main_call1_v1 : Ref sig .tc := ⟨.hbm, 104, rfl⟩
abbrev main_v67 : Ref sig .tc := ⟨.hbm, 105, rfl⟩
abbrev main_v68 : Ref sig .tc := ⟨.hbm, 106, rfl⟩
abbrev main_cst_13 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_14 : Ref sig .tc := ⟨.hbm, 111, rfl⟩
abbrev main_v72 : Ref sig .tc := ⟨.hbm, 112, rfl⟩
abbrev main_v73 : Ref sig .tc := ⟨.hbm, 113, rfl⟩
abbrev main_c_15 : Ref sig .tc := ⟨.hbm, 114, rfl⟩
abbrev main_v74 : Ref sig .tc := ⟨.hbm, 115, rfl⟩
abbrev main_v75 : Ref sig .tc := ⟨.hbm, 116, rfl⟩
abbrev main_c_16 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_17 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_call2_cst : Ref sig .tc := ⟨.hbm, 136, rfl⟩
abbrev main_call2_v0 : Ref sig .tc := ⟨.hbm, 137, rfl⟩
abbrev main_call2_v1 : Ref sig .tc := ⟨.hbm, 138, rfl⟩
abbrev main_call2_cst_0 : Ref sig .tc := ⟨.hbm, 139, rfl⟩
abbrev main_call2_v2 : Ref sig .tc := ⟨.hbm, 140, rfl⟩
abbrev main_call2_v3 : Ref sig .tc := ⟨.hbm, 141, rfl⟩
abbrev main_call2_cst_1 : Ref sig .tc := ⟨.hbm, 142, rfl⟩
abbrev main_call2_call0_v0 : Ref sig .tc := ⟨.hbm, 143, rfl⟩
abbrev main_call2_call0_v1 : Ref sig .tc := ⟨.hbm, 144, rfl⟩
abbrev main_call2_v4 : Ref sig .tc := ⟨.hbm, 145, rfl⟩
abbrev main_call2_v5 : Ref sig .tc := ⟨.hbm, 146, rfl⟩
abbrev main_call2_cst_2 : Ref sig .tc := ⟨.hbm, 147, rfl⟩
abbrev main_call2_v6 : Ref sig .tc := ⟨.hbm, 148, rfl⟩
abbrev main_call2_v7 : Ref sig .tc := ⟨.hbm, 149, rfl⟩
abbrev main_v93 : Ref sig .tc := ⟨.hbm, 150, rfl⟩
abbrev main_cst_18 : Ref sig .tc := ⟨.hbm, 151, rfl⟩
abbrev main_v94 : Ref sig .tc := ⟨.hbm, 152, rfl⟩
abbrev main_cst_19 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_c_20 : Ref sig .tc := ⟨.hbm, 157, rfl⟩
abbrev main_v98 : Ref sig .tc := ⟨.hbm, 158, rfl⟩
abbrev main_v99 : Ref sig .tc := ⟨.hbm, 159, rfl⟩
abbrev main_c_21 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_cst_22 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_cst_23 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_cst_24 : Ref sig .tc := ⟨.hbm, 178, rfl⟩
abbrev main_v115 : Ref sig .tc := ⟨.hbm, 179, rfl⟩
abbrev main_v116 : Ref sig .tc := ⟨.hbm, 180, rfl⟩
abbrev main_cst_25 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_cst_26 : Ref sig .tc := ⟨.hbm, 187, rfl⟩
abbrev main_v122 : Ref sig .tc := ⟨.hbm, 188, rfl⟩
abbrev main_v123 : Ref sig .tc := ⟨.hbm, 189, rfl⟩
abbrev main_cst_27 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_cst_28 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_c_29 : Ref sig .tc := ⟨.hbm, 210, rfl⟩
abbrev main_v142 : Ref sig .tc := ⟨.hbm, 211, rfl⟩
abbrev main_v143 : Ref sig .tc := ⟨.hbm, 212, rfl⟩
abbrev main_c_30 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_c_31 : Ref sig .tc := ⟨.hbm, 219, rfl⟩
abbrev main_v149 : Ref sig .tc := ⟨.hbm, 220, rfl⟩
abbrev main_v150 : Ref sig .tc := ⟨.hbm, 221, rfl⟩
abbrev main_c_32 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_call3_v0 : Ref sig .tc := ⟨.hbm, 228, rfl⟩
abbrev main_call3_cst : Ref sig .tc := ⟨.hbm, 229, rfl⟩
abbrev main_call3_v1 : Ref sig .tc := ⟨.hbm, 230, rfl⟩
abbrev main_v156 : Ref sig .tc := ⟨.hbm, 231, rfl⟩
abbrev main_call4_v0 : Ref sig .tc := ⟨.hbm, 232, rfl⟩
abbrev main_call4_cst : Ref sig .tc := ⟨.hbm, 233, rfl⟩
abbrev main_call4_v1 : Ref sig .tc := ⟨.hbm, 234, rfl⟩
abbrev main_v157 : Ref sig .tc := ⟨.hbm, 235, rfl⟩
abbrev main_v158 : Ref sig .tc := ⟨.hbm, 236, rfl⟩
abbrev main_cst_33 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_cst_34 : Ref sig .tc := ⟨.hbm, 241, rfl⟩
abbrev main_v162 : Ref sig .tc := ⟨.hbm, 242, rfl⟩
abbrev main_v163 : Ref sig .tc := ⟨.hbm, 243, rfl⟩
abbrev main_c_35 : Ref sig .tc := ⟨.hbm, 244, rfl⟩
abbrev main_v164 : Ref sig .tc := ⟨.hbm, 245, rfl⟩
abbrev main_v165 : Ref sig .tc := ⟨.hbm, 246, rfl⟩
abbrev main_c_36 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_cst_37 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_call5_cst : Ref sig .tc := ⟨.hbm, 266, rfl⟩
abbrev main_call5_v0 : Ref sig .tc := ⟨.hbm, 267, rfl⟩
abbrev main_call5_v1 : Ref sig .tc := ⟨.hbm, 268, rfl⟩
abbrev main_call5_cst_0 : Ref sig .tc := ⟨.hbm, 269, rfl⟩
abbrev main_call5_v2 : Ref sig .tc := ⟨.hbm, 270, rfl⟩
abbrev main_call5_v3 : Ref sig .tc := ⟨.hbm, 271, rfl⟩
abbrev main_call5_cst_1 : Ref sig .tc := ⟨.hbm, 272, rfl⟩
abbrev main_call5_call0_v0 : Ref sig .tc := ⟨.hbm, 273, rfl⟩
abbrev main_call5_call0_v1 : Ref sig .tc := ⟨.hbm, 274, rfl⟩
abbrev main_call5_v4 : Ref sig .tc := ⟨.hbm, 275, rfl⟩
abbrev main_call5_v5 : Ref sig .tc := ⟨.hbm, 276, rfl⟩
abbrev main_call5_cst_2 : Ref sig .tc := ⟨.hbm, 277, rfl⟩
abbrev main_call5_v6 : Ref sig .tc := ⟨.hbm, 278, rfl⟩
abbrev main_call5_v7 : Ref sig .tc := ⟨.hbm, 279, rfl⟩
abbrev main_v183 : Ref sig .tc := ⟨.hbm, 280, rfl⟩
abbrev main_cst_38 : Ref sig .tc := ⟨.hbm, 281, rfl⟩
abbrev main_v184 : Ref sig .tc := ⟨.hbm, 282, rfl⟩
abbrev main_cst_39 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_c_40 : Ref sig .tc := ⟨.hbm, 287, rfl⟩
abbrev main_v188 : Ref sig .tc := ⟨.hbm, 288, rfl⟩
abbrev main_v189 : Ref sig .tc := ⟨.hbm, 289, rfl⟩
abbrev main_c_41 : Ref sig .tc := ⟨.hbm, 290, rfl⟩
abbrev main_v190 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_cst_42 : Ref sig .tc := ⟨.hbm, 296, rfl⟩
abbrev main_v195 : Ref sig .tc := ⟨.hbm, 297, rfl⟩
abbrev main_v196 : Ref sig .tc := ⟨.hbm, 298, rfl⟩
abbrev main_v197 : Ref sig .tc := ⟨.hbm, 299, rfl⟩
abbrev main_cst_43 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_v201 : Ref sig .tc := ⟨.hbm, 304, rfl⟩
abbrev main_v202 : Ref sig .tc := ⟨.hbm, 305, rfl⟩
abbrev main_v203 : Ref sig .tc := ⟨.hbm, 306, rfl⟩
abbrev main_v204 : Ref sig .tc := ⟨.hbm, 307, rfl⟩
abbrev main_cst_44 : Ref sig .tc := ⟨.hbm, 308, rfl⟩
abbrev main_v205 : Ref sig .tc := ⟨.hbm, 309, rfl⟩
abbrev main_v206 : Ref sig .tc := ⟨.hbm, 310, rfl⟩
abbrev main_cst_45 : Ref sig .tc := ⟨.hbm, 311, rfl⟩
abbrev main_v207 : Ref sig .tc := ⟨.hbm, 312, rfl⟩
abbrev main_v208 : Ref sig .tc := ⟨.hbm, 313, rfl⟩
abbrev main_v209 : Ref sig .tc := ⟨.hbm, 314, rfl⟩
abbrev main_v210 : Ref sig .tc := ⟨.hbm, 315, rfl⟩
abbrev main_v211 : Ref sig .tc := ⟨.hbm, 316, rfl⟩
abbrev main_cst_46 : Ref sig .tc := ⟨.hbm, 317, rfl⟩
abbrev main_v212 : Ref sig .tc := ⟨.hbm, 318, rfl⟩
abbrev main_v213 : Ref sig .tc := ⟨.hbm, 319, rfl⟩
abbrev main_cst_47 : Ref sig .tc := ⟨.hbm, 320, rfl⟩
abbrev main_v214 : Ref sig .tc := ⟨.hbm, 321, rfl⟩
abbrev main_v215 : Ref sig .tc := ⟨.hbm, 322, rfl⟩
abbrev main_v216 : Ref sig .tc := ⟨.hbm, 323, rfl⟩
abbrev main_v217 : Ref sig .tc := ⟨.hbm, 324, rfl⟩
abbrev main_cst_48 : Ref sig .tc := ⟨.hbm, 325, rfl⟩
abbrev main_v218 : Ref sig .tc := ⟨.hbm, 326, rfl⟩
abbrev main_v219 : Ref sig .tc := ⟨.hbm, 327, rfl⟩
abbrev main_v220 : Ref sig .tc := ⟨.hbm, 328, rfl⟩
abbrev main_v221 : Ref sig .tc := ⟨.hbm, 329, rfl⟩
abbrev main_v222 : Ref sig .tc := ⟨.hbm, 330, rfl⟩
abbrev main_v223 : Ref sig .tc := ⟨.hbm, 331, rfl⟩
abbrev main_v224 : Ref sig .tc := ⟨.hbm, 332, rfl⟩
abbrev main_v225 : Ref sig .tc := ⟨.hbm, 333, rfl⟩
abbrev main_v226 : Ref sig .tc := ⟨.hbm, 334, rfl⟩
abbrev main_v227 : Ref sig .tc := ⟨.hbm, 335, rfl⟩
abbrev main_v228 : Ref sig .tc := ⟨.hbm, 336, rfl⟩
abbrev main_v229 : Ref sig .tc := ⟨.hbm, 337, rfl⟩
abbrev main_v230 : Ref sig .tc := ⟨.hbm, 338, rfl⟩
abbrev main_v231 : Ref sig .tc := ⟨.hbm, 339, rfl⟩
abbrev main_c_49 : Ref sig .tc := ⟨.hbm, 340, rfl⟩
abbrev main_v232 : Ref sig .tc := ⟨.hbm, 341, rfl⟩
abbrev main_v233 : Ref sig .tc := ⟨.hbm, 342, rfl⟩
abbrev main_c_50 : Ref sig .tc := ⟨.hbm, 343, rfl⟩
abbrev main_v234 : Ref sig .tc := ⟨.hbm, 344, rfl⟩
abbrev main_v235 : Ref sig .tc := ⟨.hbm, 345, rfl⟩
abbrev main_v236 : Ref sig .tc := ⟨.hbm, 346, rfl⟩
abbrev main_v237 : Ref sig .tc := ⟨.hbm, 347, rfl⟩
abbrev main_v238 : Ref sig .tc := ⟨.hbm, 348, rfl⟩
abbrev main_c_51 : Ref sig .tc := ⟨.hbm, 349, rfl⟩
abbrev main_v239 : Ref sig .tc := ⟨.hbm, 350, rfl⟩
abbrev main_v240 : Ref sig .tc := ⟨.hbm, 351, rfl⟩
abbrev main_c_52 : Ref sig .tc := ⟨.hbm, 352, rfl⟩
abbrev main_v241 : Ref sig .tc := ⟨.hbm, 353, rfl⟩
abbrev main_v242 : Ref sig .tc := ⟨.hbm, 354, rfl⟩
abbrev main_v243 : Ref sig .tc := ⟨.hbm, 355, rfl⟩
abbrev main_v244 : Ref sig .tc := ⟨.hbm, 356, rfl⟩
abbrev main_v245 : Ref sig .tc := ⟨.hbm, 357, rfl⟩
abbrev main_call6_v0 : Ref sig .tc := ⟨.hbm, 358, rfl⟩
abbrev main_call6_cst : Ref sig .tc := ⟨.hbm, 359, rfl⟩
abbrev main_call6_v1 : Ref sig .tc := ⟨.hbm, 360, rfl⟩
abbrev main_v246 : Ref sig .tc := ⟨.hbm, 361, rfl⟩
abbrev main_call7_v0 : Ref sig .tc := ⟨.hbm, 362, rfl⟩
abbrev main_call7_cst : Ref sig .tc := ⟨.hbm, 363, rfl⟩
abbrev main_call7_v1 : Ref sig .tc := ⟨.hbm, 364, rfl⟩
abbrev main_v247 : Ref sig .tc := ⟨.hbm, 365, rfl⟩
abbrev main_v248 : Ref sig .tc := ⟨.hbm, 366, rfl⟩
abbrev main_cst_53 : Ref sig .tc := ⟨.hbm, 367, rfl⟩
abbrev main_v249 : Ref sig .tc := ⟨.hbm, 368, rfl⟩
abbrev main_v250 : Ref sig .tc := ⟨.hbm, 369, rfl⟩
abbrev main_v251 : Ref sig .tc := ⟨.hbm, 370, rfl⟩
abbrev main_cst_54 : Ref sig .tc := ⟨.hbm, 371, rfl⟩
abbrev main_v252 : Ref sig .tc := ⟨.hbm, 372, rfl⟩
abbrev main_v253 : Ref sig .tc := ⟨.hbm, 373, rfl⟩
abbrev main_c_55 : Ref sig .tc := ⟨.hbm, 374, rfl⟩
abbrev main_v254 : Ref sig .tc := ⟨.hbm, 375, rfl⟩
abbrev main_v255 : Ref sig .tc := ⟨.hbm, 376, rfl⟩
abbrev main_c_56 : Ref sig .tc := ⟨.hbm, 377, rfl⟩
abbrev main_v256 : Ref sig .tc := ⟨.hbm, 378, rfl⟩
abbrev main_v257 : Ref sig .tc := ⟨.hbm, 379, rfl⟩
abbrev main_v258 : Ref sig .tc := ⟨.hbm, 380, rfl⟩
abbrev main_v259 : Ref sig .tc := ⟨.hbm, 381, rfl⟩
abbrev main_v260 : Ref sig .tc := ⟨.hbm, 382, rfl⟩
abbrev main_v261 : Ref sig .tc := ⟨.hbm, 383, rfl⟩
abbrev main_v262 : Ref sig .tc := ⟨.hbm, 384, rfl⟩
abbrev main_v263 : Ref sig .tc := ⟨.hbm, 385, rfl⟩
abbrev main_cst_57 : Ref sig .tc := ⟨.hbm, 386, rfl⟩
abbrev main_v264 : Ref sig .tc := ⟨.hbm, 387, rfl⟩
abbrev main_v265 : Ref sig .tc := ⟨.hbm, 388, rfl⟩
abbrev main_v266 : Ref sig .tc := ⟨.hbm, 389, rfl⟩
abbrev main_cst_58 : Ref sig .tc := ⟨.hbm, 390, rfl⟩
abbrev main_v267 : Ref sig .tc := ⟨.hbm, 391, rfl⟩
abbrev main_cst_59 : Ref sig .tc := ⟨.hbm, 392, rfl⟩
abbrev main_v268 : Ref sig .tc := ⟨.hbm, 393, rfl⟩
abbrev main_v269 : Ref sig .tc := ⟨.hbm, 394, rfl⟩
abbrev main_v270 : Ref sig .tc := ⟨.hbm, 395, rfl⟩
abbrev main_v271 : Ref sig .tc := ⟨.hbm, 396, rfl⟩
abbrev main_v272 : Ref sig .tc := ⟨.hbm, 397, rfl⟩
abbrev main_v273 : Ref sig .tc := ⟨.hbm, 398, rfl⟩
abbrev main_v274 : Ref sig .tc := ⟨.hbm, 399, rfl⟩
abbrev main_v275 : Ref sig .tc := ⟨.hbm, 400, rfl⟩
abbrev main_call8_cst : Ref sig .tc := ⟨.hbm, 401, rfl⟩
abbrev main_call8_v0 : Ref sig .tc := ⟨.hbm, 402, rfl⟩
abbrev main_call8_cst_0 : Ref sig .tc := ⟨.hbm, 403, rfl⟩
abbrev main_call8_v1 : Ref sig .tc := ⟨.hbm, 404, rfl⟩
abbrev main_call8_v2 : Ref sig .tc := ⟨.hbm, 405, rfl⟩
abbrev main_call8_v3 : Ref sig .tc := ⟨.hbm, 406, rfl⟩
abbrev main_call8_v4 : Ref sig .tc := ⟨.hbm, 407, rfl⟩
abbrev main_call8_v5 : Ref sig .tc := ⟨.hbm, 408, rfl⟩
abbrev main_call8_v6 : Ref sig .tc := ⟨.hbm, 409, rfl⟩
abbrev main_call8_cst_1 : Ref sig .tc := ⟨.hbm, 410, rfl⟩
abbrev main_call8_v7 : Ref sig .tc := ⟨.hbm, 411, rfl⟩
abbrev main_call8_v8 : Ref sig .tc := ⟨.hbm, 412, rfl⟩
abbrev main_call8_v9 : Ref sig .tc := ⟨.hbm, 413, rfl⟩
abbrev main_call8_v10 : Ref sig .tc := ⟨.hbm, 414, rfl⟩
abbrev main_v276 : Ref sig .tc := ⟨.hbm, 415, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S50000x256_S50000x4x64 : S50000x256.ShapeCasts S50000x4x64
  reducesTo_S50000x4x64_S50000x4_d2 : S50000x4x64.ReducesTo [2] S50000x4
  h_S_ : 0 < S_.numel
  bcast_S50000x4_S50000x4x1_0_1 : S50000x4.BroadcastsInDim S50000x4x1 (![0, 1] : Fin 2 → Fin S50000x4x1.rank)
  bcast_S_S50000x4x1 : S_.BroadcastsInDim S50000x4x1 (![] : Fin 0 → Fin S50000x4x1.rank)
  bcast_S50000x4x1_S50000x4x64_0_1_2 : S50000x4x1.BroadcastsInDim S50000x4x64 (![0, 1, 2] : Fin 3 → Fin S50000x4x64.rank)
  bcast_S64_S1x1x64_2 : S64.BroadcastsInDim S1x1x64 (![2] : Fin 1 → Fin S1x1x64.rank)
  bcast_S1x1x64_S50000x4x64_0_1_2 : S1x1x64.BroadcastsInDim S50000x4x64 (![0, 1, 2] : Fin 3 → Fin S50000x4x64.rank)
  concatenates_S500000_S50000_S550000_d0 : Shape.Concatenates [S500000, S50000] S550000 0
  bcast_S_S550000 : S_.BroadcastsInDim S550000 (![] : Fin 0 → Fin S550000.rank)
  bcast_S550000_S550000x1_0 : S550000.BroadcastsInDim S550000x1 (![0] : Fin 1 → Fin S550000x1.rank)
  reducesTo_S550000x128_S550000_d1 : S550000x128.ReducesTo [1] S550000
  bcast_S550000_S550000x1x1_0 : S550000.BroadcastsInDim S550000x1x1 (![0] : Fin 1 → Fin S550000x1x1.rank)
  bcast_S550000x1x1_S550000x4x64_0_1_2 : S550000x1x1.BroadcastsInDim S550000x4x64 (![0, 1, 2] : Fin 3 → Fin S550000x4x64.rank)
  bcast_S_S50000x4x64 : S_.BroadcastsInDim S50000x4x64 (![] : Fin 0 → Fin S50000x4x64.rank)
  shapeCasts_S50000x4x64_S50000x256 : S50000x4x64.ShapeCasts S50000x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  reducesTo_S550000x256_S550000_d1 : S550000x256.ReducesTo [1] S550000
  shapeCasts_S50000x40_S50000x1x40 : S50000x40.ShapeCasts S50000x1x40
  reducesTo_S50000x1x40_S50000x1_d2 : S50000x1x40.ReducesTo [2] S50000x1
  bcast_S50000x1_S50000x1x1_0_1 : S50000x1.BroadcastsInDim S50000x1x1 (![0, 1] : Fin 2 → Fin S50000x1x1.rank)
  bcast_S_S50000x1x1 : S_.BroadcastsInDim S50000x1x1 (![] : Fin 0 → Fin S50000x1x1.rank)
  bcast_S50000x1x1_S50000x1x40_0_1_2 : S50000x1x1.BroadcastsInDim S50000x1x40 (![0, 1, 2] : Fin 3 → Fin S50000x1x40.rank)
  bcast_S40_S1x1x40_2 : S40.BroadcastsInDim S1x1x40 (![2] : Fin 1 → Fin S1x1x40.rank)
  bcast_S1x1x40_S50000x1x40_0_1_2 : S1x1x40.BroadcastsInDim S50000x1x40 (![0, 1, 2] : Fin 3 → Fin S50000x1x40.rank)
  bcast_S550000x1x1_S550000x1x40_0_1_2 : S550000x1x1.BroadcastsInDim S550000x1x40 (![0, 1, 2] : Fin 3 → Fin S550000x1x40.rank)
  bcast_S_S50000x1x40 : S_.BroadcastsInDim S50000x1x40 (![] : Fin 0 → Fin S50000x1x40.rank)
  reducesTo_S50000x1x40_S50000x40_d1 : S50000x1x40.ReducesTo [1] S50000x40
  bcast_S_S50000x40 : S_.BroadcastsInDim S50000x40 (![] : Fin 0 → Fin S50000x40.rank)
  bcast_S50000x1_S50000x40_0_1 : S50000x1.BroadcastsInDim S50000x40 (![0, 1] : Fin 2 → Fin S50000x40.rank)
  bcast_S1_S1x1_1 : S1.BroadcastsInDim S1x1 (![1] : Fin 1 → Fin S1x1.rank)
  bcast_S1x1_S50000x40_0_1 : S1x1.BroadcastsInDim S50000x40 (![0, 1] : Fin 2 → Fin S50000x40.rank)
  reducesTo_S50000x40_S50000_d1 : S50000x40.ReducesTo [1] S50000
  scatter_S50000_S500000x1_S500000_n_0_0_1_wf : ScatterDims.WF S50000 S500000x1 S500000 [] [0] [0] 1
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x128_S128x256_S50000x256_1_0_0_1_n_n_wf : DotDims.WF S50000x128 S128x256 S50000x256 [1] [0] [0] [1] [] []
  gather_S50000x128_S550000x1_S550000x128_1_0_n_n_0_1_1128_wf : GatherDims.WF S50000x128 S550000x1 S550000x128 [1] [0] [] [0] [] 1 ![1, 128]
  gather_S50000x4x64_S550000x1_S550000x4x64_12_0_n_n_0_1_1464_wf : GatherDims.WF S50000x4x64 S550000x1 S550000x4x64 [1, 2] [0] [] [0] [] 1 ![1, 4, 64]
  scatter_S50000x4x64_S550000x1_S550000x4x64_12_0_0_1_wf : ScatterDims.WF S50000x4x64 S550000x1 S550000x4x64 [1, 2] [0] [0] 1
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  dot_S50000x256_S256x256_S50000x256_1_0_0_1_n_n_wf : DotDims.WF S50000x256 S256x256 S50000x256 [1] [0] [0] [1] [] []
  gather_S50000x256_S550000x1_S550000x256_1_0_n_n_0_1_1256_wf : GatherDims.WF S50000x256 S550000x1 S550000x256 [1] [0] [] [0] [] 1 ![1, 256]
  dot_S50000x256_S256x40_S50000x40_1_0_0_1_n_n_wf : DotDims.WF S50000x256 S256x40 S50000x40 [1] [0] [0] [1] [] []
  gather_S50000x1x40_S550000x1_S550000x1x40_12_0_n_n_0_1_1140_wf : GatherDims.WF S50000x1x40 S550000x1 S550000x1x40 [1, 2] [0] [] [0] [] 1 ![1, 1, 40]
  scatter_S50000x1x40_S550000x1_S550000x1x40_12_0_0_1_wf : ScatterDims.WF S50000x1x40 S550000x1 S550000x1x40 [1, 2] [0] [0] 1
  dot_S50000x256_S256x1_S50000x1_1_0_0_1_n_n_wf : DotDims.WF S50000x256 S256x1 S50000x1 [1] [0] [0] [1] [] []

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def gather_S50000x4x64_S550000x1_S550000x4x64_12_0_n_n_0_1_1464 : GatherDims S50000x4x64 S550000x1 S550000x4x64 where
  offsetDims := [1, 2]
  collapsedSliceDims := [0]
  operandBatchingDims := []
  startIndicesBatchingDims := []
  startIndexMap := [0]
  indexVectorDim := 1
  sliceSizes := ![1, 4, 64]
  wf := gather_S50000x4x64_S550000x1_S550000x4x64_12_0_n_n_0_1_1464_wf
def scatter_S50000x4x64_S550000x1_S550000x4x64_12_0_0_1 : ScatterDims S50000x4x64 S550000x1 S550000x4x64 where
  updateWindowDims := [1, 2]
  insertedWindowDims := [0]
  scatterDimsToOperandDims := [0]
  indexVectorDim := 1
  wf := scatter_S50000x4x64_S550000x1_S550000x4x64_12_0_0_1_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S550000x1_S550000x256_1_0_n_n_0_1_1256 : GatherDims S50000x256 S550000x1 S550000x256 where
  offsetDims := [1]
  collapsedSliceDims := [0]
  operandBatchingDims := []
  startIndicesBatchingDims := []
  startIndexMap := [0]
  indexVectorDim := 1
  sliceSizes := ![1, 256]
  wf := gather_S50000x256_S550000x1_S550000x256_1_0_n_n_0_1_1256_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf
def gather_S50000x1x40_S550000x1_S550000x1x40_12_0_n_n_0_1_1140 : GatherDims S50000x1x40 S550000x1 S550000x1x40 where
  offsetDims := [1, 2]
  collapsedSliceDims := [0]
  operandBatchingDims := []
  startIndicesBatchingDims := []
  startIndexMap := [0]
  indexVectorDim := 1
  sliceSizes := ![1, 1, 40]
  wf := gather_S50000x1x40_S550000x1_S550000x1x40_12_0_n_n_0_1_1140_wf
def scatter_S50000x1x40_S550000x1_S550000x1x40_12_0_0_1 : ScatterDims S50000x1x40 S550000x1 S550000x1x40 where
  updateWindowDims := [1, 2]
  insertedWindowDims := [0]
  scatterDimsToOperandDims := [0]
  indexVectorDim := 1
  wf := scatter_S50000x1x40_S550000x1_S550000x1x40_12_0_0_1_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.KChain.lean ====
import proofs.«418090_j57904749084726_1_alg».proof.Proof.Gen.KernelIdeal.Frame

noncomputable section

namespace Cert.KernelIdeal.KChain

open Cert.KernelIdeal Cert.KernelIdeal.Gen
open Idealize.ShloMosaic Idealize.ShloMosaic.TcCoe Idealize.SL.Sem

variable {F : FTy → Type} [FloatOps F]

abbrev Vals (F : FTy → Type) [FloatOps F] : Type := Dev nD → Valuation τ sig (Elt F)

abbrev kseg0 (V : Vals F) : Vals F := fun c => StableHlo.after hostOps0 (V c)

abbrev kseg1 (V : Vals F) : Vals F := fun c => StableHlo.after hostOps1_5 (StableHlo.after hostOps1_4 (StableHlo.after hostOps1_3 (StableHlo.after hostOps1_2 (StableHlo.after hostOps1_1 (StableHlo.after hostOps1 (V c))))))

abbrev kseg2a (V : Vals F) : Vals F := fun c => StableHlo.after hostOps2_1 (StableHlo.after hostOps2 (V c))

abbrev kseg2b (V : Vals F) : Vals F := fun c => StableHlo.after hostOps2_2 (V c)

abbrev kseg3 (V : Vals F) : Vals F := fun c => StableHlo.after hostOps3_5 (StableHlo.after hostOps3_4 (StableHlo.after hostOps3_3 (StableHlo.after hostOps3_2 (StableHlo.after hostOps3_1 (StableHlo.after hostOps3 (V c))))))

abbrev kseg4a (V : Vals F) : Vals F := fun c => StableHlo.after hostOps4_1 (StableHlo.after hostOps4 (V c))

abbrev kseg4b (V : Vals F) : Vals F := fun c => StableHlo.after hostOps4_2 (V c)

abbrev kseg5 (V : Vals F) : Vals F := fun c => StableHlo.after hostOps5_5 (StableHlo.after hostOps5_4 (StableHlo.after hostOps5_3 (StableHlo.after hostOps5_2 (StableHlo.after hostOps5_1 (StableHlo.after hostOps5 (V c))))))

abbrev kseg6 (V : Vals F) : Vals F := fun c => StableHlo.after hostOps6_1 (StableHlo.after hostOps6 (V c))

def kreg0 (V : Vals F) : Vals F := fun c =>
  Pipeline.withArrays spec0 c (V c) fun w => (dat0 (fun c b => V c b) c).arrAt w cfg0.N
theorem kreg0_arr (V : Vals F) (c : Dev nD) (w : Fin cfg0.W) :
    kreg0 V c (Proc.devRef .tc (Pipeline.arrRef spec0 w)) = (dat0 (fun c b => V c b) c).arrAt w cfg0.N := by
  unfold kreg0; exact Pipeline.withArrays_arr spec0 launch0.win.arr_inj c _ _ w
theorem kreg0_of_ne (V : Vals F) (c : Dev nD) (b : Ref sig .tc) (hb : ∀ w, Pipeline.arrRef spec0 w ≠ b) :
    kreg0 V c (Proc.devRef .tc b) = V c (Proc.devRef .tc b) := by
  unfold kreg0; exact Pipeline.withArrays_of_ne spec0 c _ _ b hb

def kreg1 (V : Vals F) : Vals F := fun c =>
  Pipeline.withArrays spec1 c (V c) fun w => (dat1 (fun c b => V c b) c).arrAt w cfg1.N
theorem kreg1_arr (V : Vals F) (c : Dev nD) (w : Fin cfg1.W) :
    kreg1 V c (Proc.devRef .tc (Pipeline.arrRef spec1 w)) = (dat1 (fun c b => V c b) c).arrAt w cfg1.N := by
  unfold kreg1; exact Pipeline.withArrays_arr spec1 launch1.win.arr_inj c _ _ w
theorem kreg1_of_ne (V : Vals F) (c : Dev nD) (b : Ref sig .tc) (hb : ∀ w, Pipeline.arrRef spec1 w ≠ b) :
    kreg1 V c (Proc.devRef .tc b) = V c (Proc.devRef .tc b) := by
  unfold kreg1; exact Pipeline.withArrays_of_ne spec1 c _ _ b hb

def kreg2 (V : Vals F) : Vals F := fun c =>
  Pipeline.withArrays spec2 c (V c) fun w => (dat2 (fun c b => V c b) c).arrAt w cfg2.N
theorem kreg2_arr (V : Vals F) (c : Dev nD) (w : Fin cfg2.W) :
    kreg2 V c (Proc.devRef .tc (Pipeline.arrRef spec2 w)) = (dat2 (fun c b => V c b) c).arrAt w cfg2.N := by
  unfold kreg2; exact Pipeline.withArrays_arr spec2 launch2.win.arr_inj c _ _ w
theorem kreg2_of_ne (V : Vals F) (c : Dev nD) (b : Ref sig .tc) (hb : ∀ w, Pipeline.arrRef spec2 w ≠ b) :
    kreg2 V c (Proc.devRef .tc b) = V c (Proc.devRef .tc b) := by
  unfold kreg2; exact Pipeline.withArrays_of_ne spec2 c _ _ b hb

def kreg3 (V : Vals F) : Vals F := fun c =>
  Pipeline.withArrays spec3 c (V c) fun w => (dat3 (fun c b => V c b) c).arrAt w cfg3.N
theorem kreg3_arr (V : Vals F) (c : Dev nD) (w : Fin cfg3.W) :
    kreg3 V c (Proc.devRef .tc (Pipeline.arrRef spec3 w)) = (dat3 (fun c b => V c b) c).arrAt w cfg3.N := by
  unfold kreg3; exact Pipeline.withArrays_arr spec3 launch3.win.arr_inj c _ _ w
theorem kreg3_of_ne (V : Vals F) (c : Dev nD) (b : Ref sig .tc) (hb : ∀ w, Pipeline.arrRef spec3 w ≠ b) :
    kreg3 V c (Proc.devRef .tc b) = V c (Proc.devRef .tc b) := by
  unfold kreg3; exact Pipeline.withArrays_of_ne spec3 c _ _ b hb

def kreg4 (V : Vals F) : Vals F := fun c =>
  Pipeline.withArrays spec4 c (V c) fun w => (dat4 (fun c b => V c b) c).arrAt w cfg4.N
theorem kreg4_arr (V : Vals F) (c : Dev nD) (w : Fin cfg4.W) :
    kreg4 V c (Proc.devRef .tc (Pipeline.arrRef spec4 w)) = (dat4 (fun c b => V c b) c).arrAt w cfg4.N := by
  unfold kreg4; exact Pipeline.withArrays_arr spec4 launch4.win.arr_inj c _ _ w
theorem kreg4_of_ne (V : Vals F) (c : Dev nD) (b : Ref sig .tc) (hb : ∀ w, Pipeline.arrRef spec4 w ≠ b) :
    kreg4 V c (Proc.devRef .tc b) = V c (Proc.devRef .tc b) := by
  unfold kreg4; exact Pipeline.withArrays_of_ne spec4 c _ _ b hb

def kreg5 (V : Vals F) : Vals F := fun c =>
  Pipeline.withArrays spec5 c (V c) fun w => (dat5 (fun c b => V c b) c).arrAt w cfg5.N
theorem kreg5_arr (V : Vals F) (c : Dev nD) (w : Fin cfg5.W) :
    kreg5 V c (Proc.devRef .tc (Pipeline.arrRef spec5 w)) = (dat5 (fun c b => V c b) c).arrAt w cfg5.N := by
  unfold kreg5; exact Pipeline.withArrays_arr spec5 launch5.win.arr_inj c _ _ w
theorem kreg5_of_ne (V : Vals F) (c : Dev nD) (b : Ref sig .tc) (hb : ∀ w, Pipeline.arrRef spec5 w ≠ b) :
    kreg5 V c (Proc.devRef .tc b) = V c (Proc.devRef .tc b) := by
  unfold kreg5; exact Pipeline.withArrays_of_ne spec5 c _ _ b hb

variable (m : (ℓ : Loc nD τ sig) → Buf (Elt F) ℓ) (ρ : Dev nD → PrngReg)

abbrev KL0 (V : Vals F) : Vals F := kseg2a (kreg1 (kseg1 (kreg0 (kseg0 V))))
abbrev KL1 (V : Vals F) : Vals F := kseg4a (kreg3 (kseg3 (kreg2 (kseg2b V))))
abbrev KL2 (V : Vals F) : Vals F := kseg6 (kreg5 (kseg5 (kreg4 (kseg4b V))))

theorem W33_eq : W33 m ρ = KL2 (KL1 (KL0 (W0 m ρ))) := rfl

end Cert.KernelIdeal.KChain

end
-- ==== Proof.RefOps.lean ====
import proofs.«418090_j57904749084726_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev rops0 : List (HloOp τ sig (Elt F)) :=
  [ unary main_arg1 main_v0 (extractStridedSlice S1x500000 ![0, 0] · slices_S2x500000_S1x500000_0_0),
    reshape main_v0 main_v1 rfl shapeCasts_S1x500000_S500000,
    unary main_arg1 main_v2 (extractStridedSlice S1x500000 ![1, 0] · slices_S2x500000_S1x500000_1_0),
    reshape main_v2 main_v3 rfl shapeCasts_S1x500000_S500000,
    nullary main_cst (constant S_ .f32 0x3F800000#32),
    unary main_cst main_v4 (broadcastInDim S500000 ![] bcast_S_S500000),
    nullary main_cst_0 (constant S_ .f32 0x00000000#32),
    unary main_cst_0 main_v5 (broadcastInDim S50000 ![] bcast_S_S50000),
    unary main_v1 main_v6 (broadcastInDim S500000x1 ![0] bcast_S500000_S500000x1_0),
    ternary main_v5 main_v6 main_v4 main_v7 (fun x i u => Host.scatterAdd scatter_S50000_S500000x1_S500000_n_0_0_1 x i u),
    nullary main_c (constantI S_ 32 0#32),
    unary main_c main_v8 (broadcastInDim S500000 ![] bcast_S_S500000),
    binary main_v3 main_v8 main_v9 (cmpi .slt),
    nullary main_c_1 (constantI S_ 32 50000#32),
    unary main_c_1 main_v10 (broadcastInDim S500000 ![] bcast_S_S500000),
    binary main_v3 main_v10 main_v11 addi,
    ternary main_v9 main_v11 main_v3 main_v12 select,
    unary main_v12 main_v13 (broadcastInDim S500000x1 ![0] bcast_S500000_S500000x1_0),
    binary main_arg0 main_v13 main_v14 (fun x i => Host.gather gather_S50000x128_S500000x1_S500000x128_1_0_n_n_0_1_1128 x i),
    nullary main_cst_2 (constant S_ .f32 0x00000000#32),
    unary main_cst_2 main_v15 (broadcastInDim S50000x128 ![] bcast_S_S50000x128),
    unary main_v1 main_v16 (broadcastInDim S500000x1 ![0] bcast_S500000_S500000x1_0),
    ternary main_v15 main_v16 main_v14 main_v17 (fun x i u => Host.scatterAdd scatter_S50000x128_S500000x1_S500000x128_1_0_0_1 x i u),
    nullary main_cst_3 (constant S_ .f32 0x3F800000#32),
    unary main_cst_3 main_v18 (broadcastInDim S50000 ![] bcast_S_S50000),
    binary main_v7 main_v18 main_v19 maximumf,
    unary main_v19 main_v20 (broadcastInDim S50000x1 ![0] bcast_S50000_S50000x1_0),
    unary main_v20 main_v21 (broadcastInDim S50000x128 ![0, 1] bcast_S50000x1_S50000x128_0_1),
    binary main_v17 main_v21 main_v22 Host.divf ]
abbrev rops1 : List (HloOp τ sig (Elt F)) :=
  [ binary main_arg0 main_arg2 main_v23 (fun l r => Host.dotGeneral dot_S50000x128_S128x256_S50000x256_1_0_0_1_n_n none l r),
    reshape main_v23 main_v24 rfl shapeCasts_S50000x256_S50000x4x64,
    nullary main_cst_4 (constant S_ .f32 0x00000000#32),
    binary main_v24 main_cst_4 main_v25 (fun x v => Host.reduceAdd x v reducesTo_S50000x4x64_S50000x4_d2 h_S_),
    unary main_v25 main_v26 (broadcastInDim S50000x4x1 ![0, 1] bcast_S50000x4_S50000x4x1_0_1),
    nullary main_cst_5 (constant S_ .f32 0x42800000#32),
    unary main_cst_5 main_v27 (broadcastInDim S50000x4x1 ![] bcast_S_S50000x4x1),
    binary main_v26 main_v27 main_v28 Host.divf,
    unary main_v28 main_v29 (broadcastInDim S50000x4x64 ![0, 1, 2] bcast_S50000x4x1_S50000x4x64_0_1_2),
    binary main_v24 main_v29 main_v30 subf,
    binary main_v30 main_v30 main_v31 mulf,
    nullary main_cst_6 (constant S_ .f32 0x00000000#32),
    binary main_v31 main_cst_6 main_v32 (fun x v => Host.reduceAdd x v reducesTo_S50000x4x64_S50000x4_d2 h_S_),
    unary main_v32 main_v33 (broadcastInDim S50000x4x1 ![0, 1] bcast_S50000x4_S50000x4x1_0_1),
    nullary main_cst_7 (constant S_ .f32 0x42800000#32),
    unary main_cst_7 main_v34 (broadcastInDim S50000x4x1 ![] bcast_S_S50000x4x1),
    binary main_v33 main_v34 main_v35 Host.divf,
    unary main_v28 main_v36 (broadcastInDim S50000x4x64 ![0, 1, 2] bcast_S50000x4x1_S50000x4x64_0_1_2),
    binary main_v24 main_v36 main_v37 subf,
    nullary main_cst_8 (constant S_ .f32 0x3727C5AC#32),
    unary main_cst_8 main_v38 (broadcastInDim S50000x4x1 ![] bcast_S_S50000x4x1),
    binary main_v35 main_v38 main_v39 addf,
    unary main_v39 main_v40 Host.rsqrt,
    unary main_v40 main_v41 (broadcastInDim S50000x4x64 ![0, 1, 2] bcast_S50000x4x1_S50000x4x64_0_1_2),
    binary main_v37 main_v41 main_v42 mulf,
    unary main_arg3 main_v43 (broadcastInDim S1x1x64 ![2] bcast_S64_S1x1x64_2),
    unary main_v43 main_v44 (broadcastInDim S50000x4x64 ![0, 1, 2] bcast_S1x1x64_S50000x4x64_0_1_2),
    binary main_v42 main_v44 main_v45 mulf,
    unary main_arg4 main_v46 (broadcastInDim S1x1x64 ![2] bcast_S64_S1x1x64_2),
    unary main_v46 main_v47 (broadcastInDim S50000x4x64 ![0, 1, 2] bcast_S1x1x64_S50000x4x64_0_1_2),
    binary main_v45 main_v47 main_v48 addf ]
abbrev rops2 : List (HloOp τ sig (Elt F)) :=
  [ nullary main_v49 (iotaInDim S50000 32 0),
    binary main_v1 main_v49 main_v50 (fun a b => concatenate S550000 0 [⟨S500000, a⟩, ⟨S50000, b⟩] concatenates_S500000_S50000_S550000_d0),
    binary main_v3 main_v49 main_v51 (fun a b => concatenate S550000 0 [⟨S500000, a⟩, ⟨S50000, b⟩] concatenates_S500000_S50000_S550000_d0),
    nullary main_c_9 (constantI S_ 32 0#32),
    unary main_c_9 main_v52 (broadcastInDim S550000 ![] bcast_S_S550000),
    binary main_v50 main_v52 main_v53 (cmpi .slt),
    nullary main_c_10 (constantI S_ 32 50000#32),
    unary main_c_10 main_v54 (broadcastInDim S550000 ![] bcast_S_S550000),
    binary main_v50 main_v54 main_v55 addi,
    ternary main_v53 main_v55 main_v50 main_v56 select,
    unary main_v56 main_v57 (broadcastInDim S550000x1 ![0] bcast_S550000_S550000x1_0),
    binary main_v22 main_v57 main_v58 (fun x i => Host.gather gather_S50000x128_S550000x1_S550000x128_1_0_n_n_0_1_1128 x i),
    nullary main_c_11 (constantI S_ 32 0#32),
    unary main_c_11 main_v59 (broadcastInDim S550000 ![] bcast_S_S550000),
    binary main_v51 main_v59 main_v60 (cmpi .slt),
    nullary main_c_12 (constantI S_ 32 50000#32),
    unary main_c_12 main_v61 (broadcastInDim S550000 ![] bcast_S_S550000),
    binary main_v51 main_v61 main_v62 addi,
    ternary main_v60 main_v62 main_v51 main_v63 select,
    unary main_v63 main_v64 (broadcastInDim S550000x1 ![0] bcast_S550000_S550000x1_0),
    binary main_v22 main_v64 main_v65 (fun x i => Host.gather gather_S50000x128_S550000x1_S550000x128_1_0_n_n_0_1_1128 x i),
    TRef.binary (.of main_v58 : TRef sig ⟨S550000x128, .f32⟩) (.of main_v58 : TRef sig ⟨S550000x128, .f32⟩) (.of main_call0_v0 : TRef sig ⟨S550000x128, .f32⟩) mulf,
    TRef.nullary (.of main_call0_cst : TRef sig ⟨S_, .f32⟩) (constant S_ .f32 0x00000000#32),
    TRef.binary (.of main_call0_v0 : TRef sig ⟨S550000x128, .f32⟩) (.of main_call0_cst : TRef sig ⟨S_, .f32⟩) (.of main_call0_v1 : TRef sig ⟨S550000, .f32⟩) (fun x v => Host.reduceAdd x v reducesTo_S550000x128_S550000_d1 h_S_),
    TRef.unary (.of main_call0_v1 : TRef sig ⟨S550000, .f32⟩) (.of main_v66 : TRef sig ⟨S550000, .f32⟩) Host.sqrt,
    TRef.binary (.of main_v65 : TRef sig ⟨S550000x128, .f32⟩) (.of main_v65 : TRef sig ⟨S550000x128, .f32⟩) (.of main_call1_v0 : TRef sig ⟨S550000x128, .f32⟩) mulf,
    TRef.nullary (.of main_call1_cst : TRef sig ⟨S_, .f32⟩) (constant S_ .f32 0x00000000#32),
    TRef.binary (.of main_call1_v0 : TRef sig ⟨S550000x128, .f32⟩) (.of main_call1_cst : TRef sig ⟨S_, .f32⟩) (.of main_call1_v1 : TRef sig ⟨S550000, .f32⟩) (fun x v => Host.reduceAdd x v reducesTo_S550000x128_S550000_d1 h_S_),
    TRef.unary (.of main_call1_v1 : TRef sig ⟨S550000, .f32⟩) (.of main_v67 : TRef sig ⟨S550000, .f32⟩) Host.sqrt,
    binary main_v66 main_v67 main_v68 mulf,
    nullary main_cst_13 (constant S_ .f32 0x322BCC77#32),
    unary main_cst_13 main_v69 (broadcastInDim S550000 ![] bcast_S_S550000),
    binary main_v68 main_v69 main_v70 maximumf,
    binary main_v58 main_v65 main_v71 mulf,
    nullary main_cst_14 (constant S_ .f32 0x00000000#32),
    binary main_v71 main_cst_14 main_v72 (fun x v => Host.reduceAdd x v reducesTo_S550000x128_S550000_d1 h_S_),
    binary main_v72 main_v70 main_v73 Host.divf,
    nullary main_c_15 (constantI S_ 32 0#32),
    unary main_c_15 main_v74 (broadcastInDim S550000 ![] bcast_S_S550000),
    binary main_v50 main_v74 main_v75 (cmpi .slt),
    nullary main_c_16 (constantI S_ 32 50000#32),
    unary main_c_16 main_v76 (broadcastInDim S550000 ![] bcast_S_S550000),
    binary main_v50 main_v76 main_v77 addi,
    ternary main_v75 main_v77 main_v50 main_v78 select,
    unary main_v78 main_v79 (broadcastInDim S550000x1 ![0] bcast_S550000_S550000x1_0),
    binary main_v48 main_v79 main_v80 (fun x i => Host.gather gather_S50000x4x64_S550000x1_S550000x4x64_12_0_n_n_0_1_1464 x i),
    unary main_v73 main_v81 (broadcastInDim S550000x1x1 ![0] bcast_S550000_S550000x1x1_0),
    unary main_v81 main_v82 (broadcastInDim S550000x4x64 ![0, 1, 2] bcast_S550000x1x1_S550000x4x64_0_1_2),
    binary main_v80 main_v82 main_v83 mulf ]
abbrev rops3 : List (HloOp τ sig (Elt F)) :=
  [ nullary main_cst_17 (constant S_ .f32 0x00000000#32),
    unary main_cst_17 main_v84 (broadcastInDim S50000x4x64 ![] bcast_S_S50000x4x64),
    unary main_v51 main_v85 (broadcastInDim S550000x1 ![0] bcast_S550000_S550000x1_0),
    ternary main_v84 main_v85 main_v83 main_v86 (fun x i u => Host.scatterAdd scatter_S50000x4x64_S550000x1_S550000x4x64_12_0_0_1 x i u),
    reshape main_v86 main_v87 rfl shapeCasts_S50000x4x64_S50000x256,
    binary main_arg0 main_arg5 main_v88 (fun l r => Host.dotGeneral dot_S50000x128_S128x256_S50000x256_1_0_0_1_n_n none l r),
    binary main_v87 main_v88 main_v89 addf,
    unary main_arg6 main_v90 (broadcastInDim S1x256 ![1] bcast_S256_S1x256_1),
    unary main_v90 main_v91 (broadcastInDim S50000x256 ![0, 1] bcast_S1x256_S50000x256_0_1),
    binary main_v89 main_v91 main_v92 addf,
    TRef.nullary (.of main_call2_cst : TRef sig ⟨S_, .f32⟩) (constant S_ .f32 0x00000000#32),
    TRef.unary (.of main_call2_cst : TRef sig ⟨S_, .f32⟩) (.of main_call2_v0 : TRef sig ⟨S50000x256, .f32⟩) (broadcastInDim S50000x256 ![] bcast_S_S50000x256),
    TRef.binary (.of main_v92 : TRef sig ⟨S50000x256, .f32⟩) (.of main_call2_v0 : TRef sig ⟨S50000x256, .f32⟩) (.of main_call2_v1 : TRef sig ⟨S50000x256, .i1⟩) (cmpf .ogt),
    TRef.nullary (.of main_call2_cst_0 : TRef sig ⟨S_, .f32⟩) (constant S_ .f32 0x00000000#32),
    TRef.unary (.of main_call2_cst_0 : TRef sig ⟨S_, .f32⟩) (.of main_call2_v2 : TRef sig ⟨S50000x256, .f32⟩) (broadcastInDim S50000x256 ![] bcast_S_S50000x256),
    TRef.binary (.of main_v92 : TRef sig ⟨S50000x256, .f32⟩) (.of main_call2_v2 : TRef sig ⟨S50000x256, .f32⟩) (.of main_call2_v3 : TRef sig ⟨S50000x256, .i1⟩) (cmpf .ogt),
    TRef.nullary (.of main_call2_cst_1 : TRef sig ⟨S_, .f32⟩) (constant S_ .f32 0x00000000#32),
    TRef.unary (.of main_call2_cst_1 : TRef sig ⟨S_, .f32⟩) (.of main_call2_call0_v0 : TRef sig ⟨S_, .f32⟩) id,
    TRef.unary (.of main_call2_call0_v0 : TRef sig ⟨S_, .f32⟩) (.of main_call2_call0_v1 : TRef sig ⟨S50000x256, .f32⟩) (broadcastInDim S50000x256 ![] bcast_S_S50000x256),
    TRef.ternary (.of main_call2_v3 : TRef sig ⟨S50000x256, .i1⟩) (.of main_call2_call0_v1 : TRef sig ⟨S50000x256, .f32⟩) (.of main_v92 : TRef sig ⟨S50000x256, .f32⟩) (.of main_call2_v4 : TRef sig ⟨S50000x256, .f32⟩) select,
    TRef.unary (.of main_call2_v4 : TRef sig ⟨S50000x256, .f32⟩) (.of main_call2_v5 : TRef sig ⟨S50000x256, .f32⟩) Host.expm1,
    TRef.nullary (.of main_call2_cst_2 : TRef sig ⟨S_, .f32⟩) (constant S_ .f32 0x3F800000#32),
    TRef.unary (.of main_call2_cst_2 : TRef sig ⟨S_, .f32⟩) (.of main_call2_v6 : TRef sig ⟨S50000x256, .f32⟩) (broadcastInDim S50000x256 ![] bcast_S_S50000x256),
    TRef.binary (.of main_call2_v6 : TRef sig ⟨S50000x256, .f32⟩) (.of main_call2_v5 : TRef sig ⟨S50000x256, .f32⟩) (.of main_call2_v7 : TRef sig ⟨S50000x256, .f32⟩) mulf,
    TRef.ternary (.of main_call2_v1 : TRef sig ⟨S50000x256, .i1⟩) (.of main_v92 : TRef sig ⟨S50000x256, .f32⟩) (.of main_call2_v7 : TRef sig ⟨S50000x256, .f32⟩) (.of main_v93 : TRef sig ⟨S50000x256, .f32⟩) select ]
abbrev rops4 : List (HloOp τ sig (Elt F)) :=
  [ nullary main_cst_18 (constant S_ .f32 0x3F800000#32),
    unary main_cst_18 main_v94 (broadcastInDim S500000 ![] bcast_S_S500000),
    nullary main_cst_19 (constant S_ .f32 0x00000000#32),
    unary main_cst_19 main_v95 (broadcastInDim S50000 ![] bcast_S_S50000),
    unary main_v1 main_v96 (broadcastInDim S500000x1 ![0] bcast_S500000_S500000x1_0),
    ternary main_v95 main_v96 main_v94 main_v97 (fun x i u => Host.scatterAdd scatter_S50000_S500000x1_S500000_n_0_0_1 x i u),
    nullary main_c_20 (constantI S_ 32 0#32),
    unary main_c_20 main_v98 (broadcastInDim S500000 ![] bcast_S_S500000),
    binary main_v3 main_v98 main_v99 (cmpi .slt),
    nullary main_c_21 (constantI S_ 32 50000#32),
    unary main_c_21 main_v100 (broadcastInDim S500000 ![] bcast_S_S500000),
    binary main_v3 main_v100 main_v101 addi,
    ternary main_v99 main_v101 main_v3 main_v102 select,
    unary main_v102 main_v103 (broadcastInDim S500000x1 ![0] bcast_S500000_S500000x1_0),
    binary main_v93 main_v103 main_v104 (fun x i => Host.gather gather_S50000x256_S500000x1_S500000x256_1_0_n_n_0_1_1256 x i),
    nullary main_cst_22 (constant S_ .f32 0x00000000#32),
    unary main_cst_22 main_v105 (broadcastInDim S50000x256 ![] bcast_S_S50000x256),
    unary main_v1 main_v106 (broadcastInDim S500000x1 ![0] bcast_S500000_S500000x1_0),
    ternary main_v105 main_v106 main_v104 main_v107 (fun x i u => Host.scatterAdd scatter_S50000x256_S500000x1_S500000x256_1_0_0_1 x i u),
    nullary main_cst_23 (constant S_ .f32 0x3F800000#32),
    unary main_cst_23 main_v108 (broadcastInDim S50000 ![] bcast_S_S50000),
    binary main_v97 main_v108 main_v109 maximumf,
    unary main_v109 main_v110 (broadcastInDim S50000x1 ![0] bcast_S50000_S50000x1_0),
    unary main_v110 main_v111 (broadcastInDim S50000x256 ![0, 1] bcast_S50000x1_S50000x256_0_1),
    binary main_v107 main_v111 main_v112 Host.divf ]
abbrev rops5 : List (HloOp τ sig (Elt F)) :=
  [ binary main_v93 main_arg7 main_v113 (fun l r => Host.dotGeneral dot_S50000x256_S256x256_S50000x256_1_0_0_1_n_n none l r),
    reshape main_v113 main_v114 rfl shapeCasts_S50000x256_S50000x4x64,
    nullary main_cst_24 (constant S_ .f32 0x00000000#32),
    binary main_v114 main_cst_24 main_v115 (fun x v => Host.reduceAdd x v reducesTo_S50000x4x64_S50000x4_d2 h_S_),
    unary main_v115 main_v116 (broadcastInDim S50000x4x1 ![0, 1] bcast_S50000x4_S50000x4x1_0_1),
    nullary main_cst_25 (constant S_ .f32 0x42800000#32),
    unary main_cst_25 main_v117 (broadcastInDim S50000x4x1 ![] bcast_S_S50000x4x1),
    binary main_v116 main_v117 main_v118 Host.divf,
    unary main_v118 main_v119 (broadcastInDim S50000x4x64 ![0, 1, 2] bcast_S50000x4x1_S50000x4x64_0_1_2),
    binary main_v114 main_v119 main_v120 subf,
    binary main_v120 main_v120 main_v121 mulf,
    nullary main_cst_26 (constant S_ .f32 0x00000000#32),
    binary main_v121 main_cst_26 main_v122 (fun x v => Host.reduceAdd x v reducesTo_S50000x4x64_S50000x4_d2 h_S_),
    unary main_v122 main_v123 (broadcastInDim S50000x4x1 ![0, 1] bcast_S50000x4_S50000x4x1_0_1),
    nullary main_cst_27 (constant S_ .f32 0x42800000#32),
    unary main_cst_27 main_v124 (broadcastInDim S50000x4x1 ![] bcast_S_S50000x4x1),
    binary main_v123 main_v124 main_v125 Host.divf,
    unary main_v118 main_v126 (broadcastInDim S50000x4x64 ![0, 1, 2] bcast_S50000x4x1_S50000x4x64_0_1_2),
    binary main_v114 main_v126 main_v127 subf,
    nullary main_cst_28 (constant S_ .f32 0x3727C5AC#32),
    unary main_cst_28 main_v128 (broadcastInDim S50000x4x1 ![] bcast_S_S50000x4x1),
    binary main_v125 main_v128 main_v129 addf,
    unary main_v129 main_v130 Host.rsqrt,
    unary main_v130 main_v131 (broadcastInDim S50000x4x64 ![0, 1, 2] bcast_S50000x4x1_S50000x4x64_0_1_2),
    binary main_v127 main_v131 main_v132 mulf,
    unary main_arg8 main_v133 (broadcastInDim S1x1x64 ![2] bcast_S64_S1x1x64_2),
    unary main_v133 main_v134 (broadcastInDim S50000x4x64 ![0, 1, 2] bcast_S1x1x64_S50000x4x64_0_1_2),
    binary main_v132 main_v134 main_v135 mulf,
    unary main_arg9 main_v136 (broadcastInDim S1x1x64 ![2] bcast_S64_S1x1x64_2),
    unary main_v136 main_v137 (broadcastInDim S50000x4x64 ![0, 1, 2] bcast_S1x1x64_S50000x4x64_0_1_2),
    binary main_v135 main_v137 main_v138 addf ]
abbrev rops6 : List (HloOp τ sig (Elt F)) :=
  [ nullary main_v139 (iotaInDim S50000 32 0),
    binary main_v1 main_v139 main_v140 (fun a b => concatenate S550000 0 [⟨S500000, a⟩, ⟨S50000, b⟩] concatenates_S500000_S50000_S550000_d0),
    binary main_v3 main_v139 main_v141 (fun a b => concatenate S550000 0 [⟨S500000, a⟩, ⟨S50000, b⟩] concatenates_S500000_S50000_S550000_d0),
    nullary main_c_29 (constantI S_ 32 0#32),
    unary main_c_29 main_v142 (broadcastInDim S550000 ![] bcast_S_S550000),
    binary main_v140 main_v142 main_v143 (cmpi .slt),
    nullary main_c_30 (constantI S_ 32 50000#32),
    unary main_c_30 main_v144 (broadcastInDim S550000 ![] bcast_S_S550000),
    binary main_v140 main_v144 main_v145 addi,
    ternary main_v143 main_v145 main_v140 main_v146 select,
    unary main_v146 main_v147 (broadcastInDim S550000x1 ![0] bcast_S550000_S550000x1_0),
    binary main_v112 main_v147 main_v148 (fun x i => Host.gather gather_S50000x256_S550000x1_S550000x256_1_0_n_n_0_1_1256 x i),
    nullary main_c_31 (constantI S_ 32 0#32),
    unary main_c_31 main_v149 (broadcastInDim S550000 ![] bcast_S_S550000),
    binary main_v141 main_v149 main_v150 (cmpi .slt),
    nullary main_c_32 (constantI S_ 32 50000#32),
    unary main_c_32 main_v151 (broadcastInDim S550000 ![] bcast_S_S550000),
    binary main_v141 main_v151 main_v152 addi,
    ternary main_v150 main_v152 main_v141 main_v153 select,
    unary main_v153 main_v154 (broadcastInDim S550000x1 ![0] bcast_S550000_S550000x1_0),
    binary main_v112 main_v154 main_v155 (fun x i => Host.gather gather_S50000x256_S550000x1_S550000x256_1_0_n_n_0_1_1256 x i),
    TRef.binary (.of main_v148 : TRef sig ⟨S550000x256, .f32⟩) (.of main_v148 : TRef sig ⟨S550000x256, .f32⟩) (.of main_call3_v0 : TRef sig ⟨S550000x256, .f32⟩) mulf,
    TRef.nullary (.of main_call3_cst : TRef sig ⟨S_, .f32⟩) (constant S_ .f32 0x00000000#32),
    TRef.binary (.of main_call3_v0 : TRef sig ⟨S550000x256, .f32⟩) (.of main_call3_cst : TRef sig ⟨S_, .f32⟩) (.of main_call3_v1 : TRef sig ⟨S550000, .f32⟩) (fun x v => Host.reduceAdd x v reducesTo_S550000x256_S550000_d1 h_S_),
    TRef.unary (.of main_call3_v1 : TRef sig ⟨S550000, .f32⟩) (.of main_v156 : TRef sig ⟨S550000, .f32⟩) Host.sqrt,
    TRef.binary (.of main_v155 : TRef sig ⟨S550000x256, .f32⟩) (.of main_v155 : TRef sig ⟨S550000x256, .f32⟩) (.of main_call4_v0 : TRef sig ⟨S550000x256, .f32⟩) mulf,
    TRef.nullary (.of main_call4_cst : TRef sig ⟨S_, .f32⟩) (constant S_ .f32 0x00000000#32),
    TRef.binary (.of main_call4_v0 : TRef sig ⟨S550000x256, .f32⟩) (.of main_call4_cst : TRef sig ⟨S_, .f32⟩) (.of main_call4_v1 : TRef sig ⟨S550000, .f32⟩) (fun x v => Host.reduceAdd x v reducesTo_S550000x256_S550000_d1 h_S_),
    TRef.unary (.of main_call4_v1 : TRef sig ⟨S550000, .f32⟩) (.of main_v157 : TRef sig ⟨S550000, .f32⟩) Host.sqrt,
    binary main_v156 main_v157 main_v158 mulf,
    nullary main_cst_33 (constant S_ .f32 0x322BCC77#32),
    unary main_cst_33 main_v159 (broadcastInDim S550000 ![] bcast_S_S550000),
    binary main_v158 main_v159 main_v160 maximumf,
    binary main_v148 main_v155 main_v161 mulf,
    nullary main_cst_34 (constant S_ .f32 0x00000000#32),
    binary main_v161 main_cst_34 main_v162 (fun x v => Host.reduceAdd x v reducesTo_S550000x256_S550000_d1 h_S_),
    binary main_v162 main_v160 main_v163 Host.divf,
    nullary main_c_35 (constantI S_ 32 0#32),
    unary main_c_35 main_v164 (broadcastInDim S550000 ![] bcast_S_S550000),
    binary main_v140 main_v164 main_v165 (cmpi .slt),
    nullary main_c_36 (constantI S_ 32 50000#32),
    unary main_c_36 main_v166 (broadcastInDim S550000 ![] bcast_S_S550000),
    binary main_v140 main_v166 main_v167 addi,
    ternary main_v165 main_v167 main_v140 main_v168 select,
    unary main_v168 main_v169 (broadcastInDim S550000x1 ![0] bcast_S550000_S550000x1_0),
    binary main_v138 main_v169 main_v170 (fun x i => Host.gather gather_S50000x4x64_S550000x1_S550000x4x64_12_0_n_n_0_1_1464 x i),
    unary main_v163 main_v171 (broadcastInDim S550000x1x1 ![0] bcast_S550000_S550000x1x1_0),
    unary main_v171 main_v172 (broadcastInDim S550000x4x64 ![0, 1, 2] bcast_S550000x1x1_S550000x4x64_0_1_2),
    binary main_v170 main_v172 main_v173 mulf ]
abbrev rops7 : List (HloOp τ sig (Elt F)) :=
  [ nullary main_cst_37 (constant S_ .f32 0x00000000#32),
    unary main_cst_37 main_v174 (broadcastInDim S50000x4x64 ![] bcast_S_S50000x4x64),
    unary main_v141 main_v175 (broadcastInDim S550000x1 ![0] bcast_S550000_S550000x1_0),
    ternary main_v174 main_v175 main_v173 main_v176 (fun x i u => Host.scatterAdd scatter_S50000x4x64_S550000x1_S550000x4x64_12_0_0_1 x i u),
    reshape main_v176 main_v177 rfl shapeCasts_S50000x4x64_S50000x256,
    binary main_v93 main_arg10 main_v178 (fun l r => Host.dotGeneral dot_S50000x256_S256x256_S50000x256_1_0_0_1_n_n none l r),
    binary main_v177 main_v178 main_v179 addf,
    unary main_arg11 main_v180 (broadcastInDim S1x256 ![1] bcast_S256_S1x256_1),
    unary main_v180 main_v181 (broadcastInDim S50000x256 ![0, 1] bcast_S1x256_S50000x256_0_1),
    binary main_v179 main_v181 main_v182 addf,
    TRef.nullary (.of main_call5_cst : TRef sig ⟨S_, .f32⟩) (constant S_ .f32 0x00000000#32),
    TRef.unary (.of main_call5_cst : TRef sig ⟨S_, .f32⟩) (.of main_call5_v0 : TRef sig ⟨S50000x256, .f32⟩) (broadcastInDim S50000x256 ![] bcast_S_S50000x256),
    TRef.binary (.of main_v182 : TRef sig ⟨S50000x256, .f32⟩) (.of main_call5_v0 : TRef sig ⟨S50000x256, .f32⟩) (.of main_call5_v1 : TRef sig ⟨S50000x256, .i1⟩) (cmpf .ogt),
    TRef.nullary (.of main_call5_cst_0 : TRef sig ⟨S_, .f32⟩) (constant S_ .f32 0x00000000#32),
    TRef.unary (.of main_call5_cst_0 : TRef sig ⟨S_, .f32⟩) (.of main_call5_v2 : TRef sig ⟨S50000x256, .f32⟩) (broadcastInDim S50000x256 ![] bcast_S_S50000x256),
    TRef.binary (.of main_v182 : TRef sig ⟨S50000x256, .f32⟩) (.of main_call5_v2 : TRef sig ⟨S50000x256, .f32⟩) (.of main_call5_v3 : TRef sig ⟨S50000x256, .i1⟩) (cmpf .ogt),
    TRef.nullary (.of main_call5_cst_1 : TRef sig ⟨S_, .f32⟩) (constant S_ .f32 0x00000000#32),
    TRef.unary (.of main_call5_cst_1 : TRef sig ⟨S_, .f32⟩) (.of main_call5_call0_v0 : TRef sig ⟨S_, .f32⟩) id,
    TRef.unary (.of main_call5_call0_v0 : TRef sig ⟨S_, .f32⟩) (.of main_call5_call0_v1 : TRef sig ⟨S50000x256, .f32⟩) (broadcastInDim S50000x256 ![] bcast_S_S50000x256),
    TRef.ternary (.of main_call5_v3 : TRef sig ⟨S50000x256, .i1⟩) (.of main_call5_call0_v1 : TRef sig ⟨S50000x256, .f32⟩) (.of main_v182 : TRef sig ⟨S50000x256, .f32⟩) (.of main_call5_v4 : TRef sig ⟨S50000x256, .f32⟩) select,
    TRef.unary (.of main_call5_v4 : TRef sig ⟨S50000x256, .f32⟩) (.of main_call5_v5 : TRef sig ⟨S50000x256, .f32⟩) Host.expm1,
    TRef.nullary (.of main_call5_cst_2 : TRef sig ⟨S_, .f32⟩) (constant S_ .f32 0x3F800000#32),
    TRef.unary (.of main_call5_cst_2 : TRef sig ⟨S_, .f32⟩) (.of main_call5_v6 : TRef sig ⟨S50000x256, .f32⟩) (broadcastInDim S50000x256 ![] bcast_S_S50000x256),
    TRef.binary (.of main_call5_v6 : TRef sig ⟨S50000x256, .f32⟩) (.of main_call5_v5 : TRef sig ⟨S50000x256, .f32⟩) (.of main_call5_v7 : TRef sig ⟨S50000x256, .f32⟩) mulf,
    TRef.ternary (.of main_call5_v1 : TRef sig ⟨S50000x256, .i1⟩) (.of main_v182 : TRef sig ⟨S50000x256, .f32⟩) (.of main_call5_v7 : TRef sig ⟨S50000x256, .f32⟩) (.of main_v183 : TRef sig ⟨S50000x256, .f32⟩) select ]
abbrev rops8 : List (HloOp τ sig (Elt F)) :=
  [ nullary main_cst_38 (constant S_ .f32 0x3F800000#32),
    unary main_cst_38 main_v184 (broadcastInDim S500000 ![] bcast_S_S500000),
    nullary main_cst_39 (constant S_ .f32 0x00000000#32),
    unary main_cst_39 main_v185 (broadcastInDim S50000 ![] bcast_S_S50000),
    unary main_v1 main_v186 (broadcastInDim S500000x1 ![0] bcast_S500000_S500000x1_0),
    ternary main_v185 main_v186 main_v184 main_v187 (fun x i u => Host.scatterAdd scatter_S50000_S500000x1_S500000_n_0_0_1 x i u),
    nullary main_c_40 (constantI S_ 32 0#32),
    unary main_c_40 main_v188 (broadcastInDim S500000 ![] bcast_S_S500000),
    binary main_v3 main_v188 main_v189 (cmpi .slt),
    nullary main_c_41 (constantI S_ 32 50000#32),
    unary main_c_41 main_v190 (broadcastInDim S500000 ![] bcast_S_S500000),
    binary main_v3 main_v190 main_v191 addi,
    ternary main_v189 main_v191 main_v3 main_v192 select,
    unary main_v192 main_v193 (broadcastInDim S500000x1 ![0] bcast_S500000_S500000x1_0),
    binary main_v183 main_v193 main_v194 (fun x i => Host.gather gather_S50000x256_S500000x1_S500000x256_1_0_n_n_0_1_1256 x i),
    nullary main_cst_42 (constant S_ .f32 0x00000000#32),
    unary main_cst_42 main_v195 (broadcastInDim S50000x256 ![] bcast_S_S50000x256),
    unary main_v1 main_v196 (broadcastInDim S500000x1 ![0] bcast_S500000_S500000x1_0),
    ternary main_v195 main_v196 main_v194 main_v197 (fun x i u => Host.scatterAdd scatter_S50000x256_S500000x1_S500000x256_1_0_0_1 x i u),
    nullary main_cst_43 (constant S_ .f32 0x3F800000#32),
    unary main_cst_43 main_v198 (broadcastInDim S50000 ![] bcast_S_S50000),
    binary main_v187 main_v198 main_v199 maximumf,
    unary main_v199 main_v200 (broadcastInDim S50000x1 ![0] bcast_S50000_S50000x1_0),
    unary main_v200 main_v201 (broadcastInDim S50000x256 ![0, 1] bcast_S50000x1_S50000x256_0_1),
    binary main_v197 main_v201 main_v202 Host.divf ]
abbrev rops9 : List (HloOp τ sig (Elt F)) :=
  [ binary main_v183 main_arg12 main_v203 (fun l r => Host.dotGeneral dot_S50000x256_S256x40_S50000x40_1_0_0_1_n_n none l r),
    reshape main_v203 main_v204 rfl shapeCasts_S50000x40_S50000x1x40,
    nullary main_cst_44 (constant S_ .f32 0x00000000#32),
    binary main_v204 main_cst_44 main_v205 (fun x v => Host.reduceAdd x v reducesTo_S50000x1x40_S50000x1_d2 h_S_),
    unary main_v205 main_v206 (broadcastInDim S50000x1x1 ![0, 1] bcast_S50000x1_S50000x1x1_0_1),
    nullary main_cst_45 (constant S_ .f32 0x42200000#32),
    unary main_cst_45 main_v207 (broadcastInDim S50000x1x1 ![] bcast_S_S50000x1x1),
    binary main_v206 main_v207 main_v208 Host.divf,
    unary main_v208 main_v209 (broadcastInDim S50000x1x40 ![0, 1, 2] bcast_S50000x1x1_S50000x1x40_0_1_2),
    binary main_v204 main_v209 main_v210 subf,
    binary main_v210 main_v210 main_v211 mulf,
    nullary main_cst_46 (constant S_ .f32 0x00000000#32),
    binary main_v211 main_cst_46 main_v212 (fun x v => Host.reduceAdd x v reducesTo_S50000x1x40_S50000x1_d2 h_S_),
    unary main_v212 main_v213 (broadcastInDim S50000x1x1 ![0, 1] bcast_S50000x1_S50000x1x1_0_1),
    nullary main_cst_47 (constant S_ .f32 0x42200000#32),
    unary main_cst_47 main_v214 (broadcastInDim S50000x1x1 ![] bcast_S_S50000x1x1),
    binary main_v213 main_v214 main_v215 Host.divf,
    unary main_v208 main_v216 (broadcastInDim S50000x1x40 ![0, 1, 2] bcast_S50000x1x1_S50000x1x40_0_1_2),
    binary main_v204 main_v216 main_v217 subf,
    nullary main_cst_48 (constant S_ .f32 0x3727C5AC#32),
    unary main_cst_48 main_v218 (broadcastInDim S50000x1x1 ![] bcast_S_S50000x1x1),
    binary main_v215 main_v218 main_v219 addf,
    unary main_v219 main_v220 Host.rsqrt,
    unary main_v220 main_v221 (broadcastInDim S50000x1x40 ![0, 1, 2] bcast_S50000x1x1_S50000x1x40_0_1_2),
    binary main_v217 main_v221 main_v222 mulf,
    unary main_arg13 main_v223 (broadcastInDim S1x1x40 ![2] bcast_S40_S1x1x40_2),
    unary main_v223 main_v224 (broadcastInDim S50000x1x40 ![0, 1, 2] bcast_S1x1x40_S50000x1x40_0_1_2),
    binary main_v222 main_v224 main_v225 mulf,
    unary main_arg14 main_v226 (broadcastInDim S1x1x40 ![2] bcast_S40_S1x1x40_2),
    unary main_v226 main_v227 (broadcastInDim S50000x1x40 ![0, 1, 2] bcast_S1x1x40_S50000x1x40_0_1_2),
    binary main_v225 main_v227 main_v228 addf ]
abbrev rops10 : List (HloOp τ sig (Elt F)) :=
  [ nullary main_v229 (iotaInDim S50000 32 0),
    binary main_v1 main_v229 main_v230 (fun a b => concatenate S550000 0 [⟨S500000, a⟩, ⟨S50000, b⟩] concatenates_S500000_S50000_S550000_d0),
    binary main_v3 main_v229 main_v231 (fun a b => concatenate S550000 0 [⟨S500000, a⟩, ⟨S50000, b⟩] concatenates_S500000_S50000_S550000_d0),
    nullary main_c_49 (constantI S_ 32 0#32),
    unary main_c_49 main_v232 (broadcastInDim S550000 ![] bcast_S_S550000),
    binary main_v230 main_v232 main_v233 (cmpi .slt),
    nullary main_c_50 (constantI S_ 32 50000#32),
    unary main_c_50 main_v234 (broadcastInDim S550000 ![] bcast_S_S550000),
    binary main_v230 main_v234 main_v235 addi,
    ternary main_v233 main_v235 main_v230 main_v236 select,
    unary main_v236 main_v237 (broadcastInDim S550000x1 ![0] bcast_S550000_S550000x1_0),
    binary main_v202 main_v237 main_v238 (fun x i => Host.gather gather_S50000x256_S550000x1_S550000x256_1_0_n_n_0_1_1256 x i),
    nullary main_c_51 (constantI S_ 32 0#32),
    unary main_c_51 main_v239 (broadcastInDim S550000 ![] bcast_S_S550000),
    binary main_v231 main_v239 main_v240 (cmpi .slt),
    nullary main_c_52 (constantI S_ 32 50000#32),
    unary main_c_52 main_v241 (broadcastInDim S550000 ![] bcast_S_S550000),
    binary main_v231 main_v241 main_v242 addi,
    ternary main_v240 main_v242 main_v231 main_v243 select,
    unary main_v243 main_v244 (broadcastInDim S550000x1 ![0] bcast_S550000_S550000x1_0),
    binary main_v202 main_v244 main_v245 (fun x i => Host.gather gather_S50000x256_S550000x1_S550000x256_1_0_n_n_0_1_1256 x i),
    TRef.binary (.of main_v238 : TRef sig ⟨S550000x256, .f32⟩) (.of main_v238 : TRef sig ⟨S550000x256, .f32⟩) (.of main_call6_v0 : TRef sig ⟨S550000x256, .f32⟩) mulf,
    TRef.nullary (.of main_call6_cst : TRef sig ⟨S_, .f32⟩) (constant S_ .f32 0x00000000#32),
    TRef.binary (.of main_call6_v0 : TRef sig ⟨S550000x256, .f32⟩) (.of main_call6_cst : TRef sig ⟨S_, .f32⟩) (.of main_call6_v1 : TRef sig ⟨S550000, .f32⟩) (fun x v => Host.reduceAdd x v reducesTo_S550000x256_S550000_d1 h_S_),
    TRef.unary (.of main_call6_v1 : TRef sig ⟨S550000, .f32⟩) (.of main_v246 : TRef sig ⟨S550000, .f32⟩) Host.sqrt,
    TRef.binary (.of main_v245 : TRef sig ⟨S550000x256, .f32⟩) (.of main_v245 : TRef sig ⟨S550000x256, .f32⟩) (.of main_call7_v0 : TRef sig ⟨S550000x256, .f32⟩) mulf,
    TRef.nullary (.of main_call7_cst : TRef sig ⟨S_, .f32⟩) (constant S_ .f32 0x00000000#32),
    TRef.binary (.of main_call7_v0 : TRef sig ⟨S550000x256, .f32⟩) (.of main_call7_cst : TRef sig ⟨S_, .f32⟩) (.of main_call7_v1 : TRef sig ⟨S550000, .f32⟩) (fun x v => Host.reduceAdd x v reducesTo_S550000x256_S550000_d1 h_S_),
    TRef.unary (.of main_call7_v1 : TRef sig ⟨S550000, .f32⟩) (.of main_v247 : TRef sig ⟨S550000, .f32⟩) Host.sqrt,
    binary main_v246 main_v247 main_v248 mulf,
    nullary main_cst_53 (constant S_ .f32 0x322BCC77#32),
    unary main_cst_53 main_v249 (broadcastInDim S550000 ![] bcast_S_S550000),
    binary main_v248 main_v249 main_v250 maximumf,
    binary main_v238 main_v245 main_v251 mulf,
    nullary main_cst_54 (constant S_ .f32 0x00000000#32),
    binary main_v251 main_cst_54 main_v252 (fun x v => Host.reduceAdd x v reducesTo_S550000x256_S550000_d1 h_S_),
    binary main_v252 main_v250 main_v253 Host.divf,
    nullary main_c_55 (constantI S_ 32 0#32),
    unary main_c_55 main_v254 (broadcastInDim S550000 ![] bcast_S_S550000),
    binary main_v230 main_v254 main_v255 (cmpi .slt),
    nullary main_c_56 (constantI S_ 32 50000#32),
    unary main_c_56 main_v256 (broadcastInDim S550000 ![] bcast_S_S550000),
    binary main_v230 main_v256 main_v257 addi,
    ternary main_v255 main_v257 main_v230 main_v258 select,
    unary main_v258 main_v259 (broadcastInDim S550000x1 ![0] bcast_S550000_S550000x1_0),
    binary main_v228 main_v259 main_v260 (fun x i => Host.gather gather_S50000x1x40_S550000x1_S550000x1x40_12_0_n_n_0_1_1140 x i),
    unary main_v253 main_v261 (broadcastInDim S550000x1x1 ![0] bcast_S550000_S550000x1x1_0),
    unary main_v261 main_v262 (broadcastInDim S550000x1x40 ![0, 1, 2] bcast_S550000x1x1_S550000x1x40_0_1_2),
    binary main_v260 main_v262 main_v263 mulf ]
abbrev rops11 : List (HloOp τ sig (Elt F)) :=
  [ nullary main_cst_57 (constant S_ .f32 0x00000000#32),
    unary main_cst_57 main_v264 (broadcastInDim S50000x1x40 ![] bcast_S_S50000x1x40),
    unary main_v231 main_v265 (broadcastInDim S550000x1 ![0] bcast_S550000_S550000x1_0),
    ternary main_v264 main_v265 main_v263 main_v266 (fun x i u => Host.scatterAdd scatter_S50000x1x40_S550000x1_S550000x1x40_12_0_0_1 x i u),
    nullary main_cst_58 (constant S_ .f32 0x00000000#32),
    binary main_v266 main_cst_58 main_v267 (fun x v => Host.reduceAdd x v reducesTo_S50000x1x40_S50000x40_d1 h_S_),
    nullary main_cst_59 (constant S_ .f32 0x3F800000#32),
    unary main_cst_59 main_v268 (broadcastInDim S50000x40 ![] bcast_S_S50000x40),
    binary main_v267 main_v268 main_v269 Host.divf,
    binary main_v183 main_arg15 main_v270 (fun l r => Host.dotGeneral dot_S50000x256_S256x1_S50000x1_1_0_0_1_n_n none l r),
    unary main_v270 main_v271 (broadcastInDim S50000x40 ![0, 1] bcast_S50000x1_S50000x40_0_1),
    binary main_v269 main_v271 main_v272 addf,
    unary main_arg16 main_v273 (broadcastInDim S1x1 ![1] bcast_S1_S1x1_1),
    unary main_v273 main_v274 (broadcastInDim S50000x40 ![0, 1] bcast_S1x1_S50000x40_0_1),
    binary main_v272 main_v274 main_v275 addf ]
abbrev rops12 : List (HloOp τ sig (Elt F)) :=
  [ TRef.nullary (.of main_call8_cst : TRef sig ⟨S_, .f32⟩) (constant S_ .f32 0xFF800000#32),
    TRef.binary (.of main_v275 : TRef sig ⟨S50000x40, .f32⟩) (.of main_call8_cst : TRef sig ⟨S_, .f32⟩) (.of main_call8_v0 : TRef sig ⟨S50000, .f32⟩) (fun x v => Host.reduce FloatOps.maximumf x v reducesTo_S50000x40_S50000_d1 h_S_),
    TRef.nullary (.of main_call8_cst_0 : TRef sig ⟨S_, .f32⟩) (constant S_ .f32 0xFF800000#32),
    TRef.unary (.of main_call8_cst_0 : TRef sig ⟨S_, .f32⟩) (.of main_call8_v1 : TRef sig ⟨S50000, .f32⟩) (broadcastInDim S50000 ![] bcast_S_S50000),
    TRef.binary (.of main_call8_v1 : TRef sig ⟨S50000, .f32⟩) (.of main_call8_v0 : TRef sig ⟨S50000, .f32⟩) (.of main_call8_v2 : TRef sig ⟨S50000, .f32⟩) maximumf,
    TRef.unary (.of main_call8_v2 : TRef sig ⟨S50000, .f32⟩) (.of main_call8_v3 : TRef sig ⟨S50000x1, .f32⟩) (broadcastInDim S50000x1 ![0] bcast_S50000_S50000x1_0),
    TRef.unary (.of main_call8_v3 : TRef sig ⟨S50000x1, .f32⟩) (.of main_call8_v4 : TRef sig ⟨S50000x40, .f32⟩) (broadcastInDim S50000x40 ![0, 1] bcast_S50000x1_S50000x40_0_1),
    TRef.binary (.of main_v275 : TRef sig ⟨S50000x40, .f32⟩) (.of main_call8_v4 : TRef sig ⟨S50000x40, .f32⟩) (.of main_call8_v5 : TRef sig ⟨S50000x40, .f32⟩) subf,
    TRef.unary (.of main_call8_v5 : TRef sig ⟨S50000x40, .f32⟩) (.of main_call8_v6 : TRef sig ⟨S50000x40, .f32⟩) Host.exp,
    TRef.nullary (.of main_call8_cst_1 : TRef sig ⟨S_, .f32⟩) (constant S_ .f32 0x00000000#32),
    TRef.binary (.of main_call8_v6 : TRef sig ⟨S50000x40, .f32⟩) (.of main_call8_cst_1 : TRef sig ⟨S_, .f32⟩) (.of main_call8_v7 : TRef sig ⟨S50000, .f32⟩) (fun x v => Host.reduceAdd x v reducesTo_S50000x40_S50000_d1 h_S_),
    TRef.unary (.of main_call8_v7 : TRef sig ⟨S50000, .f32⟩) (.of main_call8_v8 : TRef sig ⟨S50000x1, .f32⟩) (broadcastInDim S50000x1 ![0] bcast_S50000_S50000x1_0),
    TRef.unary (.of main_call8_v8 : TRef sig ⟨S50000x1, .f32⟩) (.of main_call8_v9 : TRef sig ⟨S50000x1, .f32⟩) Host.log,
    TRef.unary (.of main_call8_v9 : TRef sig ⟨S50000x1, .f32⟩) (.of main_call8_v10 : TRef sig ⟨S50000x40, .f32⟩) (broadcastInDim S50000x40 ![0, 1] bcast_S50000x1_S50000x40_0_1),
    TRef.binary (.of main_call8_v5 : TRef sig ⟨S50000x40, .f32⟩) (.of main_call8_v10 : TRef sig ⟨S50000x40, .f32⟩) (.of main_v276 : TRef sig ⟨S50000x40, .f32⟩) subf ]
end Cert.ReferenceIdeal.RefRun

end
-- ==== Proof.RChain.lean ====
import proofs.«418090_j57904749084726_1_alg».proof.Proof.RefOps

noncomputable section

namespace Cert.ReferenceIdeal.RChain

open Cert.ReferenceIdeal Cert.ReferenceIdeal.Gen Cert.ReferenceIdeal.RefRun
open Idealize.ShloMosaic Idealize.ShloMosaic.TcCoe Idealize.SL.Sem

variable {F : FTy → Type} [FloatOps F]

abbrev RL0 (V : Valuation τ sig (Elt F)) : Valuation τ sig (Elt F) :=
  StableHlo.after rops3 (StableHlo.after rops2 (StableHlo.after rops1 (StableHlo.after rops0 V)))
abbrev RL1 (V : Valuation τ sig (Elt F)) : Valuation τ sig (Elt F) :=
  StableHlo.after rops7 (StableHlo.after rops6 (StableHlo.after rops5 (StableHlo.after rops4 V)))
abbrev RL2 (V : Valuation τ sig (Elt F)) : Valuation τ sig (Elt F) :=
  StableHlo.after rops12 (StableHlo.after rops11 (StableHlo.after rops10 (StableHlo.after rops9 (StableHlo.after rops8 V))))

end Cert.ReferenceIdeal.RChain

end
-- ==== Proof.RefRun.lean ====
import proofs.«418090_j57904749084726_1_alg».proof.Proof.RChain
import proofs.«418090_j57904749084726_1_alg».proof.Proof.Gen.Pre_finite_inputs
import proofs.«418090_j57904749084726_1_alg».proof.Defs
import Idealize.ShloMosaic.Lib.Pipeline.Regions
import Idealize.ShloMosaic.Lib.StableHlo.Run

noncomputable section

namespace Cert.ReferenceIdeal.RefRun

open Cert.ReferenceIdeal Cert.ReferenceIdeal.Gen Cert.ReferenceIdeal.RChain Idealize.ShloMosaic Idealize.ShloMosaic.TcCoe Idealize.SL.Sem

variable {F : FTy → Type} [FloatOps F]

theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

abbrev ropsAll : List (HloOp τ sig (Elt F)) :=
  rops0 ++ (rops1 ++ (rops2 ++ (rops3 ++ (rops4 ++ (rops5 ++ (rops6 ++ (rops7 ++ (rops8 ++ (rops9 ++ (rops10 ++ (rops11 ++ rops12)))))))))))

theorem ropsAll_sub : (ropsAll : List (HloOp τ sig (Elt F))).Forall fun op => op.bufs ⊆ StableHlo.tcRefs τ sig := by
  simp only [ropsAll, List.forall_append, List.Forall, StableHlo.nullary_bufs_sub, StableHlo.unary_bufs_sub,
    StableHlo.binary_bufs_sub, StableHlo.ternary_bufs_sub, StableHlo.reshape_bufs_sub, and_self]

-- every operation determines what it writes
theorem ropsAll_fresh : ∀ op ∈ (ropsAll : List (HloOp τ sig (Elt F))), op.fresh = ∅ :=
  List.forall_iff_forall_mem.1 (by
    simp only [ropsAll, List.forall_append]
    refine ⟨?_, ?_, ?_, ?_, ?_, ?_, ?_, ?_, ?_, ?_, ?_, ?_, ?_⟩ <;> (repeat (refine ⟨rfl, ?_⟩)) <;> rfl)

theorem main_eq (c : Dev nD) : main (F := F) c = StableHlo.seq ropsAll := by
  chain_rfl

set_option maxRecDepth 8192 in
theorem scopedRefs_eq : (Finset.univ.filter fun b : Ref sig .tc => b.isScoped) = ∅ := by decide
theorem scopedSems_eq : (Finset.univ.filter fun sm : SemLoc sig => sm.isScoped .tc) = ∅ := by decide

theorem after_ropsAll (V : Valuation τ sig (Elt F)) : StableHlo.after ropsAll V = RL2 (RL1 (RL0 V)) := by
  unfold ropsAll
  rw [after_append, after_append, after_append, after_append, after_append, after_append, after_append, after_append,
    after_append, after_append, after_append, after_append]

-- every weakly fair execution of @main terminates with each buffer at the three layers' fold over the launch contents
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = RL2 (RL1 (RL0 (StableHlo.launchContents m d))) (Proc.devRef .tc b) :=
  (θ_run defs _ _).mono (fun _ h d b => (h d b).trans (congrFun (after_ropsAll (StableHlo.launchContents m d)) _))
    (StableHlo.run_seq scopedRefs_eq scopedSems_eq defs main (fun _ => ropsAll) main_eq (fun _ => ropsAll_sub) m ρ
      (fun _ => ropsAll_fresh))

abbrev argRefs : List (Ref sig .tc) :=
  [main_arg0, main_arg1, main_arg2, main_arg3, main_arg4, main_arg5, main_arg6, main_arg7, main_arg8, main_arg9, main_arg10,
   main_arg11, main_arg12, main_arg13, main_arg14, main_arg15, main_arg16]

-- no operation of the line writes an argument's buffer
abbrev Keeps (ops : List (HloOp τ sig (Elt F))) : Prop :=
  ops.Forall fun op => ∀ r ∈ argRefs, Proc.devRef (τ := τ) .tc r ∉ op.writes

theorem writes_off {y : Ref sig .tc} (h : y ∉ argRefs) :
    ∀ r ∈ argRefs, Proc.devRef (τ := τ) .tc r ∉ ({Proc.devRef (τ := τ) .tc y} : Finset (DevRef τ sig)) :=
  fun r hr hm => h (Proc.devRef_injective _ (Finset.mem_singleton.1 hm) ▸ hr)

theorem kept_of_forall {ops : List (HloOp τ sig (Elt F))} (h : Keeps ops)
    (V : Valuation τ sig (Elt F)) {r : Ref sig .tc} (hr : r ∈ argRefs) :
    StableHlo.after ops V (Proc.devRef .tc r) = V (Proc.devRef .tc r) :=
  StableHlo.after_of_forall_not_mem ops V fun op hop => List.forall_iff_forall_mem.1 h op hop r hr

theorem rops0_keep : Keeps (rops0 (F := F)) := by
  repeat (refine ⟨writes_off (by decide), ?_⟩)
  exact writes_off (by decide)
theorem rops1_keep : Keeps (rops1 (F := F)) := by
  repeat (refine ⟨writes_off (by decide), ?_⟩)
  exact writes_off (by decide)
theorem rops2_keep : Keeps (rops2 (F := F)) := by
  repeat (refine ⟨writes_off (by decide), ?_⟩)
  exact writes_off (by decide)
theorem rops3_keep : Keeps (rops3 (F := F)) := by
  repeat (refine ⟨writes_off (by decide), ?_⟩)
  exact writes_off (by decide)
theorem rops4_keep : Keeps (rops4 (F := F)) := by
  repeat (refine ⟨writes_off (by decide), ?_⟩)
  exact writes_off (by decide)
theorem rops5_keep : Keeps (rops5 (F := F)) := by
  repeat (refine ⟨writes_off (by decide), ?_⟩)
  exact writes_off (by decide)
theorem rops6_keep : Keeps (rops6 (F := F)) := by
  repeat (refine ⟨writes_off (by decide), ?_⟩)
  exact writes_off (by decide)
theorem rops7_keep : Keeps (rops7 (F := F)) := by
  repeat (refine ⟨writes_off (by decide), ?_⟩)
  exact writes_off (by decide)
theorem rops8_keep : Keeps (rops8 (F := F)) := by
  repeat (refine ⟨writes_off (by decide), ?_⟩)
  exact writes_off (by decide)
theorem rops9_keep : Keeps (rops9 (F := F)) := by
  repeat (refine ⟨writes_off (by decide), ?_⟩)
  exact writes_off (by decide)
theorem rops10_keep : Keeps (rops10 (F := F)) := by
  repeat (refine ⟨writes_off (by decide), ?_⟩)
  exact writes_off (by decide)
theorem rops11_keep : Keeps (rops11 (F := F)) := by
  repeat (refine ⟨writes_off (by decide), ?_⟩)
  exact writes_off (by decide)
theorem rops12_keep : Keeps (rops12 (F := F)) := by
  repeat (refine ⟨writes_off (by decide), ?_⟩)
  exact writes_off (by decide)

variable (V : Valuation τ sig (Elt F)) {r : Ref sig .tc} (hr : r ∈ argRefs)
include hr

theorem keptR0 : RL0 V (Proc.devRef .tc r) = V (Proc.devRef .tc r) :=
  (kept_of_forall rops3_keep _ hr).trans ((kept_of_forall rops2_keep _ hr).trans
    ((kept_of_forall rops1_keep _ hr).trans (kept_of_forall rops0_keep _ hr)))

theorem keptR1 : RL1 V (Proc.devRef .tc r) = V (Proc.devRef .tc r) :=
  (kept_of_forall rops7_keep _ hr).trans ((kept_of_forall rops6_keep _ hr).trans
    ((kept_of_forall rops5_keep _ hr).trans (kept_of_forall rops4_keep _ hr)))

theorem keptR2 : RL2 V (Proc.devRef .tc r) = V (Proc.devRef .tc r) :=
  (kept_of_forall rops12_keep _ hr).trans ((kept_of_forall rops11_keep _ hr).trans ((kept_of_forall rops10_keep _ hr).trans
    ((kept_of_forall rops9_keep _ hr).trans (kept_of_forall rops8_keep _ hr))))

omit hr

theorem args_kept (m : (ℓ : Loc nD τ sig) → Buf (Elt F) ℓ) (d : Dev nD) {b : Ref sig .tc} (hb : b ∈ argRefs) :
    RL2 (RL1 (RL0 (StableHlo.launchContents m d))) (Proc.devRef .tc b) = m ((d.tc : Thread nD τ).loc b) :=
  (keptR2 _ hb).trans ((keptR1 _ hb).trans (keptR0 _ hb))

theorem frame_ri : @Cert.frame_ReferenceIdeal Cert.ReferenceIdeal.Gen.facts Cert.Pre_finite_inputs.Gen.facts := by
  unfold Cert.frame_ReferenceIdeal
  intro m g _
  refine (θ_run _ _ _).mono (fun r h c => ?_) (run (F := Ideal) m g)
  refine ⟨?_, ?_, ?_, ?_, ?_, ?_, ?_, ?_, ?_, ?_, ?_, ?_, ?_, ?_, ?_, ?_, ?_⟩ <;>
    exact (h c _).trans (args_kept m c (by decide))

end Cert.ReferenceIdeal.RefRun

end
-- ==== Proof.Kept.lean ====
import proofs.«418090_j57904749084726_1_alg».proof.Proof.KChain
import proofs.«418090_j57904749084726_1_alg».proof.Proof.RChain
import proofs.«418090_j57904749084726_1_alg».proof.Proof.RefRun
import Idealize.ShloMosaic.PureOps.Ideal

noncomputable section

namespace Cert.Kept

open Idealize.ShloMosaic Idealize.ShloMosaic.TcCoe Idealize.SL.Sem Idealize.ShloMosaic.StableHlo
open Cert.KernelIdeal.KChain Cert.ReferenceIdeal.RChain Cert.ReferenceIdeal.RefRun

macro "k0_carry" : tactic => `(tactic| (
  after_results
  rw [kreg1_of_ne _ _ _ (by decide)]
  after_results
  rw [kreg0_of_ne _ _ _ (by decide)]
  after_results))

macro "k1_carry" : tactic => `(tactic| (
  after_results
  rw [kreg3_of_ne _ _ _ (by decide)]
  after_results
  rw [kreg2_of_ne _ _ _ (by decide)]
  after_results))

abbrev VRs : Type := Valuation Cert.ReferenceIdeal.τ Cert.ReferenceIdeal.sig (Elt Ideal)

-- a buffer that no host operation of the layer writes and no region of the layer owns leaves the layer as it entered
abbrev Kept0 (r : Ref Cert.KernelIdeal.sig .tc) : Prop :=
  ∀ (VK : Vals Ideal) (c : Dev Cert.KernelIdeal.nD), KL0 VK c (Proc.devRef .tc r) = VK c (Proc.devRef .tc r)
abbrev Kept1 (r : Ref Cert.KernelIdeal.sig .tc) : Prop :=
  ∀ (VK : Vals Ideal) (c : Dev Cert.KernelIdeal.nD), KL1 VK c (Proc.devRef .tc r) = VK c (Proc.devRef .tc r)

theorem k0K7 : Kept0 Cert.KernelIdeal.main_arg7 := fun _ _ => by k0_carry
theorem k0K8 : Kept0 Cert.KernelIdeal.main_arg8 := fun _ _ => by k0_carry
theorem k0K9 : Kept0 Cert.KernelIdeal.main_arg9 := fun _ _ => by k0_carry
theorem k0K10 : Kept0 Cert.KernelIdeal.main_arg10 := fun _ _ => by k0_carry
theorem k0K11 : Kept0 Cert.KernelIdeal.main_arg11 := fun _ _ => by k0_carry
theorem k0K12 : Kept0 Cert.KernelIdeal.main_arg12 := fun _ _ => by k0_carry
theorem k0K13 : Kept0 Cert.KernelIdeal.main_arg13 := fun _ _ => by k0_carry
theorem k0K14 : Kept0 Cert.KernelIdeal.main_arg14 := fun _ _ => by k0_carry
theorem k0K15 : Kept0 Cert.KernelIdeal.main_arg15 := fun _ _ => by k0_carry
theorem k0K16 : Kept0 Cert.KernelIdeal.main_arg16 := fun _ _ => by k0_carry
theorem k1K12 : Kept1 Cert.KernelIdeal.main_arg12 := fun _ _ => by k1_carry
theorem k1K13 : Kept1 Cert.KernelIdeal.main_arg13 := fun _ _ => by k1_carry
theorem k1K14 : Kept1 Cert.KernelIdeal.main_arg14 := fun _ _ => by k1_carry
theorem k1K15 : Kept1 Cert.KernelIdeal.main_arg15 := fun _ _ => by k1_carry
theorem k1K16 : Kept1 Cert.KernelIdeal.main_arg16 := fun _ _ => by k1_carry

theorem src0K (VK : Vals Ideal) (c : Dev Cert.KernelIdeal.nD) :
    KL0 VK c (Proc.devRef .tc Cert.KernelIdeal.main_v1)
      = fun i => shapeCast Cert.KernelIdeal.S500000
          (extractStridedSlice Cert.KernelIdeal.S1x500000 ![0, 0]
            (VK c (Proc.devRef .tc Cert.KernelIdeal.main_arg1) : IVec Cert.KernelIdeal.S2x500000 32)
            Cert.KernelIdeal.Facts₀.slices_S2x500000_S1x500000_0_0)
          Cert.KernelIdeal.Facts₀.shapeCasts_S1x500000_S500000 i := by
  k0_carry
  rfl

theorem dst0K (VK : Vals Ideal) (c : Dev Cert.KernelIdeal.nD) :
    KL0 VK c (Proc.devRef .tc Cert.KernelIdeal.main_v3)
      = fun i => shapeCast Cert.KernelIdeal.S500000
          (extractStridedSlice Cert.KernelIdeal.S1x500000 ![1, 0]
            (VK c (Proc.devRef .tc Cert.KernelIdeal.main_arg1) : IVec Cert.KernelIdeal.S2x500000 32)
            Cert.KernelIdeal.Facts₀.slices_S2x500000_S1x500000_1_0)
          Cert.KernelIdeal.Facts₀.shapeCasts_S1x500000_S500000 i := by
  k0_carry
  rfl

theorem src0R (VR : VRs) :
    RL0 VR (Proc.devRef .tc Cert.ReferenceIdeal.main_v1)
      = fun i => shapeCast Cert.ReferenceIdeal.S500000
          (extractStridedSlice Cert.ReferenceIdeal.S1x500000 ![0, 0]
            (VR (Proc.devRef .tc Cert.ReferenceIdeal.main_arg1) : IVec Cert.ReferenceIdeal.S2x500000 32)
            Cert.ReferenceIdeal.Facts₀.slices_S2x500000_S1x500000_0_0)
          Cert.ReferenceIdeal.Facts₀.shapeCasts_S1x500000_S500000 i := by
  after_results
  rfl

theorem dst0R (VR : VRs) :
    RL0 VR (Proc.devRef .tc Cert.ReferenceIdeal.main_v3)
      = fun i => shapeCast Cert.ReferenceIdeal.S500000
          (extractStridedSlice Cert.ReferenceIdeal.S1x500000 ![1, 0]
            (VR (Proc.devRef .tc Cert.ReferenceIdeal.main_arg1) : IVec Cert.ReferenceIdeal.S2x500000 32)
            Cert.ReferenceIdeal.Facts₀.slices_S2x500000_S1x500000_1_0)
          Cert.ReferenceIdeal.Facts₀.shapeCasts_S1x500000_S500000 i := by
  after_results
  rfl

theorem src0 (VK : Vals Ideal) (VR : VRs) (c : Dev Cert.KernelIdeal.nD)
    (h1 : VK c (Proc.devRef .tc Cert.KernelIdeal.main_arg1) = VR (Proc.devRef .tc Cert.ReferenceIdeal.main_arg1)) :
    KL0 VK c (Proc.devRef .tc Cert.KernelIdeal.main_v1) = RL0 VR (Proc.devRef .tc Cert.ReferenceIdeal.main_v1) := by
  rw [src0K, src0R, h1]

theorem dst0 (VK : Vals Ideal) (VR : VRs) (c : Dev Cert.KernelIdeal.nD)
    (h1 : VK c (Proc.devRef .tc Cert.KernelIdeal.main_arg1) = VR (Proc.devRef .tc Cert.ReferenceIdeal.main_arg1)) :
    KL0 VK c (Proc.devRef .tc Cert.KernelIdeal.main_v3) = RL0 VR (Proc.devRef .tc Cert.ReferenceIdeal.main_v3) := by
  rw [dst0K, dst0R, h1]

theorem src1K : Kept1 Cert.KernelIdeal.main_v1 := fun _ _ => by k1_carry

theorem dst1K : Kept1 Cert.KernelIdeal.main_v3 := fun _ _ => by k1_carry

theorem src1R (VR : VRs) :
    RL1 VR (Proc.devRef .tc Cert.ReferenceIdeal.main_v1) = VR (Proc.devRef .tc Cert.ReferenceIdeal.main_v1) := by
  after_results

theorem dst1R (VR : VRs) :
    RL1 VR (Proc.devRef .tc Cert.ReferenceIdeal.main_v3) = VR (Proc.devRef .tc Cert.ReferenceIdeal.main_v3) := by
  after_results

theorem src1 (VK : Vals Ideal) (VR : VRs) (c : Dev Cert.KernelIdeal.nD)
    (hs : VK c (Proc.devRef .tc Cert.KernelIdeal.main_v1) = VR (Proc.devRef .tc Cert.ReferenceIdeal.main_v1)) :
    KL1 VK c (Proc.devRef .tc Cert.KernelIdeal.main_v1) = RL1 VR (Proc.devRef .tc Cert.ReferenceIdeal.main_v1) :=
  (src1K VK c).trans (hs.trans (src1R VR).symm)

theorem dst1 (VK : Vals Ideal) (VR : VRs) (c : Dev Cert.KernelIdeal.nD)
    (hs : VK c (Proc.devRef .tc Cert.KernelIdeal.main_v3) = VR (Proc.devRef .tc Cert.ReferenceIdeal.main_v3)) :
    KL1 VK c (Proc.devRef .tc Cert.KernelIdeal.main_v3) = RL1 VR (Proc.devRef .tc Cert.ReferenceIdeal.main_v3) :=
  (dst1K VK c).trans (hs.trans (dst1R VR).symm)

end Cert.Kept

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev A1 (a : Nat) : Type := FVec Ideal (⟨1, ![a]⟩ : Shape) .f32
abbrev A2 (a b : Nat) : Type := FVec Ideal (⟨2, ![a, b]⟩ : Shape) .f32
abbrev A3 (a b c : Nat) : Type := FVec Ideal (⟨3, ![a, b, c]⟩ : Shape) .f32

def fl {H C D : Nat} (hD : H * C = D) (h : Fin H) (c : Fin C) : Fin D :=
  ⟨h.val * C + c.val, by
    have h1 := h.isLt; have h2 := c.isLt
    calc h.val * C + c.val < h.val * C + C := by omega
      _ = (h.val + 1) * C := by ring
      _ ≤ H * C := Nat.mul_le_mul_right C h1
      _ = D := hD⟩

@[simp] theorem fl_val {H C D : Nat} (hD : H * C = D) (h : Fin H) (c : Fin C) : (fl hD h c).val = h.val * C + c.val := rfl

theorem fl_surj {H C D : Nat} (hD : H * C = D) (hC : 0 < C) (j : Fin D) : ∃ (h : Fin H) (c : Fin C), j = fl hD h c := by
  have hj : j.val < H * C := hD ▸ j.isLt
  refine ⟨⟨j.val / C, (Nat.div_lt_iff_lt_mul hC).2 hj⟩, ⟨j.val % C, Nat.mod_lt _ hC⟩, Fin.ext ?_⟩
  simp only [fl_val]
  exact (Nat.div_add_mod' j.val C).symm

def c64 : EReal := Ideal.ofBits .f32 0x42800000#32
def c40 : EReal := Ideal.ofBits .f32 0x42200000#32
def epsLn : EReal := Ideal.ofBits .f32 0x3727C5AC#32
def epsCos : EReal := Ideal.ofBits .f32 0x322BCC77#32

def dotRow {N K D : Nat} (X : A2 N K) (W : A2 K D) (n : Fin N) (j : Fin D) : EReal :=
  ∑ k : Fin K, X (ix2 n k) * W (ix2 k j)

def lnRow {C : Nat} (cnt eps : EReal) (xl g b : Fin C → EReal) (c : Fin C) : EReal :=
  (xl c - Ideal.div (∑ c', xl c') cnt)
      * Ideal.rsqrt (Ideal.div (∑ c', (xl c' - Ideal.div (∑ c'', xl c'') cnt) * (xl c' - Ideal.div (∑ c'', xl c'') cnt)) cnt + eps)
      * g c + b c

def xlln {N K H C D : Nat} (hD : H * C = D) (cnt eps : EReal) (X : A2 N K) (W : A2 K D) (g b : Fin C → EReal)
    (n : Fin N) (h : Fin H) (c : Fin C) : EReal :=
  lnRow cnt eps (fun c' => dotRow X W n (fl hD h c')) g b c

def biasLin {N K B : Nat} (X : A2 N K) (Bw : A2 K B) (bb : Fin B → EReal) (n : Fin N) (j : Fin B) : EReal :=
  dotRow X Bw n j + bb j

def alpha {M K : Nat} (eps : EReal) (A Cc : A2 M K) (m : Fin M) : EReal :=
  Ideal.div (∑ k : Fin K, A (ix2 m k) * Cc (ix2 m k))
    (max (Ideal.sqrt (∑ k : Fin K, A (ix2 m k) * A (ix2 m k)) * Ideal.sqrt (∑ k : Fin K, Cc (ix2 m k) * Cc (ix2 m k))) eps)

theorem alpha_congr {M M' K : Nat} (eps : EReal) (A Cc : A2 M K) (A' Cc' : A2 M' K) (m : Fin M) (m' : Fin M')
    (hA : ∀ k, A (ix2 m k) = A' (ix2 m' k)) (hC : ∀ k, Cc (ix2 m k) = Cc' (ix2 m' k)) :
    alpha eps A Cc m = alpha eps A' Cc' m' := by
  unfold alpha
  simp only [hA, hC]

theorem xlln_congr {N K H C D : Nat} (hD : H * C = D) (cnt eps : EReal) {X X' : A2 N K} {W W' : A2 K D}
    {g g' b b' : Fin C → EReal} (hX : X = X') (hW : W = W') (hg : ∀ c', g c' = g' c') (hb : ∀ c', b c' = b' c')
    (n : Fin N) (h : Fin H) (c : Fin C) :
    xlln hD cnt eps X W g b n h c = xlln hD cnt eps X' W' g' b' n h c := by
  rw [hX, hW, funext hg, funext hb]

theorem biasLin_congr {N K B : Nat} {X X' : A2 N K} {Bw Bw' : A2 K B} {bb bb' : Fin B → EReal}
    (hX : X = X') (hW : Bw = Bw') (hb : ∀ j', bb j' = bb' j') (n : Fin N) (j : Fin B) :
    biasLin X Bw bb n j = biasLin X' Bw' bb' n j := by
  rw [hX, hW, funext hb]

def elu (x : EReal) : EReal := if 0 < x then x else Ideal.exp x - 1

end Cert.Spec

end
-- ==== Proof.DenseLib.lean ====
import proofs.«418090_j57904749084726_1_alg».proof.Proof.Gen.KernelIdeal.Frame
import proofs.«418090_j57904749084726_1_alg».proof.Proof.Spec
import Idealize.ShloMosaic.Lib.Pipeline.Value
import Idealize.ShloMosaic.Lib.ValueLayout
import Idealize.ShloMosaic.PureOps.Ideal.Laws

noncomputable section

namespace Cert.KernelIdeal.DenseLib

open Idealize.ShloMosaic Idealize.ShloMosaic.TcCoe Idealize.SL.Sem Idealize.ShloMosaic.ValueIdx

theorem rsqrt_at {s : Shape} {φ : FTy} (a : FVec Ideal s φ) (i : s.Idx) : rsqrt a i = Ideal.rsqrt (a i) := rfl

-- A column spread over `b` columns reads the column at its row.
theorem bc_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

-- The sum along each row, kept as a column, is the finite sum of the row's entries.
theorem rowSum {a b : ℕ} (v : FVec Ideal ⟨2, ![a, b]⟩ .f32) (h : (⟨2, ![a, b]⟩ : Shape).Reduces [1] (⟨1, ![a]⟩ : Shape))
    (hs : (⟨1, ![a]⟩ : Shape).ShapeCasts ⟨2, ![a, 1]⟩) (hφ : FKind.Formats .f32) (hacc : (0x00000000#32 : BitVec 32) = 0x00000000#32)
    (p : Fin a) (u : Fin 1) :
    shapeCast ⟨2, ![a, 1]⟩ (multiReduction (F := Ideal) .add [1] ⟨1, ![a]⟩ v 0x00000000#32 h hφ hacc) hs (ix2 p u) = ∑ c : Fin b, v (ix2 p c) := by
  refine (shapeCast_apply _ hs (ix2 p u) (ix1 p) ?_).trans ((Ideal.multiReduction_add_single v 0x00000000#32 h hφ hacc (ix1 p)).trans ?_)
  · rw [Shape.rowMajor_val_two, Shape.rowMajor_val_one]
    show p.val = p.val * 1 + u.val
    omega
  · show ∑ k : Fin b, v (h.lift (ix1 p) k) = ∑ c : Fin b, v (ix2 p c)
    exact Finset.sum_congr rfl fun k _ => congrArg v (funext fun c => Fin.ext (by fin_cases c <;> rfl))

-- A product into the zero array, at an index, is the sum over the contracted coordinate.
theorem mm_at {m k n : ℕ} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (⟨[1], [0], [0], [1], [], [], w⟩ : DotDims _ _ _) none A B (constant (F := Ideal) ⟨2, ![m, n]⟩ .f32 0x00000000#32) (ix2 a b)
      = ∑ c : Fin k, A (ix2 a c) * B (ix2 c b) := by
  show FloatOps.matmul _ none A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  congr 2 <;> funext ax <;> apply Fin.ext <;> fin_cases ax <;> simp [DotDims.lhsIdx, DotDims.rhsIdx] <;> first | rfl | exact c2

-- The row normalisation as the body spells it: mean, centred row, variance, inverse root, gain and shift.
def lnVec {a C : ℕ} (x : FVec Ideal ⟨2, ![a, C]⟩ .f32) (g b : FVec Ideal ⟨2, ![1, C]⟩ .f32) (k e : Ideal .f32)
    (hr : (⟨2, ![a, C]⟩ : Shape).Reduces [1] (⟨1, ![a]⟩ : Shape)) (hs : (⟨1, ![a]⟩ : Shape).ShapeCasts ⟨2, ![a, 1]⟩)
    (hc : (⟨2, ![a, 1]⟩ : Shape).Broadcasts ⟨2, ![a, C]⟩) (hw : (⟨2, ![1, C]⟩ : Shape).Broadcasts ⟨2, ![a, C]⟩) : FVec Ideal ⟨2, ![a, C]⟩ .f32 :=
  have m := divf (shapeCast ⟨2, ![a, 1]⟩ (multiReduction .add [1] ⟨1, ![a]⟩ x 0x00000000#32 hr (.inl rfl) rfl) hs) (broadcast ⟨2, ![a, 1]⟩ k)
  have d := subf x (broadcastTo ⟨2, ![a, C]⟩ m hc)
  have v := divf (shapeCast ⟨2, ![a, 1]⟩ (multiReduction .add [1] ⟨1, ![a]⟩ (mulf d d) 0x00000000#32 hr (.inl rfl) rfl) hs) (broadcast ⟨2, ![a, 1]⟩ k)
  addf (mulf (mulf d (broadcastTo ⟨2, ![a, C]⟩ (rsqrt (addf v (broadcast ⟨2, ![a, 1]⟩ e))) hc)) (broadcastTo ⟨2, ![a, C]⟩ g hw)) (broadcastTo ⟨2, ![a, C]⟩ b hw)

theorem lnVec_apply {a C : ℕ} (x : FVec Ideal ⟨2, ![a, C]⟩ .f32) (g b : FVec Ideal ⟨2, ![1, C]⟩ .f32) (k e : Ideal .f32)
    (hr : (⟨2, ![a, C]⟩ : Shape).Reduces [1] (⟨1, ![a]⟩ : Shape)) (hs : (⟨1, ![a]⟩ : Shape).ShapeCasts ⟨2, ![a, 1]⟩)
    (hc : (⟨2, ![a, 1]⟩ : Shape).Broadcasts ⟨2, ![a, C]⟩) (hw : (⟨2, ![1, C]⟩ : Shape).Broadcasts ⟨2, ![a, C]⟩) (r : Fin a) (q : Fin C) :
    lnVec x g b k e hr hs hc hw (ix2 r q)
      = Spec.lnRow k e (fun c' => x (ix2 r c')) (fun c' => g (ix2 0 c')) (fun c' => b (ix2 0 c')) q := by
  unfold lnVec Spec.lnRow
  simp only [addf_apply, mulf_apply, subf_apply, divf_apply, rsqrt_at, bc_col, broadcastTo_1b_ab_apply, broadcast_apply]
  rw [rowSum, rowSum]
  simp only [mulf_apply, subf_apply, divf_apply, bc_col, broadcast_apply]
  rw [rowSum]

-- The normalised projection of four heads of 64 channels, as one function of a two-coordinate index.
def xllnArr {N K : ℕ} (X : Spec.A2 N K) (W : Spec.A2 K 256) (g b : Spec.A2 1 64) : (⟨2, ![N, 256]⟩ : Shape).Idx → EReal := fun i =>
  Spec.xlln (by norm_num : 4 * 64 = 256) Spec.c64 Spec.epsLn X W (fun c' => g (ix2 0 c')) (fun c' => b (ix2 0 c'))
    (i 0) ⟨(i 1).val / 64, by have := idx2_lt1 i; omega⟩ ⟨(i 1).val % 64, Nat.mod_lt _ (by norm_num)⟩

-- The linear bias as one function of a two-coordinate index.
def biasArr {N K B : ℕ} (X : Spec.A2 N K) (Bw : Spec.A2 K B) (bb : Spec.A2 1 B) : (⟨2, ![N, B]⟩ : Shape).Idx → EReal := fun i =>
  Spec.biasLin X Bw (fun j' => bb (ix2 0 j')) (i 0) (i 1)

-- Both depend on the features through the node's own row only.
theorem xllnArr_congr {N N' K : ℕ} (X : Spec.A2 N K) (X' : Spec.A2 N' K) (W : Spec.A2 K 256) (g b : Spec.A2 1 64)
    (y : (⟨2, ![N, 256]⟩ : Shape).Idx) (i : (⟨2, ![N', 256]⟩ : Shape).Idx)
    (hX : ∀ k, X (ix2 (y 0) k) = X' (ix2 (i 0) k)) (h1 : (y 1).val = (i 1).val) : xllnArr X W g b y = xllnArr X' W g b i := by
  unfold xllnArr Spec.xlln Spec.dotRow
  simp only [hX, h1]

theorem biasArr_congr {N N' K B : ℕ} (X : Spec.A2 N K) (X' : Spec.A2 N' K) (Bw : Spec.A2 K B) (bb : Spec.A2 1 B)
    (y : (⟨2, ![N, B]⟩ : Shape).Idx) (i : (⟨2, ![N', B]⟩ : Shape).Idx)
    (hX : ∀ k, X (ix2 (y 0) k) = X' (ix2 (i 0) k)) (h1 : y 1 = i 1) : biasArr X Bw bb y = biasArr X' Bw bb i := by
  unfold biasArr Spec.biasLin Spec.dotRow
  simp only [hX, h1]

theorem xllnArr_fl {N K : ℕ} (X : Spec.A2 N K) (W : Spec.A2 K 256) (g b : Spec.A2 1 64) (n : Fin N) (h : Fin 4) (cc : Fin 64) :
    xllnArr X W g b (ix2 n (Spec.fl (by norm_num : 4 * 64 = 256) h cc))
      = Spec.xlln (by norm_num : 4 * 64 = 256) Spec.c64 Spec.epsLn X W (fun c' => g (ix2 0 c')) (fun c' => b (ix2 0 c')) n h cc := by
  have hh := h.isLt
  have hc := cc.isLt
  unfold xllnArr
  congr 1 <;> apply Fin.ext
  · show (h.val * 64 + cc.val) / 64 = h.val
    omega
  · show (h.val * 64 + cc.val) % 64 = cc.val
    omega

-- A head's normalised 64-column slice of the projected block is the block's normalised projection under the slab's rectangle.
theorem piece_at {K : ℕ} (x0 : Spec.A2 2000 K) (x1 : Spec.A2 K 256) (g b : Spec.A2 1 64) (M : Spec.A2 2000 256)
    (hM : ∀ r j, M (ix2 r j) = ∑ k : Fin K, x0 (ix2 r k) * x1 (ix2 k j))
    (o kk : ℕ) (hk : o = 64 * kk) (hsl : (⟨2, ![2000, 256]⟩ : Shape).Slices ![0, o] ⟨2, ![2000, 64]⟩)
    (inb : ∀ a, (![0, o] : Fin 2 → Nat) a + (⟨2, ![2000, 64]⟩ : Shape).size a ≤ (⟨2, ![2000, 256]⟩ : Shape).size a)
    (hr : (⟨2, ![2000, 64]⟩ : Shape).Reduces [1] (⟨1, ![2000]⟩ : Shape)) (hs : (⟨1, ![2000]⟩ : Shape).ShapeCasts ⟨2, ![2000, 1]⟩)
    (hc : (⟨2, ![2000, 1]⟩ : Shape).Broadcasts ⟨2, ![2000, 64]⟩) (hw : (⟨2, ![1, 64]⟩ : Shape).Broadcasts ⟨2, ![2000, 64]⟩)
    (x : (⟨2, ![2000, 64]⟩ : Shape).Idx) :
    lnVec (extractStridedSlice ⟨2, ![2000, 64]⟩ ![0, o] M hsl) g b Spec.c64 Spec.epsLn hr hs hc hw x = xllnArr x0 x1 g b ((Rect.unit (s := ⟨2, ![2000, 256]⟩) ![0, o] (⟨2, ![2000, 64]⟩ : Shape).size inb).emb x) := by
  obtain ⟨r, q, rfl⟩ : ∃ (r : Fin 2000) (q : Fin 64), x = ix2 r q := ⟨x 0, x 1, eq_ix2 x⟩
  have hq := q.isLt
  have hb := hsl.2 1
  rw [lnVec_apply]
  simp only [slice2_axis1_eq, hM]
  unfold xllnArr Spec.xlln Spec.dotRow
  have e0 : (Rect.unit (s := ⟨2, ![2000, 256]⟩) ![0, o] (⟨2, ![2000, 64]⟩ : Shape).size inb).emb (ix2 r q) 0 = r :=
    Fin.ext (show 0 + 1 * r.val = r.val by omega)
  have e1 : ((Rect.unit (s := ⟨2, ![2000, 256]⟩) ![0, o] (⟨2, ![2000, 64]⟩ : Shape).size inb).emb (ix2 r q) 1).val = o + q.val :=
    show o + 1 * q.val = o + q.val by omega
  rw [e0]
  congr 1
  · funext c'
    have hc' := c'.isLt
    refine Finset.sum_congr rfl fun k _ => congrArg (x0 (ix2 r k) * x1 ·) (congrArg (ix2 k) (Fin.ext ?_))
    show o + c'.val = (_ : ℕ) / 64 * 64 + c'.val
    rw [e1]; omega
  · apply Fin.ext
    show q.val = (_ : ℕ) % 64
    rw [e1]; omega

end Cert.KernelIdeal.DenseLib

end
-- ==== Proof.DenseK0.lean ====
import proofs.«418090_j57904749084726_1_alg».proof.Proof.Gen.KernelIdeal.Frame
import proofs.«418090_j57904749084726_1_alg».proof.Proof.Spec
import proofs.«418090_j57904749084726_1_alg».proof.Proof.DenseLib
import Idealize.ShloMosaic.Lib.Pipeline.Value
import Idealize.ShloMosaic.Lib.ValueLayout
import Idealize.ShloMosaic.PureOps.Ideal.Laws

noncomputable section

namespace Cert.KernelIdeal.DenseK0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.DenseLib

theorem pay4_at (v0 : Vec Ideal S2000x128 .f32) (v2 : Vec Ideal S128x256 .f32) (r : Fin 2000) (j : Fin 256) :
    k0_pay4 v0 v2 (ix2 r j) = ∑ k : Fin 128, v0 (ix2 r k) * v2 (ix2 k j) :=
  (mm_at dot_S2000x128_S128x256_S2000x256_1_0_0_1_n_n_wf _ _ r j).trans rfl

theorem pay5_eq (v5 : Vec Ideal S1x64 .f32) : k0_pay5 v5 = v5 := shapeCast_self _ _
theorem pay6_eq (v7 : Vec Ideal S1x64 .f32) : k0_pay6 v7 = v7 := shapeCast_self _ _

theorem hz : (![0, 0] : Fin 2 → Nat) = fun _ => 0 := funext fun a => by fin_cases a <;> rfl

-- Each of the four stored slabs is one head's normalised slice, so together they are the block's normalised projection.
theorem out6_eq (x0 : Vec Ideal S2000x128 .f32) (x1 : Vec Ideal S128x256 .f32) (x2 x3 : Vec Ideal S1x64 .f32)
    (x4 : Vec Ideal S128x256 .f32) (x5 : Vec Ideal S1x256 .f32) (y : S2000x256.Idx) :
    out0_6 x0 x1 x2 x3 x4 x5 y = xllnArr x0 x1 x2 x3 y := by
  unfold out0_6
  simp only [View.ld_unit_zero (S := S2000x128) hz, View.ld_unit_zero (S := S128x256) hz, View.ld_unit_zero (S := S1x64) hz]
  refine (View.canon_apply_of_pieces (Val := Elt Ideal) (S := S2000x256) (e := .f32) (xllnArr x0 x1 (k0_pay5 x2) (k0_pay6 x3)) _ ?_ y
    (cover0_6 _ _ _ _ y)).trans (by rw [pay5_eq, pay6_eq])
  intro p hp x
  simp only [List.mem_cons, List.not_mem_nil, or_false] at hp
  rcases hp with rfl | rfl | rfl | rfl
  · exact piece_at x0 x1 _ _ _ (pay4_at x0 x1) 192 3 rfl slices_S2000x256_o0_192_S2000x64 inb_S2000x256_S2000x64_0_192 _ _ _ _ x
  · exact piece_at x0 x1 _ _ _ (pay4_at x0 x1) 128 2 rfl slices_S2000x256_o0_128_S2000x64 inb_S2000x256_S2000x64_0_128 _ _ _ _ x
  · exact piece_at x0 x1 _ _ _ (pay4_at x0 x1) 64 1 rfl slices_S2000x256_o0_64_S2000x64 inb_S2000x256_S2000x64_0_64 _ _ _ _ x
  · exact piece_at x0 x1 _ _ _ (pay4_at x0 x1) 0 0 rfl slices_S2000x256_o0_0_S2000x64 inb_S2000x256_S2000x64_0_0 _ _ _ _ x

theorem out7_eq (x0 : Vec Ideal S2000x128 .f32) (x1 : Vec Ideal S128x256 .f32) (x2 x3 : Vec Ideal S1x64 .f32)
    (x4 : Vec Ideal S128x256 .f32) (x5 : Vec Ideal S1x256 .f32) (y : S2000x256.Idx) :
    out0_7 x0 x1 x2 x3 x4 x5 y = biasArr x0 x4 x5 y := by
  unfold out0_7
  rw [View.canon_unit_zero hz]
  simp only [View.ld_unit_zero (S := S2000x128) hz, View.ld_unit_zero (S := S128x256) hz, View.ld_unit_zero (S := S1x256) hz]
  obtain ⟨r, j, rfl⟩ : ∃ (r : Fin 2000) (j : Fin 256), y = ix2 r j := ⟨y 0, y 1, eq_ix2 y⟩
  unfold k0_pay2 k0_pay3
  simp only [addf_apply, shapeCast_self, broadcastTo_1b_ab_apply]
  exact congrArg (· + x5 (ix2 0 j)) ((mm_at dot_S2000x128_S128x256_S2000x256_1_0_0_1_n_n_wf _ _ r j).trans rfl)

section Arrays

variable (V : (c : Dev nD) → (b : Ref sig .tc) → Buf (Elt Ideal) ((c : Thread nD τ).loc b)) (c : Dev nD)

theorem idx_rows : ∀ t : Fin cfg0.N, (win0_0.index t (0 : Fin 2) = t.val ∧ win0_0.index t (1 : Fin 2) = 0)
    ∧ (win0_6.index t (0 : Fin 2) = t.val ∧ win0_6.index t (1 : Fin 2) = 0)
    ∧ win0_7.index t (0 : Fin 2) = t.val ∧ win0_7.index t (1 : Fin 2) = 0 :=
  (by decide +kernel : ∀ t : Fin grid0.N, _)

theorem idx_fixed : ∀ (t : Fin cfg0.N) (a : Fin 2), win0_1.index t a = 0 ∧ win0_2.index t a = 0 ∧ win0_3.index t a = 0
    ∧ win0_4.index t a = 0 ∧ win0_5.index t a = 0 :=
  (by decide +kernel : ∀ t : Fin grid0.N, _)

-- The feature block at point `t` is rows `2000 t` to `2000 t + 1999` of the features.
theorem iblk_X (t : Fin cfg0.N) (r : Fin 2000) (k : Fin 128) (n : Fin 50000) (hn : n.val = 2000 * t.val + r.val) :
    (iblk0 V c 0 t : Vec Ideal S2000x128 .f32) (ix2 r k) = (V c main_arg0 : S50000x128.Idx → EReal) (ix2 n k) := by
  obtain ⟨⟨e0, e1⟩, -⟩ := idx_rows t
  unfold iblk0
  show V c main_arg0 (((cfg0.win 0).blk t).view.emb (ix2 r k)) = V c main_arg0 (ix2 n k)
  refine congrArg _ (funext fun a => Fin.ext ?_)
  match a with
  | ⟨0, _⟩ => show win0_0.index t (0 : Fin 2) * 2000 + 1 * r.val = n.val; rw [e0, hn]; omega
  | ⟨1, _⟩ => show win0_0.index t (1 : Fin 2) * 128 + 1 * k.val = k.val; rw [e1]; omega

theorem iblk_W (t : Fin cfg0.N) : (iblk0 V c 1 t : Vec Ideal S128x256 .f32) = (V c main_arg2 : S128x256.Idx → EReal) :=
  funext fun y => congrArg (V c main_arg2) (funext fun a => Fin.ext (Pipeline.Window.rect_emb_val_of_index_zero win0_1 t a (idx_fixed t a).1 y))
theorem iblk_g (t : Fin cfg0.N) : (iblk0 V c 2 t : Vec Ideal S1x64 .f32) = (V c main_v23 : S1x64.Idx → EReal) :=
  funext fun y => congrArg (V c main_v23) (funext fun a => Fin.ext (Pipeline.Window.rect_emb_val_of_index_zero win0_2 t a (idx_fixed t a).2.1 y))
theorem iblk_b (t : Fin cfg0.N) : (iblk0 V c 3 t : Vec Ideal S1x64 .f32) = (V c main_v24 : S1x64.Idx → EReal) :=
  funext fun y => congrArg (V c main_v24) (funext fun a => Fin.ext (Pipeline.Window.rect_emb_val_of_index_zero win0_3 t a (idx_fixed t a).2.2.1 y))
theorem iblk_Bw (t : Fin cfg0.N) : (iblk0 V c 4 t : Vec Ideal S128x256 .f32) = (V c main_arg5 : S128x256.Idx → EReal) :=
  funext fun y => congrArg (V c main_arg5) (funext fun a => Fin.ext (Pipeline.Window.rect_emb_val_of_index_zero win0_4 t a (idx_fixed t a).2.2.2.1 y))
theorem iblk_bb (t : Fin cfg0.N) : (iblk0 V c 5 t : Vec Ideal S1x256 .f32) = (V c main_v25 : S1x256.Idx → EReal) :=
  funext fun y => congrArg (V c main_v25) (funext fun a => Fin.ext (Pipeline.Window.rect_emb_val_of_index_zero win0_5 t a (idx_fixed t a).2.2.2.2 y))

def G6 : S50000x256.Idx → EReal := xllnArr (V c main_arg0) (V c main_arg2) (V c main_v23) (V c main_v24)
def G7 : S50000x256.Idx → EReal := biasArr (V c main_arg0) (V c main_arg5) (V c main_v25)

theorem flushed6_eq (t : Fin cfg0.N) :
    (dat0 V c).flushed 6 t = ((cfg0.win 6).blk t).view.read (Elt Ideal) (G6 V c) := by
  show (cfg0.win 6).cut (grid0.coords t) ((dat0 V c).after 6 t) = _
  rw [after0_6]
  obtain ⟨-, ⟨e0, e1⟩, -⟩ := idx_rows t
  funext j
  refine (out6_eq _ _ _ _ _ _ _).trans ?_
  rw [iblk_W V c t, iblk_g V c t, iblk_b V c t]
  refine xllnArr_congr _ _ _ _ _ _ _ (fun k => iblk_X V c t _ k _ ?_) ?_
  · show win0_6.index t (0 : Fin 2) * 2000 + 1 * (j 0).val = 2000 * t.val + (j 0).val
    rw [e0]; omega
  · show (j 1).val = win0_6.index t (1 : Fin 2) * 256 + 1 * (j 1).val
    rw [e1]; omega

theorem flushed7_eq (t : Fin cfg0.N) :
    (dat0 V c).flushed 7 t = ((cfg0.win 7).blk t).view.read (Elt Ideal) (G7 V c) := by
  show (cfg0.win 7).cut (grid0.coords t) ((dat0 V c).after 7 t) = _
  rw [after0_7]
  obtain ⟨-, -, e0, e1⟩ := idx_rows t
  funext j
  refine (out7_eq _ _ _ _ _ _ _).trans ?_
  rw [iblk_Bw V c t, iblk_bb V c t]
  refine biasArr_congr _ _ _ _ _ _ (fun k => iblk_X V c t _ k _ ?_) (Fin.ext ?_)
  · show win0_7.index t (0 : Fin 2) * 2000 + 1 * (j 0).val = 2000 * t.val + (j 0).val
    rw [e0]; omega
  · show (j 1).val = win0_7.index t (1 : Fin 2) * 256 + 1 * (j 1).val
    rw [e1]; omega

-- Row `n` lies in the block of point `n / 2000`, so the 25 row blocks cover each output array.
theorem cover6 (i : S50000x256.Idx) : ∃ t : Fin cfg0.N, (cfg0.win 6).flush t = true ∧ i ∈ ((cfg0.win 6).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, ⟨e0, e1⟩, -⟩ := idx_rows t
  refine ⟨t, flush0_6 t, ?_⟩
  show i ∈ ((View.whole main_v26_0).slice (win0_6.rect t)).set
  rw [View.set_slice_whole, Rect.mem_set_unit]
  intro a
  match a with
  | ⟨0, _⟩ => show win0_6.index t (0 : Fin 2) * 2000 ≤ (i 0).val ∧ (i 0).val < win0_6.index t (0 : Fin 2) * 2000 + 2000; rw [e0, ht]; omega
  | ⟨1, _⟩ => show win0_6.index t (1 : Fin 2) * 256 ≤ (i 1).val ∧ (i 1).val < win0_6.index t (1 : Fin 2) * 256 + 256; rw [e1]; omega

theorem cover7 (i : S50000x256.Idx) : ∃ t : Fin cfg0.N, (cfg0.win 7).flush t = true ∧ i ∈ ((cfg0.win 7).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, e0, e1⟩ := idx_rows t
  refine ⟨t, flush0_7 t, ?_⟩
  show i ∈ ((View.whole main_v26_1).slice (win0_7.rect t)).set
  rw [View.set_slice_whole, Rect.mem_set_unit]
  intro a
  match a with
  | ⟨0, _⟩ => show win0_7.index t (0 : Fin 2) * 2000 ≤ (i 0).val ∧ (i 0).val < win0_7.index t (0 : Fin 2) * 2000 + 2000; rw [e0, ht]; omega
  | ⟨1, _⟩ => show win0_7.index t (1 : Fin 2) * 256 ≤ (i 1).val ∧ (i 1).val < win0_7.index t (1 : Fin 2) * 256 + 256; rw [e1]; omega

theorem xlln_at (n : Fin 50000) (h : Fin 4) (cc : Fin 64) :
    (Gen.dat0 (F := Ideal) V c).arrAt 6 cfg0.N (ValueIdx.ix2 n (Spec.fl (by norm_num : 4 * 64 = 256) h cc))
      = Spec.xlln (by norm_num : 4 * 64 = 256) Spec.c64 Spec.epsLn (V c main_arg0) (V c main_arg2)
          (fun c' => V c main_v23 (ValueIdx.ix2 0 c')) (fun c' => V c main_v24 (ValueIdx.ix2 0 c')) n h cc :=
  (congrFun ((dat0 V c).arrAt_eq_of_cover 6 (G6 V c) (fun t _ => flushed6_eq V c t) cover6) _).trans (xllnArr_fl _ _ _ _ n h cc)

theorem bias_at (n : Fin 50000) (j : Fin 256) :
    (Gen.dat0 (F := Ideal) V c).arrAt 7 cfg0.N (ValueIdx.ix2 n j)
      = Spec.biasLin (V c main_arg0) (V c main_arg5) (fun j' => V c main_v25 (ValueIdx.ix2 0 j')) n j :=
  congrFun ((dat0 V c).arrAt_eq_of_cover 7 (G7 V c) (fun t _ => flushed7_eq V c t) cover7) _

end Arrays

end Cert.KernelIdeal.DenseK0

end
-- ==== Proof.DenseR.lean ====
import proofs.«418090_j57904749084726_1_alg».proof.ReferenceIdeal
import proofs.«418090_j57904749084726_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.DenseR

open Idealize.ShloMosaic Idealize.ShloMosaic.ValueIdx
open Cert.ReferenceIdeal.Facts₀ Cert.ReferenceIdeal.Facts

section Generic
variable {N K D H C : Nat}

abbrev plainDims (wf : DotDims.WF (⟨2, ![N, K]⟩ : Shape) ⟨2, ![K, D]⟩ ⟨2, ![N, D]⟩ [1] [0] [0] [1] [] []) :
    DotDims (⟨2, ![N, K]⟩ : Shape) ⟨2, ![K, D]⟩ ⟨2, ![N, D]⟩ :=
  ⟨[1], [0], [0], [1], [], [], wf⟩

theorem lhs_plain_0 (wf : DotDims.WF (⟨2, ![N, K]⟩ : Shape) ⟨2, ![K, D]⟩ ⟨2, ![N, D]⟩ [1] [0] [0] [1] [] [])
    (i : (⟨2, ![N, D]⟩ : Shape).Idx) (q : (plainDims wf).contr.Idx) :
    ((plainDims wf).lhsIdx i q 0).val = (i 0).val := by
  unfold DotDims.lhsIdx
  rw [dif_neg (show ¬(0 : Fin 2) ∈ ([] : List (Fin 2)) by decide), dif_pos (show (0 : Fin 2) ∈ ([0] : List (Fin 2)) by decide)]
  rfl

theorem lhs_plain_1 (wf : DotDims.WF (⟨2, ![N, K]⟩ : Shape) ⟨2, ![K, D]⟩ ⟨2, ![N, D]⟩ [1] [0] [0] [1] [] [])
    (i : (⟨2, ![N, D]⟩ : Shape).Idx) (q : (plainDims wf).contr.Idx) :
    ((plainDims wf).lhsIdx i q 1).val = (q ⟨0, Nat.one_pos⟩).val :=
  (plainDims wf).lhsIdx_val_of_single rfl i q

theorem rhs_plain_0 (wf : DotDims.WF (⟨2, ![N, K]⟩ : Shape) ⟨2, ![K, D]⟩ ⟨2, ![N, D]⟩ [1] [0] [0] [1] [] [])
    (i : (⟨2, ![N, D]⟩ : Shape).Idx) (q : (plainDims wf).contr.Idx) :
    ((plainDims wf).rhsIdx i q 0).val = (q ⟨0, Nat.one_pos⟩).val :=
  (plainDims wf).rhsIdx_val_of_single rfl i q

theorem rhs_plain_1 (wf : DotDims.WF (⟨2, ![N, K]⟩ : Shape) ⟨2, ![K, D]⟩ ⟨2, ![N, D]⟩ [1] [0] [0] [1] [] [])
    (i : (⟨2, ![N, D]⟩ : Shape).Idx) (q : (plainDims wf).contr.Idx) :
    ((plainDims wf).rhsIdx i q 1).val = (i 1).val := by
  unfold DotDims.rhsIdx
  rw [dif_neg (show ¬(1 : Fin 2) ∈ ([] : List (Fin 2)) by decide), dif_pos (show (1 : Fin 2) ∈ ([1] : List (Fin 2)) by decide)]
  rfl

theorem dot2_at (wf : DotDims.WF (⟨2, ![N, K]⟩ : Shape) ⟨2, ![K, D]⟩ ⟨2, ![N, D]⟩ [1] [0] [0] [1] [] [])
    (X : Spec.A2 N K) (W : Spec.A2 K D) (n : Fin N) (j : Fin D) :
    Host.dotGeneral (plainDims wf) none X W (ix2 n j) = Spec.dotRow X W n j := by
  simp only [Host.dotGeneral]
  rw [Ideal.dotGeneral_apply, ← Equiv.sum_comp (contrEquiv1 (plainDims wf) K rfl rfl).symm]
  unfold Spec.dotRow
  refine Finset.sum_congr rfl fun k _ => ?_
  have hk := contrEquiv1_symm_val (plainDims wf) K rfl rfl k
  have el : (plainDims wf).lhsIdx (ix2 n j) ((contrEquiv1 (plainDims wf) K rfl rfl).symm k) = ix2 n k :=
    funext fun a => Fin.ext (by
      match a with
      | ⟨0, _⟩ => exact lhs_plain_0 wf _ _
      | ⟨1, _⟩ => exact (lhs_plain_1 wf _ _).trans hk)
  have er : (plainDims wf).rhsIdx (ix2 n j) ((contrEquiv1 (plainDims wf) K rfl rfl).symm k) = ix2 k j :=
    funext fun a => Fin.ext (by
      match a with
      | ⟨0, _⟩ => exact (rhs_plain_0 wf _ _).trans hk
      | ⟨1, _⟩ => exact rhs_plain_1 wf _ _)
  rw [el, er]

theorem split_at (hD : H * C = D) (Y : Spec.A2 N D) (hs : (⟨2, ![N, D]⟩ : Shape).ShapeCasts ⟨3, ![N, H, C]⟩)
    (n : Fin N) (h : Fin H) (c : Fin C) :
    shapeCast (⟨3, ![N, H, C]⟩ : Shape) Y hs (ix3 n h c) = Y (ix2 n (Spec.fl hD h c)) :=
  shapeCast_apply Y hs _ _ (by
    rw [Shape.rowMajor_val_two, Shape.rowMajor_val_three]
    show n.val * D + (h.val * C + c.val) = (n.val * H + h.val) * C + c.val
    rw [← hD]; ring)

theorem coord_eq {M : Nat} (m : Fin M) (x : Nat) (hx : x = m.val) : m.val = if M = 1 then 0 else x := by
  have := m.isLt
  split <;> omega

theorem stretch_at (hb3 : (⟨3, ![N, H, 1]⟩ : Shape).BroadcastsInDim ⟨3, ![N, H, C]⟩ (![0, 1, 2] : Fin 3 → Fin 3))
    (x : Spec.A3 N H 1) (n : Fin N) (h : Fin H) (c : Fin C) :
    broadcastInDim (⟨3, ![N, H, C]⟩ : Shape) ![0, 1, 2] hb3 x (ix3 n h c) = x (ix3 n h 0) :=
  broadcastInDim_apply _ hb3 x _ (ix3 n h (0 : Fin 1)) (fun a => match a with
    | ⟨0, _⟩ => coord_eq n _ rfl
    | ⟨1, _⟩ => coord_eq h _ rfl
    | ⟨2, _⟩ => (if_pos rfl).symm)

theorem addUnit_at (hb2 : (⟨2, ![N, H]⟩ : Shape).BroadcastsInDim ⟨3, ![N, H, 1]⟩ (![0, 1] : Fin 2 → Fin 3))
    (x : Spec.A2 N H) (n : Fin N) (h : Fin H) (u : Fin 1) :
    broadcastInDim (⟨3, ![N, H, 1]⟩ : Shape) ![0, 1] hb2 x (ix3 n h u) = x (ix2 n h) :=
  broadcastInDim_apply _ hb2 x _ (ix2 n h) (fun a => match a with
    | ⟨0, _⟩ => coord_eq n _ rfl
    | ⟨1, _⟩ => coord_eq h _ rfl)

theorem row_at (hg1 : (⟨1, ![C]⟩ : Shape).BroadcastsInDim ⟨3, ![1, 1, C]⟩ (![2] : Fin 1 → Fin 3))
    (hg3 : (⟨3, ![1, 1, C]⟩ : Shape).BroadcastsInDim ⟨3, ![N, H, C]⟩ (![0, 1, 2] : Fin 3 → Fin 3))
    (g : Spec.A1 C) (n : Fin N) (h : Fin H) (c : Fin C) :
    broadcastInDim (⟨3, ![N, H, C]⟩ : Shape) ![0, 1, 2] hg3 (broadcastInDim (⟨3, ![1, 1, C]⟩ : Shape) ![2] hg1 g) (ix3 n h c)
      = g (ix1 c) :=
  (broadcastInDim_apply _ hg3 _ _ (ix3 (0 : Fin 1) (0 : Fin 1) c) (fun a => match a with
    | ⟨0, _⟩ => (if_pos rfl).symm
    | ⟨1, _⟩ => (if_pos rfl).symm
    | ⟨2, _⟩ => coord_eq c _ rfl)).trans
  (broadcastInDim_apply _ hg1 g _ (ix1 c) (fun a => match a with
    | ⟨0, _⟩ => coord_eq c _ rfl))

theorem sum_at (hr : (⟨3, ![N, H, C]⟩ : Shape).ReducesTo [2] ⟨2, ![N, H]⟩) (hu : 0 < (⟨0, ![]⟩ : Shape).numel)
    (Y : Spec.A3 N H C) (n : Fin N) (h : Fin H) :
    Host.reduceAdd Y (constant (F := Ideal) ⟨0, ![]⟩ .f32 0x00000000#32) hr hu (ix2 n h) = ∑ c' : Fin C, Y (ix3 n h c') := by
  have hR : (⟨3, ![N, H, C]⟩ : Shape).Reduces [2] ⟨2, ![N, H]⟩ := by
    obtain ⟨h1, h2⟩ := hr
    exact ⟨h1, Nat.two_pos, h2⟩
  rw [hostReduceAdd_apply, Ideal.hostReduceAdd_single hr hR]
  show Ideal.ofBits .f32 0x00000000#32 + _ = _
  rw [Ideal.ofBits_zero_f32, zero_add]
  refine Finset.sum_congr rfl fun k _ => congrArg Y (funext fun a => Fin.ext ?_)
  match a with
  | ⟨0, _⟩ => rfl
  | ⟨1, _⟩ => rfl
  | ⟨2, _⟩ => rfl

theorem hostRsqrt_at {s : Shape} (a : FVec Ideal s .f32) (i : s.Idx) : Host.rsqrt a i = Ideal.rsqrt (a i) := rfl

def meanB (hr : (⟨3, ![N, H, C]⟩ : Shape).ReducesTo [2] ⟨2, ![N, H]⟩) (hu : 0 < (⟨0, ![]⟩ : Shape).numel)
    (hb2 : (⟨2, ![N, H]⟩ : Shape).BroadcastsInDim ⟨3, ![N, H, 1]⟩ (![0, 1] : Fin 2 → Fin 3))
    (hb0 : (⟨0, ![]⟩ : Shape).BroadcastsInDim ⟨3, ![N, H, 1]⟩ (![] : Fin 0 → Fin 3))
    (cnt : BitVec 32) (Y : Spec.A3 N H C) : Spec.A3 N H 1 :=
  Host.divf (broadcastInDim ⟨3, ![N, H, 1]⟩ ![0, 1] hb2 (Host.reduceAdd Y (constant (F := Ideal) ⟨0, ![]⟩ .f32 0x00000000#32) hr hu))
    (broadcastInDim ⟨3, ![N, H, 1]⟩ ![] hb0 (constant (F := Ideal) ⟨0, ![]⟩ .f32 cnt))

theorem meanB_at (hr : (⟨3, ![N, H, C]⟩ : Shape).ReducesTo [2] ⟨2, ![N, H]⟩) (hu : 0 < (⟨0, ![]⟩ : Shape).numel)
    (hb2 : (⟨2, ![N, H]⟩ : Shape).BroadcastsInDim ⟨3, ![N, H, 1]⟩ (![0, 1] : Fin 2 → Fin 3))
    (hb0 : (⟨0, ![]⟩ : Shape).BroadcastsInDim ⟨3, ![N, H, 1]⟩ (![] : Fin 0 → Fin 3))
    (cnt : BitVec 32) (Y : Spec.A3 N H C) (n : Fin N) (h : Fin H) (u : Fin 1) :
    meanB hr hu hb2 hb0 cnt Y (ix3 n h u) = Ideal.div (∑ c' : Fin C, Y (ix3 n h c')) (Ideal.ofBits .f32 cnt) := by
  unfold meanB
  rw [hostDivf_apply, addUnit_at, sum_at, broadcastInDim_scalar_apply, constant_apply]

def centered (hr : (⟨3, ![N, H, C]⟩ : Shape).ReducesTo [2] ⟨2, ![N, H]⟩) (hu : 0 < (⟨0, ![]⟩ : Shape).numel)
    (hb2 : (⟨2, ![N, H]⟩ : Shape).BroadcastsInDim ⟨3, ![N, H, 1]⟩ (![0, 1] : Fin 2 → Fin 3))
    (hb0 : (⟨0, ![]⟩ : Shape).BroadcastsInDim ⟨3, ![N, H, 1]⟩ (![] : Fin 0 → Fin 3))
    (hb3 : (⟨3, ![N, H, 1]⟩ : Shape).BroadcastsInDim ⟨3, ![N, H, C]⟩ (![0, 1, 2] : Fin 3 → Fin 3))
    (cnt : BitVec 32) (Y : Spec.A3 N H C) : Spec.A3 N H C :=
  subf Y (broadcastInDim ⟨3, ![N, H, C]⟩ ![0, 1, 2] hb3 (meanB hr hu hb2 hb0 cnt Y))

theorem centered_at (hr : (⟨3, ![N, H, C]⟩ : Shape).ReducesTo [2] ⟨2, ![N, H]⟩) (hu : 0 < (⟨0, ![]⟩ : Shape).numel)
    (hb2 : (⟨2, ![N, H]⟩ : Shape).BroadcastsInDim ⟨3, ![N, H, 1]⟩ (![0, 1] : Fin 2 → Fin 3))
    (hb0 : (⟨0, ![]⟩ : Shape).BroadcastsInDim ⟨3, ![N, H, 1]⟩ (![] : Fin 0 → Fin 3))
    (hb3 : (⟨3, ![N, H, 1]⟩ : Shape).BroadcastsInDim ⟨3, ![N, H, C]⟩ (![0, 1, 2] : Fin 3 → Fin 3))
    (cnt : BitVec 32) (Y : Spec.A3 N H C) (n : Fin N) (h : Fin H) (c : Fin C) :
    centered hr hu hb2 hb0 hb3 cnt Y (ix3 n h c)
      = Y (ix3 n h c) - Ideal.div (∑ c' : Fin C, Y (ix3 n h c')) (Ideal.ofBits .f32 cnt) := by
  unfold centered
  rw [subf_apply, stretch_at, meanB_at]

def lnCore (hr : (⟨3, ![N, H, C]⟩ : Shape).ReducesTo [2] ⟨2, ![N, H]⟩) (hu : 0 < (⟨0, ![]⟩ : Shape).numel)
    (hb2 : (⟨2, ![N, H]⟩ : Shape).BroadcastsInDim ⟨3, ![N, H, 1]⟩ (![0, 1] : Fin 2 → Fin 3))
    (hb0 : (⟨0, ![]⟩ : Shape).BroadcastsInDim ⟨3, ![N, H, 1]⟩ (![] : Fin 0 → Fin 3))
    (hb3 : (⟨3, ![N, H, 1]⟩ : Shape).BroadcastsInDim ⟨3, ![N, H, C]⟩ (![0, 1, 2] : Fin 3 → Fin 3))
    (hg1 : (⟨1, ![C]⟩ : Shape).BroadcastsInDim ⟨3, ![1, 1, C]⟩ (![2] : Fin 1 → Fin 3))
    (hg3 : (⟨3, ![1, 1, C]⟩ : Shape).BroadcastsInDim ⟨3, ![N, H, C]⟩ (![0, 1, 2] : Fin 3 → Fin 3))
    (cnt eps : BitVec 32) (Y : Spec.A3 N H C) (g b : Spec.A1 C) : Spec.A3 N H C :=
  addf
    (mulf
      (mulf (centered hr hu hb2 hb0 hb3 cnt Y)
        (broadcastInDim ⟨3, ![N, H, C]⟩ ![0, 1, 2] hb3
          (Host.rsqrt
            (addf
              (Host.divf
                (broadcastInDim ⟨3, ![N, H, 1]⟩ ![0, 1] hb2
                  (Host.reduceAdd (mulf (centered hr hu hb2 hb0 hb3 cnt Y) (centered hr hu hb2 hb0 hb3 cnt Y))
                    (constant (F := Ideal) ⟨0, ![]⟩ .f32 0x00000000#32) hr hu))
                (broadcastInDim ⟨3, ![N, H, 1]⟩ ![] hb0 (constant (F := Ideal) ⟨0, ![]⟩ .f32 cnt)))
              (broadcastInDim ⟨3, ![N, H, 1]⟩ ![] hb0 (constant (F := Ideal) ⟨0, ![]⟩ .f32 eps))))))
      (broadcastInDim ⟨3, ![N, H, C]⟩ ![0, 1, 2] hg3 (broadcastInDim ⟨3, ![1, 1, C]⟩ ![2] hg1 g)))
    (broadcastInDim ⟨3, ![N, H, C]⟩ ![0, 1, 2] hg3 (broadcastInDim ⟨3, ![1, 1, C]⟩ ![2] hg1 b))

theorem lnCore_at (hr : (⟨3, ![N, H, C]⟩ : Shape).ReducesTo [2] ⟨2, ![N, H]⟩) (hu : 0 < (⟨0, ![]⟩ : Shape).numel)
    (hb2 : (⟨2, ![N, H]⟩ : Shape).BroadcastsInDim ⟨3, ![N, H, 1]⟩ (![0, 1] : Fin 2 → Fin 3))
    (hb0 : (⟨0, ![]⟩ : Shape).BroadcastsInDim ⟨3, ![N, H, 1]⟩ (![] : Fin 0 → Fin 3))
    (hb3 : (⟨3, ![N, H, 1]⟩ : Shape).BroadcastsInDim ⟨3, ![N, H, C]⟩ (![0, 1, 2] : Fin 3 → Fin 3))
    (hg1 : (⟨1, ![C]⟩ : Shape).BroadcastsInDim ⟨3, ![1, 1, C]⟩ (![2] : Fin 1 → Fin 3))
    (hg3 : (⟨3, ![1, 1, C]⟩ : Shape).BroadcastsInDim ⟨3, ![N, H, C]⟩ (![0, 1, 2] : Fin 3 → Fin 3))
    (cnt eps : BitVec 32) (Y : Spec.A3 N H C) (g b : Spec.A1 C) (n : Fin N) (h : Fin H) (c : Fin C) :
    lnCore hr hu hb2 hb0 hb3 hg1 hg3 cnt eps Y g b (ix3 n h c)
      = Spec.lnRow (Ideal.ofBits .f32 cnt) (Ideal.ofBits .f32 eps) (fun c' => Y (ix3 n h c'))
          (fun c' => g (ix1 c')) (fun c' => b (ix1 c')) c := by
  unfold lnCore Spec.lnRow
  rw [addf_apply, mulf_apply, mulf_apply, row_at, row_at, centered_at, stretch_at, hostRsqrt_at, addf_apply, hostDivf_apply,
    addUnit_at, sum_at, broadcastInDim_scalar_apply, broadcastInDim_scalar_apply, constant_apply, constant_apply]
  simp only [mulf_apply, centered_at]

end Generic

variable [Facts]

def ln0 (X : FVec Ideal S50000x128 .f32) (W : FVec Ideal S128x256 .f32) (g b : FVec Ideal S64 .f32) : FVec Ideal S50000x4x64 .f32 :=
  lnCore reducesTo_S50000x4x64_S50000x4_d2 h_S_ bcast_S50000x4_S50000x4x1_0_1 bcast_S_S50000x4x1 bcast_S50000x4x1_S50000x4x64_0_1_2
    bcast_S64_S1x1x64_2 bcast_S1x1x64_S50000x4x64_0_1_2 0x42800000#32 0x3727C5AC#32
    (shapeCast S50000x4x64 (Host.dotGeneral dot_S50000x128_S128x256_S50000x256_1_0_0_1_n_n none X W) shapeCasts_S50000x256_S50000x4x64) g b

def ln1 (X : FVec Ideal S50000x256 .f32) (W : FVec Ideal S256x256 .f32) (g b : FVec Ideal S64 .f32) : FVec Ideal S50000x4x64 .f32 :=
  lnCore reducesTo_S50000x4x64_S50000x4_d2 h_S_ bcast_S50000x4_S50000x4x1_0_1 bcast_S_S50000x4x1 bcast_S50000x4x1_S50000x4x64_0_1_2
    bcast_S64_S1x1x64_2 bcast_S1x1x64_S50000x4x64_0_1_2 0x42800000#32 0x3727C5AC#32
    (shapeCast S50000x4x64 (Host.dotGeneral dot_S50000x256_S256x256_S50000x256_1_0_0_1_n_n none X W) shapeCasts_S50000x256_S50000x4x64) g b

def ln2 (X : FVec Ideal S50000x256 .f32) (W : FVec Ideal S256x40 .f32) (g b : FVec Ideal S40 .f32) : FVec Ideal S50000x1x40 .f32 :=
  lnCore reducesTo_S50000x1x40_S50000x1_d2 h_S_ bcast_S50000x1_S50000x1x1_0_1 bcast_S_S50000x1x1 bcast_S50000x1x1_S50000x1x40_0_1_2
    bcast_S40_S1x1x40_2 bcast_S1x1x40_S50000x1x40_0_1_2 0x42200000#32 0x3727C5AC#32
    (shapeCast S50000x1x40 (Host.dotGeneral dot_S50000x256_S256x40_S50000x40_1_0_0_1_n_n none X W) shapeCasts_S50000x40_S50000x1x40) g b

theorem dotB0_at (X : FVec Ideal S50000x128 .f32) (Bw : FVec Ideal S128x256 .f32) (n : Fin 50000) (j : Fin 256) :
    Host.dotGeneral dot_S50000x128_S128x256_S50000x256_1_0_0_1_n_n none X Bw (ix2 n j) = Spec.dotRow X Bw n j :=
  dot2_at _ X Bw n j

theorem dotB1_at (X : FVec Ideal S50000x256 .f32) (Bw : FVec Ideal S256x256 .f32) (n : Fin 50000) (j : Fin 256) :
    Host.dotGeneral dot_S50000x256_S256x256_S50000x256_1_0_0_1_n_n none X Bw (ix2 n j) = Spec.dotRow X Bw n j :=
  dot2_at _ X Bw n j

theorem dotB2_at (X : FVec Ideal S50000x256 .f32) (Bw : FVec Ideal S256x1 .f32) (n : Fin 50000) (j : Fin 1) :
    Host.dotGeneral dot_S50000x256_S256x1_S50000x1_1_0_0_1_n_n none X Bw (ix2 n j) = Spec.dotRow X Bw n j :=
  dot2_at _ X Bw n j

theorem dotW2_at (X : FVec Ideal S50000x256 .f32) (Bw : FVec Ideal S256x40 .f32) (n : Fin 50000) (j : Fin 40) :
    Host.dotGeneral dot_S50000x256_S256x40_S50000x40_1_0_0_1_n_n none X Bw (ix2 n j) = Spec.dotRow X Bw n j :=
  dot2_at _ X Bw n j

theorem ln0_at (X : FVec Ideal S50000x128 .f32) (W : FVec Ideal S128x256 .f32) (g b : FVec Ideal S64 .f32)
    (n : Fin 50000) (h : Fin 4) (c : Fin 64) :
    ln0 X W g b (ix3 n h c)
      = Spec.xlln (by norm_num : 4 * 64 = 256) Spec.c64 Spec.epsLn X W (fun c' => g (ix1 c')) (fun c' => b (ix1 c')) n h c := by
  unfold ln0 Spec.xlln
  rw [lnCore_at]
  have e : (fun c' : Fin 64 => shapeCast S50000x4x64 (Host.dotGeneral dot_S50000x128_S128x256_S50000x256_1_0_0_1_n_n none X W)
        shapeCasts_S50000x256_S50000x4x64 (ix3 n h c'))
      = fun c' => Spec.dotRow X W n (Spec.fl (by norm_num : 4 * 64 = 256) h c') :=
    funext fun c' => (split_at (by norm_num : 4 * 64 = 256) _ shapeCasts_S50000x256_S50000x4x64 n h c').trans (dotB0_at X W n _)
  rw [e]
  rfl

theorem ln1_at (X : FVec Ideal S50000x256 .f32) (W : FVec Ideal S256x256 .f32) (g b : FVec Ideal S64 .f32)
    (n : Fin 50000) (h : Fin 4) (c : Fin 64) :
    ln1 X W g b (ix3 n h c)
      = Spec.xlln (by norm_num : 4 * 64 = 256) Spec.c64 Spec.epsLn X W (fun c' => g (ix1 c')) (fun c' => b (ix1 c')) n h c := by
  unfold ln1 Spec.xlln
  rw [lnCore_at]
  have e : (fun c' : Fin 64 => shapeCast S50000x4x64 (Host.dotGeneral dot_S50000x256_S256x256_S50000x256_1_0_0_1_n_n none X W)
        shapeCasts_S50000x256_S50000x4x64 (ix3 n h c'))
      = fun c' => Spec.dotRow X W n (Spec.fl (by norm_num : 4 * 64 = 256) h c') :=
    funext fun c' => (split_at (by norm_num : 4 * 64 = 256) _ shapeCasts_S50000x256_S50000x4x64 n h c').trans (dotB1_at X W n _)
  rw [e]
  rfl

theorem ln2_at (X : FVec Ideal S50000x256 .f32) (W : FVec Ideal S256x40 .f32) (g b : FVec Ideal S40 .f32)
    (n : Fin 50000) (c : Fin 40) :
    ln2 X W g b (ix3 n 0 c)
      = Spec.xlln (by norm_num : 1 * 40 = 40) Spec.c40 Spec.epsLn X W (fun c' => g (ix1 c')) (fun c' => b (ix1 c')) n 0 c := by
  unfold ln2 Spec.xlln
  rw [lnCore_at]
  have e : (fun c' : Fin 40 => shapeCast S50000x1x40 (Host.dotGeneral dot_S50000x256_S256x40_S50000x40_1_0_0_1_n_n none X W)
        shapeCasts_S50000x40_S50000x1x40 (ix3 n (0 : Fin 1) c'))
      = fun c' => Spec.dotRow X W n (Spec.fl (by norm_num : 1 * 40 = 40) (0 : Fin 1) c') :=
    funext fun c' => (split_at (by norm_num : 1 * 40 = 40) _ shapeCasts_S50000x40_S50000x1x40 n 0 c').trans (dotW2_at X W n _)
  rw [e]
  rfl

theorem bb0_at (bb : FVec Ideal S256 .f32) (n : Fin 50000) (j : Fin 256) :
    broadcastInDim S50000x256 (![0, 1] : Fin 2 → Fin S50000x256.rank) bcast_S1x256_S50000x256_0_1
        (broadcastInDim S1x256 (![1] : Fin 1 → Fin S1x256.rank) bcast_S256_S1x256_1 bb) (ix2 n j) = bb (ix1 j) := by
  exact (broadcastInDim_apply _ bcast_S1x256_S50000x256_0_1 _ _ (ix2 (0 : Fin 1) j) (fun a => match a with
    | ⟨0, _⟩ => (if_pos rfl).symm
    | ⟨1, _⟩ => coord_eq j _ rfl)).trans
    (broadcastInDim_apply _ bcast_S256_S1x256_1 bb _ (ix1 j) (fun a => match a with
    | ⟨0, _⟩ => coord_eq j _ rfl))

theorem bb1_at (bb : FVec Ideal S256 .f32) (n : Fin 50000) (j : Fin 256) :
    broadcastInDim S50000x256 (![0, 1] : Fin 2 → Fin S50000x256.rank) bcast_S1x256_S50000x256_0_1
        (broadcastInDim S1x256 (![1] : Fin 1 → Fin S1x256.rank) bcast_S256_S1x256_1 bb) (ix2 n j) = bb (ix1 j) :=
  bb0_at bb n j

theorem bb2_at (bb : FVec Ideal S1 .f32) (n : Fin 50000) (j : Fin 40) :
    broadcastInDim S50000x40 (![0, 1] : Fin 2 → Fin S50000x40.rank) bcast_S1x1_S50000x40_0_1
        (broadcastInDim S1x1 (![1] : Fin 1 → Fin S1x1.rank) bcast_S1_S1x1_1 bb) (ix2 n j) = bb (ix1 0) := by
  exact (broadcastInDim_apply _ bcast_S1x1_S50000x40_0_1 _ _ (ix2 (0 : Fin 1) (0 : Fin 1)) (fun a => match a with
    | ⟨0, _⟩ => (if_pos rfl).symm
    | ⟨1, _⟩ => (if_pos rfl).symm)).trans
    (broadcastInDim_apply _ bcast_S1_S1x1_1 bb _ (ix1 (0 : Fin 1)) (fun a => match a with
    | ⟨0, _⟩ => (if_pos rfl).symm))

theorem bcol2_at (x : FVec Ideal S50000x1 .f32) (n : Fin 50000) (j : Fin 40) :
    broadcastInDim S50000x40 (![0, 1] : Fin 2 → Fin S50000x40.rank) bcast_S50000x1_S50000x40_0_1 x (ix2 n j) = x (ix2 n 0) := by
  exact broadcastInDim_apply _ bcast_S50000x1_S50000x40_0_1 x _ (ix2 n (0 : Fin 1)) (fun a => match a with
    | ⟨0, _⟩ => coord_eq n _ rfl
    | ⟨1, _⟩ => (if_pos rfl).symm)

end Cert.ReferenceIdeal.DenseR

end
-- ==== Proof.Layout.lean ====
import proofs.«418090_j57904749084726_1_alg».proof.KernelIdeal
import proofs.«418090_j57904749084726_1_alg».proof.ReferenceIdeal
import proofs.«418090_j57904749084726_1_alg».proof.Proof.Spec
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value

noncomputable section

namespace Cert.Layout

open Idealize.ShloMosaic Idealize.ShloMosaic.ValueIdx

-- Padding only after the last row does not move the rows already there.
theorem padRows_at {α : Type} {M P W : Nat} (hi : Fin 2 → Nat) (x : (⟨2, ![M, W]⟩ : Shape).Idx → α) {u : Shape} (v : u.Idx → α)
    (h : (⟨2, ![M, W]⟩ : Shape).Pads (![0, 0] : Fin 2 → Nat) hi ![0, 0] ⟨2, ![P, W]⟩) (hu : 0 < u.numel)
    (m : Fin M) (j : Fin W) (hm : m.val < P) :
    pad (⟨2, ![P, W]⟩ : Shape) ![0, 0] hi ![0, 0] x v h hu (ix2 (⟨m.val, hm⟩ : Fin P) j) = x (ix2 m j) :=
  pad_apply_of_inside _ _ _ x v h hu _ (ix2 m j) (fun a => by
    match a with
    | ⟨0, _⟩ => show m.val = 0 + m.val * (0 + 1); omega
    | ⟨1, _⟩ => show j.val = 0 + j.val * (0 + 1); omega)

theorem zeros_at {T : Shape} (h : (⟨0, ![]⟩ : Shape).BroadcastsInDim T ![]) (i : T.Idx) :
    broadcastInDim T ![] h (constant (F := Ideal) ⟨0, ![]⟩ .f32 0x00000000#32) i = 0 := by
  rw [broadcastInDim_scalar_apply, constant_apply, Ideal.ofBits_zero_f32]

section K
open Cert.KernelIdeal Cert.KernelIdeal.Facts₀
variable [Cert.KernelIdeal.Facts]

theorem padK128_at (x : FVec Ideal S550000x128 .f32) (v : FVec Ideal S_ .f32) (m : Fin 550000) (j : Fin 128) (hm : m.val < 550912) :
    pad S550912x128 ![0, 0] ![912, 0] ![0, 0] x v pads_S550000x128_S550912x128_09120_000 h_S_ (ix2 (⟨m.val, hm⟩ : Fin 550912) j)
      = x (ix2 m j) :=
  padRows_at _ x v _ h_S_ m j hm

theorem padK256_at (x : FVec Ideal S550000x256 .f32) (v : FVec Ideal S_ .f32) (m : Fin 550000) (j : Fin 256) (hm : m.val < 550912) :
    pad S550912x256 ![0, 0] ![912, 0] ![0, 0] x v pads_S550000x256_S550912x256_09120_000 h_S_ (ix2 (⟨m.val, hm⟩ : Fin 550912) j)
      = x (ix2 m j) :=
  padRows_at _ x v _ h_S_ m j hm

theorem padK40_at (x : FVec Ideal S550000x40 .f32) (v : FVec Ideal S_ .f32) (m : Fin 550000) (j : Fin 40) (hm : m.val < 550912) :
    pad S550912x40 ![0, 0] ![912, 0] ![0, 0] x v pads_S550000x40_S550912x40_09120_000 h_S_ (ix2 (⟨m.val, hm⟩ : Fin 550912) j)
      = x (ix2 m j) :=
  padRows_at _ x v _ h_S_ m j hm

theorem sliceK256_at (x : FVec Ideal S550912x256 .f32) (m : Fin 550000) (j : Fin 256) (hm : m.val < 550912) :
    extractStridedSlice S550000x256 ![0, 0] x slices_S550912x256_S550000x256_0_0 (ix2 m j) = x (ix2 (⟨m.val, hm⟩ : Fin 550912) j) :=
  slice2_axis0_apply 0 x _ m j ⟨m.val, hm⟩ (Nat.zero_add _).symm

theorem sliceK40_at (x : FVec Ideal S550912x40 .f32) (m : Fin 550000) (j : Fin 40) (hm : m.val < 550912) :
    extractStridedSlice S550000x40 ![0, 0] x slices_S550912x40_S550000x40_0_0 (ix2 m j) = x (ix2 (⟨m.val, hm⟩ : Fin 550912) j) :=
  slice2_axis0_apply 0 x _ m j ⟨m.val, hm⟩ (Nat.zero_add _).symm

theorem zerosK256_at (i : S50000x256.Idx) :
    broadcastInDim S50000x256 ![] bcast_S_S50000x256 (constant (F := Ideal) S_ .f32 0x00000000#32) i = 0 :=
  zeros_at _ i

theorem zerosK40_at (i : S50000x40.Idx) :
    broadcastInDim S50000x40 ![] bcast_S_S50000x40 (constant (F := Ideal) S_ .f32 0x00000000#32) i = 0 :=
  zeros_at _ i

theorem rowK64_at (x : FVec Ideal S64 .f32) (c : Fin 64) : shapeCast S1x64 x shapeCasts_S64_S1x64 (ix2 (0 : Fin 1) c) = x (ix1 c) :=
  shapeCast_a_1a_apply x _ 0 c

theorem rowK256_at (x : FVec Ideal S256 .f32) (c : Fin 256) : shapeCast S1x256 x shapeCasts_S256_S1x256 (ix2 (0 : Fin 1) c) = x (ix1 c) :=
  shapeCast_a_1a_apply x _ 0 c

theorem rowK40_at (x : FVec Ideal S40 .f32) (c : Fin 40) : shapeCast S1x40 x shapeCasts_S40_S1x40 (ix2 (0 : Fin 1) c) = x (ix1 c) :=
  shapeCast_a_1a_apply x _ 0 c

theorem rowK1_at (x : FVec Ideal S1 .f32) (c : Fin 1) : shapeCast S1x1 x shapeCasts_S1_S1x1 (ix2 (0 : Fin 1) c) = x (ix1 c) :=
  shapeCast_a_1a_apply x _ 0 c

theorem colK40_at (x : FVec Ideal S50000x1 .f32) (n : Fin 50000) (j : Fin 40) :
    broadcastInDim S50000x40 ![0, 1] bcast_S50000x1_S50000x40_0_1 x (ix2 n j) = x (ix2 n (0 : Fin 1)) :=
  broadcastInDim_apply _ _ x _ (ix2 n (0 : Fin 1)) (fun a => match a with
    | ⟨0, _⟩ => (if_neg (show ¬(50000 = 1) by decide)).symm
    | ⟨1, _⟩ => (if_pos rfl).symm)

end K

section R
open Cert.ReferenceIdeal Cert.ReferenceIdeal.Facts₀
variable [Cert.ReferenceIdeal.Facts]

-- Merging the two trailing axes keeps every element's row-major position.
theorem mergeR_at (x : FVec Ideal S50000x4x64 .f32) (n : Fin 50000) (h : Fin 4) (c : Fin 64) :
    shapeCast S50000x256 x shapeCasts_S50000x4x64_S50000x256 (ix2 n (Spec.fl (by norm_num : 4 * 64 = 256) h c)) = x (ix3 n h c) :=
  shapeCast_apply x _ _ _ (by
    rw [Shape.rowMajor_val_two, Shape.rowMajor_val_three]
    show (n.val * 4 + h.val) * 64 + c.val = n.val * 256 + (h.val * 64 + c.val)
    omega)

theorem zerosR4x64_at (i : S50000x4x64.Idx) :
    broadcastInDim S50000x4x64 ![] bcast_S_S50000x4x64 (constant (F := Ideal) S_ .f32 0x00000000#32) i = 0 :=
  zeros_at _ i

theorem zerosR1x40_at (i : S50000x1x40.Idx) :
    broadcastInDim S50000x1x40 ![] bcast_S_S50000x1x40 (constant (F := Ideal) S_ .f32 0x00000000#32) i = 0 :=
  zeros_at _ i

end R

end Cert.Layout

end
-- ==== Proof.Layer0A.lean ====
import proofs.«418090_j57904749084726_1_alg».proof.Proof.KChain
import proofs.«418090_j57904749084726_1_alg».proof.Proof.RChain
import proofs.«418090_j57904749084726_1_alg».proof.Proof.RefRun
import proofs.«418090_j57904749084726_1_alg».proof.Proof.DenseK0
import proofs.«418090_j57904749084726_1_alg».proof.Proof.DenseR
import proofs.«418090_j57904749084726_1_alg».proof.Proof.Layout

noncomputable section

namespace Cert.Layer0

open Idealize.ShloMosaic Idealize.ShloMosaic.TcCoe Idealize.SL.Sem Idealize.ShloMosaic.ValueIdx
open Cert.KernelIdeal.KChain Cert.ReferenceIdeal.RChain Cert.ReferenceIdeal.RefRun

abbrev VKs : Type := Cert.KernelIdeal.KChain.Vals Ideal
abbrev VRs : Type := Valuation Cert.ReferenceIdeal.τ Cert.ReferenceIdeal.sig (Elt Ideal)

def BiasOk (UK : VKs) (UR : VRs) (c : Dev Cert.KernelIdeal.nD) : Prop :=
  ∀ (n : Fin 50000) (j : Fin 256),
      (UK c (Proc.devRef .tc Cert.KernelIdeal.main_v26_1) : Spec.A2 50000 256) (ix2 n j)
        = Spec.biasLin (UR (Proc.devRef .tc Cert.ReferenceIdeal.main_arg0) : Spec.A2 50000 128)
            (UR (Proc.devRef .tc Cert.ReferenceIdeal.main_arg5) : Spec.A2 128 256)
            (fun j' => (UR (Proc.devRef .tc Cert.ReferenceIdeal.main_arg6) : Spec.A1 256) (ix1 j')) n j

def Mid (UK : VKs) (UR : VRs) (c : Dev Cert.KernelIdeal.nD) : Prop :=
  UK c (Proc.devRef .tc Cert.KernelIdeal.main_v22) = UR (Proc.devRef .tc Cert.ReferenceIdeal.main_v22) ∧
  UK c (Proc.devRef .tc Cert.KernelIdeal.main_v1) = UR (Proc.devRef .tc Cert.ReferenceIdeal.main_v1) ∧
  UK c (Proc.devRef .tc Cert.KernelIdeal.main_v3) = UR (Proc.devRef .tc Cert.ReferenceIdeal.main_v3) ∧
  (∀ (n : Fin 50000) (h : Fin 4) (cc : Fin 64),
      (UK c (Proc.devRef .tc Cert.KernelIdeal.main_v26_0) : Spec.A2 50000 256) (ix2 n (Spec.fl (by norm_num : 4 * 64 = 256) h cc))
        = (UR (Proc.devRef .tc Cert.ReferenceIdeal.main_v48) : Spec.A3 50000 4 64) (ix3 n h cc)) ∧
  BiasOk UK UR c

theorem k_arg (VK : VKs) (c : Dev Cert.KernelIdeal.nD) {r : Ref Cert.KernelIdeal.sig .tc}
    (hr : r ∈ [Cert.KernelIdeal.main_arg0, Cert.KernelIdeal.main_arg2, Cert.KernelIdeal.main_arg5]) :
    kseg0 VK c (Proc.devRef .tc r) = VK c (Proc.devRef .tc r) := by
  fin_cases hr <;> after_results_simp

theorem k_v23 (VK : VKs) (c : Dev Cert.KernelIdeal.nD) (c' : Fin 64) :
    (kseg0 VK c (Proc.devRef .tc Cert.KernelIdeal.main_v23) : Spec.A2 1 64) (ix2 0 c')
      = (VK c (Proc.devRef .tc Cert.KernelIdeal.main_arg3) : Spec.A1 64) (ix1 c') := by
  after_results_simp
  exact Cert.Layout.rowK64_at _ c'

theorem k_v24 (VK : VKs) (c : Dev Cert.KernelIdeal.nD) (c' : Fin 64) :
    (kseg0 VK c (Proc.devRef .tc Cert.KernelIdeal.main_v24) : Spec.A2 1 64) (ix2 0 c')
      = (VK c (Proc.devRef .tc Cert.KernelIdeal.main_arg4) : Spec.A1 64) (ix1 c') := by
  after_results_simp
  exact Cert.Layout.rowK64_at _ c'

theorem k_v25 (VK : VKs) (c : Dev Cert.KernelIdeal.nD) (j' : Fin 256) :
    (kseg0 VK c (Proc.devRef .tc Cert.KernelIdeal.main_v25) : Spec.A2 1 256) (ix2 0 j')
      = (VK c (Proc.devRef .tc Cert.KernelIdeal.main_arg6) : Spec.A1 256) (ix1 j') := by
  after_results_simp
  exact Cert.Layout.rowK256_at _ j'

theorem r_arg (VR : VRs) {r : Ref Cert.ReferenceIdeal.sig .tc} (hr : r ∈ argRefs) :
    StableHlo.after rops1 (StableHlo.after rops0 VR) (Proc.devRef .tc r) = VR (Proc.devRef .tc r) :=
  (kept_of_forall rops1_keep _ hr).trans (kept_of_forall rops0_keep _ hr)

theorem r_v48 (VR : VRs) :
    StableHlo.after rops1 (StableHlo.after rops0 VR) (Proc.devRef .tc Cert.ReferenceIdeal.main_v48)
      = Cert.ReferenceIdeal.DenseR.ln0 (VR (Proc.devRef .tc Cert.ReferenceIdeal.main_arg0))
          (VR (Proc.devRef .tc Cert.ReferenceIdeal.main_arg2)) (VR (Proc.devRef .tc Cert.ReferenceIdeal.main_arg3))
          (VR (Proc.devRef .tc Cert.ReferenceIdeal.main_arg4)) := by
  after_results_simp
  rfl

theorem mean_eq (VK : VKs) (VR : VRs) (c : Dev Cert.KernelIdeal.nD)
    (h0 : VK c (Proc.devRef .tc Cert.KernelIdeal.main_arg0) = VR (Proc.devRef .tc Cert.ReferenceIdeal.main_arg0))
    (h1 : VK c (Proc.devRef .tc Cert.KernelIdeal.main_arg1) = VR (Proc.devRef .tc Cert.ReferenceIdeal.main_arg1)) :
    kreg0 (kseg0 VK) c (Proc.devRef .tc Cert.KernelIdeal.main_v22)
      = StableHlo.after rops1 (StableHlo.after rops0 VR) (Proc.devRef .tc Cert.ReferenceIdeal.main_v22) := by
  rw [kreg0_of_ne _ _ _ (by decide)]
  after_results_simp
  rw [h0, h1]
  rfl

theorem v1_eq (VK : VKs) (VR : VRs) (c : Dev Cert.KernelIdeal.nD)
    (h1 : VK c (Proc.devRef .tc Cert.KernelIdeal.main_arg1) = VR (Proc.devRef .tc Cert.ReferenceIdeal.main_arg1)) :
    kreg0 (kseg0 VK) c (Proc.devRef .tc Cert.KernelIdeal.main_v1)
      = StableHlo.after rops1 (StableHlo.after rops0 VR) (Proc.devRef .tc Cert.ReferenceIdeal.main_v1) := by
  rw [kreg0_of_ne _ _ _ (by decide)]
  after_results_simp
  rw [h1]
  rfl

theorem v3_eq (VK : VKs) (VR : VRs) (c : Dev Cert.KernelIdeal.nD)
    (h1 : VK c (Proc.devRef .tc Cert.KernelIdeal.main_arg1) = VR (Proc.devRef .tc Cert.ReferenceIdeal.main_arg1)) :
    kreg0 (kseg0 VK) c (Proc.devRef .tc Cert.KernelIdeal.main_v3)
      = StableHlo.after rops1 (StableHlo.after rops0 VR) (Proc.devRef .tc Cert.ReferenceIdeal.main_v3) := by
  rw [kreg0_of_ne _ _ _ (by decide)]
  after_results_simp
  rw [h1]
  rfl

theorem stepA (VK : VKs) (VR : VRs) (c : Dev Cert.KernelIdeal.nD)
    (h0 : VK c (Proc.devRef .tc Cert.KernelIdeal.main_arg0) = VR (Proc.devRef .tc Cert.ReferenceIdeal.main_arg0))
    (h1 : VK c (Proc.devRef .tc Cert.KernelIdeal.main_arg1) = VR (Proc.devRef .tc Cert.ReferenceIdeal.main_arg1))
    (h2 : VK c (Proc.devRef .tc Cert.KernelIdeal.main_arg2) = VR (Proc.devRef .tc Cert.ReferenceIdeal.main_arg2))
    (h3 : VK c (Proc.devRef .tc Cert.KernelIdeal.main_arg3) = VR (Proc.devRef .tc Cert.ReferenceIdeal.main_arg3))
    (h4 : VK c (Proc.devRef .tc Cert.KernelIdeal.main_arg4) = VR (Proc.devRef .tc Cert.ReferenceIdeal.main_arg4))
    (h5 : VK c (Proc.devRef .tc Cert.KernelIdeal.main_arg5) = VR (Proc.devRef .tc Cert.ReferenceIdeal.main_arg5))
    (h6 : VK c (Proc.devRef .tc Cert.KernelIdeal.main_arg6) = VR (Proc.devRef .tc Cert.ReferenceIdeal.main_arg6)) :
    Mid (kreg0 (kseg0 VK)) (StableHlo.after rops1 (StableHlo.after rops0 VR)) c := by
  refine ⟨mean_eq VK VR c h0 h1, v1_eq VK VR c h1, v3_eq VK VR c h1, ?_, ?_⟩
  · intro n h cc
    have eK : kreg0 (kseg0 VK) c (Proc.devRef .tc Cert.KernelIdeal.main_v26_0)
        = (Cert.KernelIdeal.Gen.dat0 (F := Ideal) (fun c b => kseg0 VK c b) c).arrAt 6 Cert.KernelIdeal.cfg0.N :=
      kreg0_arr (kseg0 VK) c 6
    rw [eK, Cert.KernelIdeal.DenseK0.xlln_at (fun c b => kseg0 VK c b) c n h cc, r_v48 VR,
      Cert.ReferenceIdeal.DenseR.ln0_at]
    exact Spec.xlln_congr _ _ _ ((k_arg VK c (by decide)).trans h0) ((k_arg VK c (by decide)).trans h2)
      (fun c' => (k_v23 VK c c').trans (congrFun h3 _)) (fun c' => (k_v24 VK c c').trans (congrFun h4 _)) n h cc
  · intro n j
    have eK : kreg0 (kseg0 VK) c (Proc.devRef .tc Cert.KernelIdeal.main_v26_1)
        = (Cert.KernelIdeal.Gen.dat0 (F := Ideal) (fun c b => kseg0 VK c b) c).arrAt 7 Cert.KernelIdeal.cfg0.N :=
      kreg0_arr (kseg0 VK) c 7
    rw [eK, Cert.KernelIdeal.DenseK0.bias_at (fun c b => kseg0 VK c b) c n j]
    exact Spec.biasLin_congr ((k_arg VK c (by decide)).trans (h0.trans (r_arg VR (by decide)).symm))
      ((k_arg VK c (by decide)).trans (h5.trans (r_arg VR (by decide)).symm))
      (fun j' => (k_v25 VK c j').trans (congrFun (h6.trans (r_arg VR (by decide)).symm) _)) n j

end Cert.Layer0

end
-- ==== Proof.Layer0M.lean ====
import proofs.«418090_j57904749084726_1_alg».proof.Proof.Layer0A

noncomputable section

namespace Cert.Layer0

open Idealize.ShloMosaic Idealize.ShloMosaic.TcCoe Idealize.SL.Sem Idealize.ShloMosaic.ValueIdx
open Cert.KernelIdeal.KChain Cert.ReferenceIdeal.RChain Cert.ReferenceIdeal.RefRun

def Mid2 (WK : VKs) (WR : VRs) (c : Dev Cert.KernelIdeal.nD) : Prop :=
  (∀ (m : Fin 550000) (h : Fin 4) (cc : Fin 64),
      (WK c (Proc.devRef .tc Cert.KernelIdeal.main_v54) : Spec.A2 550912 256)
          (ix2 (⟨m.val, lt_of_lt_of_le m.isLt (by norm_num)⟩ : Fin 550912) (Spec.fl (by norm_num : 4 * 64 = 256) h cc))
        = (WR (Proc.devRef .tc Cert.ReferenceIdeal.main_v83) : Spec.A3 550000 4 64) (ix3 m h cc)) ∧
  WK c (Proc.devRef .tc Cert.KernelIdeal.main_v29) = WR (Proc.devRef .tc Cert.ReferenceIdeal.main_v51) ∧
  BiasOk WK WR c

end Cert.Layer0

end
-- ==== Proof.Act.lean ====
import proofs.«418090_j57904749084726_1_alg».proof.KernelIdeal
import proofs.«418090_j57904749084726_1_alg».proof.ReferenceIdeal
import proofs.«418090_j57904749084726_1_alg».proof.Proof.Spec
import Idealize.ShloMosaic.Lib.ValueIdx
import Idealize.ShloMosaic.Lib.ValueLayout
import Idealize.ShloMosaic.Lib.IdealHost
import Idealize.ShloMosaic.PureOps.Ideal.Laws

noncomputable section

namespace Cert.Act

open Idealize.ShloMosaic Idealize.ShloMosaic.ValueIdx

-- The comparison word is one exactly when `0 < x`.
theorem select_ogt_zero (x a b : EReal) : Scalar.select (Ideal.cmp .ogt x 0) a b = if 0 < x then a else b := by
  show Scalar.select (BitVec.ofBool (decide (0 < x))) a b = _
  by_cases h : 0 < x
  · rw [if_pos h, decide_eq_true h]; exact select_one a b
  · rw [if_neg h, decide_eq_false h]; exact select_zero a b

theorem hostExpm1_apply {s : Shape} (x : FVec Ideal s .f32) (i : s.Idx) : Host.expm1 x i = Ideal.exp (x i) - 1 := rfl
theorem hostExp_apply {s : Shape} (x : FVec Ideal s .f32) (i : s.Idx) : Host.exp x i = Ideal.exp (x i) := rfl

theorem div_one' (x : EReal) : Ideal.div x 1 = x := by
  unfold Ideal.div
  rw [if_neg one_ne_zero, inv_one, mul_one]

section K
open Cert.KernelIdeal Cert.KernelIdeal.Facts₀
variable [Cert.KernelIdeal.Facts]

def eluK (y : FVec Ideal S50000x256 .f32) : FVec Ideal S50000x256 .f32 :=
  select (cmpf .ogt y (broadcastInDim S50000x256 ![] bcast_S_S50000x256 (constant (F := Ideal) S_ .f32 0x00000000#32))) y
    (subf (Host.exp y) (broadcastInDim S50000x256 ![] bcast_S_S50000x256 (constant (F := Ideal) S_ .f32 0x3F800000#32)))

theorem eluK_at (y : FVec Ideal S50000x256 .f32) (i : S50000x256.Idx) : eluK y i = Spec.elu (y i) := by
  unfold eluK Spec.elu
  rw [select_apply, cmpf_apply, subf_apply, hostExp_apply, broadcastInDim_scalar_apply, broadcastInDim_scalar_apply, constant_apply,
    constant_apply, Ideal.ofBits_zero_f32, Ideal.ofBits_one_f32, Ideal.cmpf_def, select_ogt_zero]

end K

section R
open Cert.ReferenceIdeal Cert.ReferenceIdeal.Facts₀
variable [Cert.ReferenceIdeal.Facts]

def eluR (y : FVec Ideal S50000x256 .f32) : FVec Ideal S50000x256 .f32 :=
  select (cmpf .ogt y (broadcastInDim S50000x256 ![] bcast_S_S50000x256 (constant (F := Ideal) S_ .f32 0x00000000#32))) y
    (mulf (broadcastInDim S50000x256 ![] bcast_S_S50000x256 (constant (F := Ideal) S_ .f32 0x3F800000#32))
      (Host.expm1
        (select (cmpf .ogt y (broadcastInDim S50000x256 ![] bcast_S_S50000x256 (constant (F := Ideal) S_ .f32 0x00000000#32)))
          (broadcastInDim S50000x256 ![] bcast_S_S50000x256 (id (constant (F := Ideal) S_ .f32 0x00000000#32))) y)))

def headMean (S3 : FVec Ideal S50000x1x40 .f32) : FVec Ideal S50000x40 .f32 :=
  Host.divf (Host.reduceAdd S3 (constant (F := Ideal) S_ .f32 0x00000000#32) reducesTo_S50000x1x40_S50000x40_d1 h_S_)
    (broadcastInDim S50000x40 ![] bcast_S_S50000x40 (constant (F := Ideal) S_ .f32 0x3F800000#32))

theorem eluR_at (y : FVec Ideal S50000x256 .f32) (i : S50000x256.Idx) : eluR y i = Spec.elu (y i) := by
  unfold eluR Spec.elu
  simp only [select_apply, cmpf_apply, mulf_apply, hostExpm1_apply, id_eq, Ideal.cmpf_def]
  rw [broadcastInDim_scalar_apply, broadcastInDim_scalar_apply]
  simp only [constant_apply, Ideal.ofBits_zero_f32, Ideal.ofBits_one_f32, select_ogt_zero, one_mul]
  by_cases h : 0 < y i
  · simp only [if_pos h]
  · simp only [if_neg h]

-- A sum over an axis of extent one has a single term, and dividing by one changes nothing.
theorem headMean_at (S3 : FVec Ideal S50000x1x40 .f32) (n : Fin 50000) (c : Fin 40) : headMean S3 (ix2 n c) = S3 (ix3 n 0 c) := by
  have hR : S50000x1x40.Reduces [1] S50000x40 := by decide
  unfold headMean
  rw [hostDivf_apply, broadcastInDim_scalar_apply, constant_apply, Ideal.ofBits_one_f32, div_one', hostReduceAdd_apply,
    Ideal.hostReduceAdd_single _ hR, constant_apply, Ideal.ofBits_zero_f32, zero_add]
  show ∑ k : Fin 1, S3 (hR.lift (ix2 n c) k) = _
  rw [Fin.sum_univ_one]
  refine congrArg S3 (funext fun a => Fin.ext ?_)
  match a with
  | ⟨0, _⟩ => rfl
  | ⟨1, _⟩ => rfl
  | ⟨2, _⟩ => rfl

end R

end Cert.Act

end
-- ==== Proof.EluRead.lean ====
import proofs.«418090_j57904749084726_1_alg».proof.Proof.KChain
import proofs.«418090_j57904749084726_1_alg».proof.Proof.RChain
import proofs.«418090_j57904749084726_1_alg».proof.Proof.Act
import Idealize.ShloMosaic.PureOps.Ideal

noncomputable section

namespace Cert.EluRead

open Idealize.ShloMosaic Idealize.ShloMosaic.TcCoe Idealize.SL.Sem Idealize.ShloMosaic.StableHlo
open Cert.KernelIdeal.KChain Cert.ReferenceIdeal.RChain Cert.ReferenceIdeal.RefRun

theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

-- Running a line is running its first `n` operations and then the rest.
theorem after_cut {τ : Topo} {sig : RefSig} {Val : EltTy → Type} (n : Nat) (l : List (HloOp τ sig Val)) (V : Valuation τ sig Val) :
    StableHlo.after l V = StableHlo.after (l.drop n) (StableHlo.after (l.take n) V) := by
  rw [← after_append, List.take_append_drop]

section K
open Cert.KernelIdeal Cert.KernelIdeal.Gen

theorem kA0 (W : Valuation τ sig (Elt Ideal)) :
    StableHlo.after hostOps2_1 (StableHlo.after (List.drop 6 hostOps2) W) (Proc.devRef .tc main_v65)
      = Cert.Act.eluK (W (Proc.devRef .tc main_v59)) := by
  simp only [hostOps2, hostOps2_1, List.drop_succ_cons, List.drop_zero]
  after_results
  rfl

theorem kB0 (W : Valuation τ sig (Elt Ideal)) :
    StableHlo.after hostOps2_1 (StableHlo.after (List.drop 6 hostOps2) W) (Proc.devRef .tc main_v59)
      = W (Proc.devRef .tc main_v59) := by
  simp only [hostOps2, hostOps2_1, List.drop_succ_cons, List.drop_zero]
  after_results

end K

theorem k0 (V : Vals Ideal) (c : Dev Cert.KernelIdeal.nD) :
    kseg2a V c (Proc.devRef .tc Cert.KernelIdeal.main_v65)
      = Cert.Act.eluK (kseg2a V c (Proc.devRef .tc Cert.KernelIdeal.main_v59)) := by
  show StableHlo.after Cert.KernelIdeal.Gen.hostOps2_1 (StableHlo.after Cert.KernelIdeal.Gen.hostOps2 (V c)) (Proc.devRef .tc Cert.KernelIdeal.main_v65)
    = Cert.Act.eluK (StableHlo.after Cert.KernelIdeal.Gen.hostOps2_1 (StableHlo.after Cert.KernelIdeal.Gen.hostOps2 (V c)) (Proc.devRef .tc Cert.KernelIdeal.main_v59))
  rw [after_cut 6 Cert.KernelIdeal.Gen.hostOps2 (V c), kA0, kB0]

section R
open Cert.ReferenceIdeal Cert.ReferenceIdeal.Gen

theorem rA0 (W : Valuation τ sig (Elt Ideal)) :
    StableHlo.after (List.drop 10 rops3) W (Proc.devRef .tc main_v93) = Cert.Act.eluR (W (Proc.devRef .tc main_v92)) := by
  simp only [rops3, List.drop_succ_cons, List.drop_zero]
  after_results
  rfl

theorem rB0 (W : Valuation τ sig (Elt Ideal)) :
    StableHlo.after (List.drop 10 rops3) W (Proc.devRef .tc main_v92) = W (Proc.devRef .tc main_v92) := by
  simp only [rops3, List.drop_succ_cons, List.drop_zero]
  after_results

end R

theorem r0 (VR : Valuation Cert.ReferenceIdeal.τ Cert.ReferenceIdeal.sig (Elt Ideal)) :
    StableHlo.after rops3 VR (Proc.devRef .tc Cert.ReferenceIdeal.main_v93)
      = Cert.Act.eluR (StableHlo.after rops3 VR (Proc.devRef .tc Cert.ReferenceIdeal.main_v92)) := by
  rw [after_cut 10 rops3 VR, rA0, rB0]

end Cert.EluRead

end
-- ==== Proof.GatherScatter.lean ====
import proofs.«418090_j57904749084726_1_alg».proof.KernelIdeal
import proofs.«418090_j57904749084726_1_alg».proof.ReferenceIdeal
import proofs.«418090_j57904749084726_1_alg».proof.Proof.Spec
import Idealize.ShloMosaic.Lib.ValueIdx

noncomputable section

namespace Cert.GatherScatter

open Idealize.ShloMosaic Idealize.ShloMosaic.ValueIdx

def rowOf {M w : Nat} (N : Nat) (hN : 0 < N) (idx : IVec ⟨2, ![M, 1]⟩ w) (m : Fin M) : Fin N :=
  ⟨min (idx (ix2 m (0 : Fin 1))).toInt.toNat (N - 1), by omega⟩

-- On the one indexed, collapsed axis a gather reads the start index clamped into the table.
theorem gRow {s t : Shape} {M w : Nat} (d : GatherDims s ⟨2, ![M, 1]⟩ t) (j : t.Idx) (idx : IVec ⟨2, ![M, 1]⟩ w)
    (a : Fin s.rank) (m : Fin M) (hsim : d.startIndexMap = [a]) (hc : d.collapsedSliceDims = [a])
    (hob : d.operandBatchingDims = []) (hm : ∀ c, d.siIdx j c = ix2 m (0 : Fin 1)) :
    d.start j idx a + d.batchCoord j a + d.offCoord j a = min (idx (ix2 m (0 : Fin 1))).toInt.toNat (s.size a - 1) := by
  have ha : a ∈ d.collapsedSliceDims := by rw [hc]; exact List.mem_singleton.mpr rfl
  rw [d.batchCoord_eq_zero j a (by rw [hob]; exact List.not_mem_nil),
    d.offCoord_eq_zero j a (fun h => ((d.mem_sKept a).mp h).1 ha), Nat.add_zero]
  unfold GatherDims.start
  rw [dif_pos (by rw [hsim]; exact List.mem_singleton.mpr rfl), hm, d.slice_collapsed a ha]

-- On every other axis a gather carries the result's coordinate along.
theorem gKept {s si t : Shape} {w : Nat} (d : GatherDims s si t) (j : t.Idx) (idx : IVec si w) (a a0 : Fin s.rank)
    (hsim : d.startIndexMap = [a0]) (hob : d.operandBatchingDims = []) (ha : a ≠ a0) :
    d.start j idx a + d.batchCoord j a + d.offCoord j a = d.offCoord j a := by
  unfold GatherDims.start
  rw [dif_neg (by rw [hsim]; exact fun h => ha (List.mem_singleton.mp h)),
    d.batchCoord_eq_zero j a (by rw [hob]; exact List.not_mem_nil), Nat.zero_add]

variable {N M D H C w : Nat}

abbrev gDims2 {sb ss} (wf : GatherDims.WF ⟨2, ![N, D]⟩ ⟨2, ![M, 1]⟩ ⟨2, ![M, D]⟩ [1] [0] [] [0] sb 1 ss) :
    GatherDims ⟨2, ![N, D]⟩ ⟨2, ![M, 1]⟩ ⟨2, ![M, D]⟩ := ⟨[1], [0], [], sb, [0], 1, ss, wf⟩

abbrev gDims3 {sb ss} (wf : GatherDims.WF ⟨3, ![N, H, C]⟩ ⟨2, ![M, 1]⟩ ⟨3, ![M, H, C]⟩ [1, 2] [0] [] [0] sb 1 ss) :
    GatherDims ⟨3, ![N, H, C]⟩ ⟨2, ![M, 1]⟩ ⟨3, ![M, H, C]⟩ := ⟨[1, 2], [0], [], sb, [0], 1, ss, wf⟩

theorem gather2_apply {α : Type} (hN : 0 < N) {sb ss} (wf : GatherDims.WF ⟨2, ![N, D]⟩ ⟨2, ![M, 1]⟩ ⟨2, ![M, D]⟩ [1] [0] [] [0] sb 1 ss)
    (x : (⟨2, ![N, D]⟩ : Shape).Idx → α) (idx : IVec ⟨2, ![M, 1]⟩ w) (m : Fin M) (j : Fin D) :
    Host.gather (gDims2 wf) x idx (ix2 m j) = x (ix2 (rowOf N hN idx m) j) := by
  unfold Host.gather
  refine congrArg x (funext fun a => Fin.ext ?_)
  match a with
  | ⟨0, _⟩ =>
    exact gRow (gDims2 wf) _ idx 0 m rfl rfl rfl fun c => by
      funext b; match b with | ⟨0, _⟩ => rfl | ⟨1, _⟩ => exact Fin.ext (Nat.lt_one_iff.mp c.isLt)
  | ⟨1, _⟩ => exact gKept (gDims2 wf) _ idx 1 0 rfl rfl (show (1 : Fin 2) ≠ 0 by decide)

theorem gather3_apply {α : Type} (hN : 0 < N) {sb ss}
    (wf : GatherDims.WF ⟨3, ![N, H, C]⟩ ⟨2, ![M, 1]⟩ ⟨3, ![M, H, C]⟩ [1, 2] [0] [] [0] sb 1 ss)
    (x : (⟨3, ![N, H, C]⟩ : Shape).Idx → α) (idx : IVec ⟨2, ![M, 1]⟩ w) (m : Fin M) (h : Fin H) (c : Fin C) :
    Host.gather (gDims3 wf) x idx (ix3 m h c) = x (ix3 (rowOf N hN idx m) h c) := by
  unfold Host.gather
  refine congrArg x (funext fun a => Fin.ext ?_)
  match a with
  | ⟨0, _⟩ =>
    exact gRow (gDims3 wf) _ idx 0 m rfl rfl rfl fun c => by
      funext b; match b with | ⟨0, _⟩ => rfl | ⟨1, _⟩ => exact Fin.ext (Nat.lt_one_iff.mp c.isLt)
  | ⟨1, _⟩ => exact gKept (gDims3 wf) _ idx 1 0 rfl rfl (show (1 : Fin 3) ≠ 0 by decide)
  | ⟨2, _⟩ => exact gKept (gDims3 wf) _ idx 2 0 rfl rfl (show (2 : Fin 3) ≠ 0 by decide)

-- The landing index exists only if every axis stays inside the operand, and is then the axiswise sum.
theorem resultIdx?_eq_some_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i hall
    rw [Option.some.injEq]
    constructor
    · intro he a
      have h1 := congrArg (fun f => (f a).val) he
      simp only at h1
      have := hall a
      omega
    · intro he
      funext a
      refine Fin.ext ?_
      have := he a
      simp only
      omega
  · rename_i hall
    constructor
    · intro he; exact absurd he (by simp)
    · intro he
      exfalso
      apply hall
      intro a
      have := he a
      have := (i a).isLt
      omega

-- On the one indexed, inserted axis an update starts at its scatter index, read signed.
theorem sRow {s u : Shape} (d : ScatterDims s ⟨2, ![M, 1]⟩ u) (j : u.Idx) (idx : IVec ⟨2, ![M, 1]⟩ w)
    (a : Fin s.rank) (m : Fin M) (hsd : d.scatterDimsToOperandDims = [a]) (hiw : d.insertedWindowDims = [a])
    (hm : ∀ c, d.siIdx j c = ix2 m (0 : Fin 1)) :
    d.start j idx a + (d.window j a : Int) = (idx (ix2 m (0 : Fin 1))).toInt := by
  unfold ScatterDims.start ScatterDims.window
  rw [dif_pos (by rw [hsd]; exact List.mem_singleton.mpr rfl),
    dif_neg (by simp [ScatterDims.sKept, Shape.kept, hiw]), hm, Nat.cast_zero, Int.add_zero]

-- On every other axis an update carries its own coordinate along.
theorem sKept {s si u : Shape} (d : ScatterDims s si u) (j : u.Idx) (idx : IVec si w) (a a0 : Fin s.rank)
    (hsd : d.scatterDimsToOperandDims = [a0]) (ha : a ≠ a0) :
    d.start j idx a + (d.window j a : Int) = (d.window j a : Int) := by
  unfold ScatterDims.start
  rw [dif_neg (by rw [hsd]; exact fun h => ha (List.mem_singleton.mp h)), Int.zero_add]

abbrev sDims2 (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ := ⟨[1], [0], [0], 1, wf⟩

abbrev sDims3 (wf : ScatterDims.WF ⟨3, ![N, H, C]⟩ ⟨2, ![M, 1]⟩ ⟨3, ![M, H, C]⟩ [1, 2] [0] [0] 1) :
    ScatterDims ⟨3, ![N, H, C]⟩ ⟨2, ![M, 1]⟩ ⟨3, ![M, H, C]⟩ := ⟨[1, 2], [0], [0], 1, wf⟩

theorem resultIdx2_iff (wf : ScatterDims.WF ⟨2, ![N, D]⟩ ⟨2, ![M, 1]⟩ ⟨2, ![M, D]⟩ [1] [0] [0] 1)
    (idx : IVec ⟨2, ![M, 1]⟩ w) (j : (⟨2, ![M, D]⟩ : Shape).Idx) (n : Fin N) (c : Fin D) :
    (sDims2 wf).resultIdx? j idx = some (ix2 n c)
      ↔ (idx (ix2 (j 0 : Fin M) (0 : Fin 1))).toInt = (n.val : Int) ∧ ix2 (j 0 : Fin M) c = j := by
  rw [resultIdx?_eq_some_iff, Fin.forall_fin_two, sKept (sDims2 wf) j idx 1 0 rfl (show (1 : Fin 2) ≠ 0 by decide),
    sRow (sDims2 wf) j idx 0 (j 0) rfl rfl fun c => by
      funext b; match b with | ⟨0, _⟩ => rfl | ⟨1, _⟩ => exact Fin.ext (Nat.lt_one_iff.mp c.isLt)]
  refine and_congr Iff.rfl ⟨fun h => ?_, fun h => by rw [← h]; rfl⟩
  obtain rfl : j 1 = c := Fin.ext (Nat.cast_inj.mp h)
  exact (eq_ix2 j).symm

theorem resultIdx3_iff (wf : ScatterDims.WF ⟨3, ![N, H, C]⟩ ⟨2, ![M, 1]⟩ ⟨3, ![M, H, C]⟩ [1, 2] [0] [0] 1)
    (idx : IVec ⟨2, ![M, 1]⟩ w) (j : (⟨3, ![M, H, C]⟩ : Shape).Idx) (n : Fin N) (h : Fin H) (c : Fin C) :
    (sDims3 wf).resultIdx? j idx = some (ix3 n h c)
      ↔ (idx (ix2 (j 0 : Fin M) (0 : Fin 1))).toInt = (n.val : Int) ∧ ix3 (j 0 : Fin M) h c = j := by
  rw [resultIdx?_eq_some_iff, Fin.forall_fin_succ, Fin.forall_fin_two,
    sKept (sDims3 wf) j idx (Fin.succ 0) 0 rfl (show (1 : Fin 3) ≠ 0 by decide),
    sKept (sDims3 wf) j idx (Fin.succ 1) 0 rfl (show (2 : Fin 3) ≠ 0 by decide),
    sRow (sDims3 wf) j idx 0 (j 0) rfl rfl fun c => by
      funext b; match b with | ⟨0, _⟩ => rfl | ⟨1, _⟩ => exact Fin.ext (Nat.lt_one_iff.mp c.isLt)]
  refine and_congr Iff.rfl ⟨fun ⟨h1, h2⟩ => ?_, fun h => by rw [← h]; exact ⟨rfl, rfl⟩⟩
  obtain rfl : j 1 = h := Fin.ext (Nat.cast_inj.mp h1)
  obtain rfl : j 2 = c := Fin.ext (Nat.cast_inj.mp h2)
  exact (eq_ix3 j).symm

-- A row scatter re-indexed by update row: the updates landing at `i` are `put m` for the rows `m` whose index is `n`.
theorem scatterRows {s u : Shape} (d : ScatterDims s ⟨2, ![M, 1]⟩ u) (Z : FVec Ideal s .f32) (idx : IVec ⟨2, ![M, 1]⟩ w)
    (U : FVec Ideal u .f32) (i : s.Idx) (n : Int) (row : u.Idx → Fin M) (put : Fin M → u.Idx) (hrow : ∀ m, row (put m) = m)
    (H : ∀ jj, d.resultIdx? jj idx = some i ↔ (idx (ix2 (row jj) (0 : Fin 1))).toInt = n ∧ put (row jj) = jj) :
    Host.scatterAdd d Z idx U i = Z i + ∑ m : Fin M, if (idx (ix2 m (0 : Fin 1))).toInt = n then U (put m) else 0 := by
  show Ideal.hostScatterAdd d Z idx U i = _
  unfold Ideal.hostScatterAdd
  rw [← Finset.sum_filter]
  refine congrArg _ (Finset.sum_nbij' row put ?_ ?_ ?_ ?_ ?_)
  · exact fun jj hjj => Finset.mem_filter.mpr ⟨Finset.mem_univ _, ((H jj).mp (Finset.mem_filter.mp hjj).2).1⟩
  · exact fun m hm => Finset.mem_filter.mpr ⟨Finset.mem_univ _,
      (H (put m)).mpr (by rw [hrow]; exact ⟨(Finset.mem_filter.mp hm).2, rfl⟩)⟩
  · exact fun jj hjj => ((H jj).mp (Finset.mem_filter.mp hjj).2).2
  · exact fun m _ => hrow m
  · exact fun jj hjj => congrArg U ((H jj).mp (Finset.mem_filter.mp hjj).2).2.symm

theorem scatter2_apply (wf : ScatterDims.WF ⟨2, ![N, D]⟩ ⟨2, ![M, 1]⟩ ⟨2, ![M, D]⟩ [1] [0] [0] 1)
    (Z : FVec Ideal ⟨2, ![N, D]⟩ .f32) (idx : IVec ⟨2, ![M, 1]⟩ w) (U : FVec Ideal ⟨2, ![M, D]⟩ .f32) (n : Fin N) (j : Fin D) :
    Host.scatterAdd (sDims2 wf) Z idx U (ix2 n j)
      = Z (ix2 n j) + ∑ m : Fin M, if (idx (ix2 m (0 : Fin 1))).toInt = (n.val : Int) then U (ix2 m j) else 0 :=
  scatterRows (sDims2 wf) Z idx U _ _ (· 0) (ix2 · j) (fun _ => rfl) (resultIdx2_iff wf idx · n j)

theorem scatter3_apply (wf : ScatterDims.WF ⟨3, ![N, H, C]⟩ ⟨2, ![M, 1]⟩ ⟨3, ![M, H, C]⟩ [1, 2] [0] [0] 1)
    (Z : FVec Ideal ⟨3, ![N, H, C]⟩ .f32) (idx : IVec ⟨2, ![M, 1]⟩ w) (U : FVec Ideal ⟨3, ![M, H, C]⟩ .f32)
    (n : Fin N) (h : Fin H) (c : Fin C) :
    Host.scatterAdd (sDims3 wf) Z idx U (ix3 n h c)
      = Z (ix3 n h c) + ∑ m : Fin M, if (idx (ix2 m (0 : Fin 1))).toInt = (n.val : Int) then U (ix3 m h c) else 0 :=
  scatterRows (sDims3 wf) Z idx U _ _ (· 0) (ix3 · h c) (fun _ => rfl) (resultIdx3_iff wf idx · n h c)

section Programs

variable [Cert.KernelIdeal.Facts₀] [Cert.ReferenceIdeal.Facts₀]

theorem gather_flat (idx : IVec Cert.KernelIdeal.S550000x1 32) (hD : 4 * 64 = 256)
    (X2 : FVec Ideal Cert.KernelIdeal.S50000x256 .f32) (X3 : FVec Ideal Cert.ReferenceIdeal.S50000x4x64 .f32)
    (hX : ∀ n h c, X2 (ix2 n (Spec.fl hD h c)) = X3 (ix3 n h c)) (m : Fin 550000) (h : Fin 4) (c : Fin 64) :
    Host.gather Cert.KernelIdeal.gather_S50000x256_S550000x1_S550000x256_1_0_n_n_0_1_1256 X2 idx (ix2 m (Spec.fl hD h c))
      = Host.gather Cert.ReferenceIdeal.gather_S50000x4x64_S550000x1_S550000x4x64_12_0_n_n_0_1_1464 X3 idx (ix3 m h c) :=
  (gather2_apply (by decide) Cert.KernelIdeal.gather_S50000x256_S550000x1_S550000x256_1_0_n_n_0_1_1256.wf X2 idx m _).trans
    ((hX _ h c).trans
      (gather3_apply (by decide) Cert.ReferenceIdeal.gather_S50000x4x64_S550000x1_S550000x4x64_12_0_n_n_0_1_1464.wf X3 idx m h c).symm)

theorem scatter_flat (idx : IVec Cert.KernelIdeal.S550000x1 32) (hD : 4 * 64 = 256)
    (U2 : FVec Ideal Cert.KernelIdeal.S550000x256 .f32) (U3 : FVec Ideal Cert.ReferenceIdeal.S550000x4x64 .f32)
    (hU : ∀ m h c, U2 (ix2 m (Spec.fl hD h c)) = U3 (ix3 m h c))
    (Z2 : FVec Ideal Cert.KernelIdeal.S50000x256 .f32) (Z3 : FVec Ideal Cert.ReferenceIdeal.S50000x4x64 .f32)
    (hZ : ∀ n h c, Z2 (ix2 n (Spec.fl hD h c)) = Z3 (ix3 n h c)) (n : Fin 50000) (h : Fin 4) (c : Fin 64) :
    Host.scatterAdd Cert.KernelIdeal.scatter_S50000x256_S550000x1_S550000x256_1_0_0_1 Z2 idx U2 (ix2 n (Spec.fl hD h c))
      = Host.scatterAdd Cert.ReferenceIdeal.scatter_S50000x4x64_S550000x1_S550000x4x64_12_0_0_1 Z3 idx U3 (ix3 n h c) := by
  refine (scatter2_apply Cert.KernelIdeal.scatter_S50000x256_S550000x1_S550000x256_1_0_0_1.wf Z2 idx U2 n _).trans
    (Eq.trans ?_ (scatter3_apply Cert.ReferenceIdeal.scatter_S50000x4x64_S550000x1_S550000x4x64_12_0_0_1.wf Z3 idx U3 n h c).symm)
  rw [hZ]
  exact congrArg _ (Finset.sum_congr rfl fun m _ => by rw [hU])

theorem gather_flat40 (idx : IVec Cert.KernelIdeal.S550000x1 32)
    (X2 : FVec Ideal Cert.KernelIdeal.S50000x40 .f32) (X3 : FVec Ideal Cert.ReferenceIdeal.S50000x1x40 .f32)
    (hX : ∀ n c, X2 (ix2 n c) = X3 (ix3 n (0 : Fin 1) c)) (m : Fin 550000) (c : Fin 40) :
    Host.gather Cert.KernelIdeal.gather_S50000x40_S550000x1_S550000x40_1_0_n_n_0_1_140 X2 idx (ix2 m c)
      = Host.gather Cert.ReferenceIdeal.gather_S50000x1x40_S550000x1_S550000x1x40_12_0_n_n_0_1_1140 X3 idx (ix3 m (0 : Fin 1) c) :=
  (gather2_apply (by decide) Cert.KernelIdeal.gather_S50000x40_S550000x1_S550000x40_1_0_n_n_0_1_140.wf X2 idx m c).trans
    ((hX _ c).trans
      (gather3_apply (by decide) Cert.ReferenceIdeal.gather_S50000x1x40_S550000x1_S550000x1x40_12_0_n_n_0_1_1140.wf X3 idx m 0 c).symm)

theorem scatter_flat40 (idx : IVec Cert.KernelIdeal.S550000x1 32)
    (U2 : FVec Ideal Cert.KernelIdeal.S550000x40 .f32) (U3 : FVec Ideal Cert.ReferenceIdeal.S550000x1x40 .f32)
    (hU : ∀ m c, U2 (ix2 m c) = U3 (ix3 m (0 : Fin 1) c))
    (Z2 : FVec Ideal Cert.KernelIdeal.S50000x40 .f32) (Z3 : FVec Ideal Cert.ReferenceIdeal.S50000x1x40 .f32)
    (hZ : ∀ n c, Z2 (ix2 n c) = Z3 (ix3 n (0 : Fin 1) c)) (n : Fin 50000) (c : Fin 40) :
    Host.scatterAdd Cert.KernelIdeal.scatter_S50000x40_S550000x1_S550000x40_1_0_0_1 Z2 idx U2 (ix2 n c)
      = Host.scatterAdd Cert.ReferenceIdeal.scatter_S50000x1x40_S550000x1_S550000x1x40_12_0_0_1 Z3 idx U3 (ix3 n (0 : Fin 1) c) := by
  refine (scatter2_apply Cert.KernelIdeal.scatter_S50000x40_S550000x1_S550000x40_1_0_0_1.wf Z2 idx U2 n c).trans
    (Eq.trans ?_ (scatter3_apply Cert.ReferenceIdeal.scatter_S50000x1x40_S550000x1_S550000x1x40_12_0_0_1.wf Z3 idx U3 n 0 c).symm)
  rw [hZ]
  exact congrArg _ (Finset.sum_congr rfl fun m _ => by rw [hU])

end Programs

end Cert.GatherScatter

end
-- ==== Proof.Layer0C.lean ====
import proofs.«418090_j57904749084726_1_alg».proof.Proof.Layer0M
import proofs.«418090_j57904749084726_1_alg».proof.Proof.EluRead
import proofs.«418090_j57904749084726_1_alg».proof.Proof.GatherScatter
import proofs.«418090_j57904749084726_1_alg».proof.Proof.Act

noncomputable section

namespace Cert.Layer0

open Idealize.ShloMosaic Idealize.ShloMosaic.TcCoe Idealize.SL.Sem Idealize.ShloMosaic.ValueIdx
open Cert.KernelIdeal.KChain Cert.ReferenceIdeal.RChain Cert.ReferenceIdeal.RefRun

def kpre (idx : IVec Cert.KernelIdeal.S550000 32) (M2 : FVec Ideal Cert.KernelIdeal.S550912x256 .f32)
    (B : FVec Ideal Cert.KernelIdeal.S50000x256 .f32) : FVec Ideal Cert.KernelIdeal.S50000x256 .f32 :=
  addf
    (Host.scatterAdd Cert.KernelIdeal.scatter_S50000x256_S550000x1_S550000x256_1_0_0_1
      (broadcastInDim Cert.KernelIdeal.S50000x256 ![] Cert.KernelIdeal.Facts₀.bcast_S_S50000x256
        (constant (F := Ideal) Cert.KernelIdeal.S_ .f32 0x00000000#32))
      (broadcastInDim Cert.KernelIdeal.S550000x1 ![0] Cert.KernelIdeal.Facts₀.bcast_S550000_S550000x1_0 idx)
      (extractStridedSlice Cert.KernelIdeal.S550000x256 ![0, 0] M2 Cert.KernelIdeal.Facts₀.slices_S550912x256_S550000x256_0_0))
    B

def rsum (SR : FVec Ideal Cert.ReferenceIdeal.S50000x4x64 .f32) (X : FVec Ideal Cert.ReferenceIdeal.S50000x128 .f32)
    (Bw : FVec Ideal Cert.ReferenceIdeal.S128x256 .f32) (bb : FVec Ideal Cert.ReferenceIdeal.S256 .f32) :
    FVec Ideal Cert.ReferenceIdeal.S50000x256 .f32 :=
  addf
    (addf (shapeCast Cert.ReferenceIdeal.S50000x256 SR Cert.ReferenceIdeal.Facts₀.shapeCasts_S50000x4x64_S50000x256)
      (Host.dotGeneral Cert.ReferenceIdeal.dot_S50000x128_S128x256_S50000x256_1_0_0_1_n_n none X Bw))
    (broadcastInDim Cert.ReferenceIdeal.S50000x256 ![0, 1] Cert.ReferenceIdeal.Facts₀.bcast_S1x256_S50000x256_0_1
      (broadcastInDim Cert.ReferenceIdeal.S1x256 ![1] Cert.ReferenceIdeal.Facts₀.bcast_S256_S1x256_1 bb))

def rpre (idx : IVec Cert.ReferenceIdeal.S550000 32) (M3 : FVec Ideal Cert.ReferenceIdeal.S550000x4x64 .f32)
    (X : FVec Ideal Cert.ReferenceIdeal.S50000x128 .f32) (Bw : FVec Ideal Cert.ReferenceIdeal.S128x256 .f32)
    (bb : FVec Ideal Cert.ReferenceIdeal.S256 .f32) : FVec Ideal Cert.ReferenceIdeal.S50000x256 .f32 :=
  rsum
    (Host.scatterAdd Cert.ReferenceIdeal.scatter_S50000x4x64_S550000x1_S550000x4x64_12_0_0_1
      (broadcastInDim Cert.ReferenceIdeal.S50000x4x64 ![] Cert.ReferenceIdeal.Facts₀.bcast_S_S50000x4x64
        (constant (F := Ideal) Cert.ReferenceIdeal.S_ .f32 0x00000000#32))
      (broadcastInDim Cert.ReferenceIdeal.S550000x1 ![0] Cert.ReferenceIdeal.Facts₀.bcast_S550000_S550000x1_0 idx)
      M3)
    X Bw bb

theorem kside (WK : VKs) (c : Dev Cert.KernelIdeal.nD) :
    kseg2a WK c (Proc.devRef .tc Cert.KernelIdeal.main_v59)
      = kpre (WK c (Proc.devRef .tc Cert.KernelIdeal.main_v29)) (WK c (Proc.devRef .tc Cert.KernelIdeal.main_v54))
          (WK c (Proc.devRef .tc Cert.KernelIdeal.main_v26_1)) := by
  after_results_simp
  rfl

theorem rside (WR : VRs) :
    StableHlo.after rops3 WR (Proc.devRef .tc Cert.ReferenceIdeal.main_v92)
      = rpre (WR (Proc.devRef .tc Cert.ReferenceIdeal.main_v51)) (WR (Proc.devRef .tc Cert.ReferenceIdeal.main_v83))
          (WR (Proc.devRef .tc Cert.ReferenceIdeal.main_arg0)) (WR (Proc.devRef .tc Cert.ReferenceIdeal.main_arg5))
          (WR (Proc.devRef .tc Cert.ReferenceIdeal.main_arg6)) := by
  after_results_simp
  rfl

theorem sum_eq (SK : FVec Ideal Cert.KernelIdeal.S50000x256 .f32) (SR : FVec Ideal Cert.ReferenceIdeal.S50000x4x64 .f32)
    (hS : ∀ (n : Fin 50000) (h : Fin 4) (cc : Fin 64), SK (ix2 n (Spec.fl (by norm_num : 4 * 64 = 256) h cc)) = SR (ix3 n h cc))
    (B : FVec Ideal Cert.KernelIdeal.S50000x256 .f32)
    (X : FVec Ideal Cert.ReferenceIdeal.S50000x128 .f32) (Bw : FVec Ideal Cert.ReferenceIdeal.S128x256 .f32)
    (bb : FVec Ideal Cert.ReferenceIdeal.S256 .f32)
    (hB : ∀ (n : Fin 50000) (j : Fin 256), B (ix2 n j) = Spec.biasLin X Bw (fun j' => bb (ix1 j')) n j)
    (i : Cert.KernelIdeal.S50000x256.Idx) :
    addf SK B i = rsum SR X Bw bb i := by
  obtain ⟨n, j, rfl⟩ : ∃ (n : Fin 50000) (j : Fin 256), i = ix2 n j := ⟨i 0, i 1, eq_ix2 i⟩
  obtain ⟨h, cc, rfl⟩ := Spec.fl_surj (by norm_num : 4 * 64 = 256) (by norm_num) j
  unfold rsum
  rw [addf_apply, addf_apply, addf_apply, Layout.mergeR_at, Cert.ReferenceIdeal.DenseR.dotB0_at,
    Cert.ReferenceIdeal.DenseR.bb0_at, hB, hS]
  show _ + (Spec.dotRow X Bw n _ + bb (ix1 _)) = _
  rw [← add_assoc]

theorem pre_eq (idx : IVec Cert.KernelIdeal.S550000 32)
    (M2 : FVec Ideal Cert.KernelIdeal.S550912x256 .f32) (M3 : FVec Ideal Cert.ReferenceIdeal.S550000x4x64 .f32)
    (hM : ∀ (m : Fin 550000) (h : Fin 4) (cc : Fin 64),
      M2 (ix2 (⟨m.val, lt_of_lt_of_le m.isLt (by norm_num)⟩ : Fin 550912) (Spec.fl (by norm_num : 4 * 64 = 256) h cc))
        = M3 (ix3 m h cc))
    (B : FVec Ideal Cert.KernelIdeal.S50000x256 .f32)
    (X : FVec Ideal Cert.ReferenceIdeal.S50000x128 .f32) (Bw : FVec Ideal Cert.ReferenceIdeal.S128x256 .f32)
    (bb : FVec Ideal Cert.ReferenceIdeal.S256 .f32)
    (hB : ∀ (n : Fin 50000) (j : Fin 256), B (ix2 n j) = Spec.biasLin X Bw (fun j' => bb (ix1 j')) n j)
    (i : Cert.KernelIdeal.S50000x256.Idx) :
    kpre idx M2 B i = rpre idx M3 X Bw bb i :=
  sum_eq _ _
    (fun n h cc => GatherScatter.scatter_flat _ (by norm_num : 4 * 64 = 256) _ M3
      (fun m h c => (Layout.sliceK256_at M2 m _ _).trans (hM m h c)) _ _
      (fun n h c => (Layout.zerosK256_at _).trans (Layout.zerosR4x64_at _).symm) n h cc)
    B X Bw bb hB i

theorem stepB2 (WK : VKs) (WR : VRs) (c : Dev Cert.KernelIdeal.nD) (hm2 : Mid2 WK WR c) :
    kseg2a WK c (Proc.devRef .tc Cert.KernelIdeal.main_v65)
      = StableHlo.after rops3 WR (Proc.devRef .tc Cert.ReferenceIdeal.main_v93) := by
  obtain ⟨hM, hI, hB⟩ := hm2
  rw [Cert.EluRead.k0, Cert.EluRead.r0, kside, rside, hI]
  funext i
  rw [Act.eluK_at]
  refine Eq.trans ?_ (Act.eluR_at _ i).symm
  exact congrArg Spec.elu (pre_eq _ _ _ hM _ _ _ _ hB i)

end Cert.Layer0

end
-- ==== Proof.EdgeLib.lean ====
import proofs.«418090_j57904749084726_1_alg».proof.Proof.Spec
import Idealize.ShloMosaic.Lib.Pipeline.Value
import Idealize.ShloMosaic.PureOps.Ideal.Laws

noncomputable section

namespace Cert.Edge

open Idealize.ShloMosaic Idealize.ShloMosaic.ValueIdx

variable {R K D M : Nat} (hr : (⟨2, ![R, K]⟩ : Shape).Reduces [1] ⟨1, ![R]⟩) (hc : (⟨1, ![R]⟩ : Shape).ShapeCasts ⟨2, ![R, 1]⟩)
  (hb : (⟨2, ![R, 1]⟩ : Shape).Broadcasts ⟨2, ![R, D]⟩)

/-- The dot product of each row of `a` with the same row of `b`, kept as a one-column array. -/
def rowDot (a b : Spec.A2 R K) : Spec.A2 R 1 :=
  shapeCast _ (multiReduction .add [1] _ (mulf a b) 0x00000000#32 hr (.inl rfl) rfl) hc

/-- Reshaping to one column keeps the row; the reduction over axis 1 at row `p` sums that row's `K` entries. -/
theorem rowDot_apply (a b : Spec.A2 R K) (p : Fin R) :
    rowDot hr hc a b (ix2 p (0 : Fin 1)) = ∑ k : Fin K, a (ix2 p k) * b (ix2 p k) := by
  refine (shapeCast_apply _ hc (ix2 p (0 : Fin 1)) (ix1 p) ?_).trans ?_
  · rw [Shape.rowMajor_val_one, Shape.rowMajor_val_two]
    show p.val = p.val * 1 + 0
    omega
  refine (Ideal.multiReduction_add_single _ _ hr _ _ (ix1 p)).trans ?_
  refine Finset.sum_congr rfl fun k _ => congrArg (mulf a b) ?_
  funext x
  apply Fin.ext
  match x with
  | ⟨0, _⟩ => rfl
  | ⟨1, _⟩ => rfl

/-- Lets a weight computed once per row be read at every column of that row. -/
theorem col_spread (v : Spec.A2 R 1) (p : Fin R) (q : Fin D) :
    broadcastTo ⟨2, ![R, D]⟩ v hb (ix2 p q) = v (ix2 p (0 : Fin 1)) := by
  refine broadcastTo_apply v hb (ix2 p q) (ix2 p (0 : Fin 1)) fun x => ?_
  match x with
  | ⟨0, _⟩ =>
    show p.val = if R = 1 then 0 else p.val
    split
    · have := p.isLt; omega
    · rfl
  | ⟨1, _⟩ => rfl

/-- Each row of `x2` times the cosine of the same rows of `x0` and `x1`, as the region's body computes it. -/
def body (x0 x1 : Spec.A2 R K) (x2 : Spec.A2 R D) : Spec.A2 R D :=
  mulf x2 (broadcastTo _ (divf (rowDot hr hc x0 x1)
    (maximumf (mulf (sqrt (rowDot hr hc x0 x0)) (sqrt (rowDot hr hc x1 x1))) (broadcast _ (Scalar.ofBits .f32 0x322BCC77#32)))) hb)

/-- The cosine weight reads one row only, so a block's rows may be replaced by the rows of the arrays they are cut from. -/
theorem body_of_blocks (b0 b1 : Spec.A2 R K) (b2 : Spec.A2 R D) (A C : Spec.A2 M K) (X : Spec.A2 M D)
    (y : (⟨2, ![R, D]⟩ : Shape).Idx) (i : (⟨2, ![M, D]⟩ : Shape).Idx)
    (h0 : ∀ k, b0 (ix2 (y 0) k) = A (ix2 (i 0) k)) (h1 : ∀ k, b1 (ix2 (y 0) k) = C (ix2 (i 0) k)) (h2 : b2 y = X i) :
    body hr hc hb b0 b1 b2 y = X i * Spec.alpha Spec.epsCos A C (i 0) := by
  obtain ⟨p, q, rfl⟩ : ∃ (p : Fin R) (q : Fin D), y = ix2 p q := ⟨y 0, y 1, eq_ix2 y⟩
  rw [← h2, ← Spec.alpha_congr Spec.epsCos b0 b1 A C p (i 0) h0 h1]
  refine congrArg (fun z => b2 (ix2 p q) * z) ((col_spread hb _ p q).trans ?_)
  show Ideal.div (rowDot hr hc b0 b1 (ix2 p (0 : Fin 1)))
      (max (Ideal.sqrt (rowDot hr hc b0 b0 (ix2 p (0 : Fin 1))) * Ideal.sqrt (rowDot hr hc b1 b1 (ix2 p (0 : Fin 1)))) _) = _
  rw [rowDot_apply, rowDot_apply, rowDot_apply]
  rfl

/-- Division with remainder on the row axis, `n / s * s ≤ n < n / s * s + s`; the column axis is not cut. -/
theorem mem_rowBlock {n sz idx : Fin 2 → Nat} (i : (a : Fin 2) → Fin (n a)) (h0 : idx 0 = (i 0).val / sz 0) (h1 : idx 1 = 0)
    (hp : 0 < sz 0) (hq : (i 1).val < sz 1) (a : Fin 2) : idx a * sz a ≤ (i a).val ∧ (i a).val < idx a * sz a + sz a := by
  match a with
  | ⟨0, _⟩ =>
    show idx 0 * sz 0 ≤ (i 0).val ∧ (i 0).val < idx 0 * sz 0 + sz 0
    rw [h0]
    exact ⟨Nat.div_mul_le_self _ _, Nat.lt_div_mul_add hp⟩
  | ⟨1, _⟩ =>
    show idx 1 * sz 1 ≤ (i 1).val ∧ (i 1).val < idx 1 * sz 1 + sz 1
    rw [h1, Nat.zero_mul, Nat.zero_add]
    exact ⟨Nat.zero_le _, hq⟩

/-- The column of an entry of a full-width block: offset 0, stride 1. -/
theorem col_val (K k : Nat) : 0 * K + 1 * k = k := by omega

theorem hz : (![0, 0] : Fin 2 → Nat) = fun _ => 0 := funext fun a => by fin_cases a <;> rfl

end Cert.Edge

end
-- ==== Proof.EdgeK1.lean ====
import proofs.«418090_j57904749084726_1_alg».proof.Proof.Gen.KernelIdeal.Frame
import proofs.«418090_j57904749084726_1_alg».proof.Proof.EdgeLib

noncomputable section

namespace Cert.KernelIdeal.EdgeK1

open Cert.KernelIdeal.Gen Idealize.ShloMosaic Idealize.ShloMosaic.TcCoe Idealize.ShloMosaic.ValueIdx

/-- The region's stored value is the shared body at this region's widths. -/
theorem pay_eq (x0 x1 : Vec Ideal S2048x128 .f32) (x2 : Vec Ideal S2048x256 .f32) :
    k1_pay1 x0 x1 x2
      = Edge.body reduces_S2048x128_S2048 shapeCasts_S2048_S2048x1 broadcasts_S2048x1_S2048x256 x0 x1 x2 := by
  unfold k1_pay1
  simp only [shapeCast_self]
  rfl

/-- Checked at each of the 269 grid points. -/
theorem idx_row : ∀ t : Fin cfg1.N, win1_3.index t (0 : Fin 2) = t.val :=
  (by decide +kernel : ∀ t : Fin grid1.N, _)

/-- 269 blocks of 2048 rows are all 550912 rows: an index lies in the block of the grid point its row falls in. -/
theorem cover (i : S550912x256.Idx) :
    ∃ t : Fin cfg1.N, (cfg1.win 3).flush t = true ∧ i ∈ ((cfg1.win 3).blk t).view.set := by
  have ht : (i 0).val / 2048 < cfg1.N := Nat.div_lt_of_lt_mul (i 0).isLt
  refine ⟨⟨_, ht⟩, flush1_3 _, ?_⟩
  show i ∈ ((View.whole main_v54).slice (win1_3.rect ⟨_, ht⟩)).set
  rw [View.set_slice_whole, Rect.mem_set_unit]
  exact Edge.mem_rowBlock (sz := S2048x256.size) i (idx_row ⟨_, ht⟩) rfl (by decide) (i 1).isLt

variable (V : (c : Dev nD) → (b : Ref sig .tc) → Buf (Elt Ideal) ((c : Thread nD τ).loc b)) (c : Dev nD)

abbrev muS : Spec.A2 550912 128 := V c main_v51
abbrev muD : Spec.A2 550912 128 := V c main_v52
abbrev xs : Spec.A2 550912 256 := V c main_v53
abbrev msg : Spec.A2 550912 256 := (Gen.dat1 (F := Ideal) V c).arrAt 3 cfg1.N

abbrev G : Spec.A2 550912 256 := fun i => xs V c i * Spec.alpha Spec.epsCos (muS V c) (muD V c) (i 0)

/-- The four blocks at point `t` are the same 2048 rows at full width, so the body's value at a block entry is `G` at the array's entry. -/
theorem flushed_eq (t : Fin cfg1.N) :
    (dat1 (F := Ideal) V c).flushed 3 t = ((cfg1.win 3).blk t).view.read (Elt Ideal) (G V c) := by
  show (cfg1.win 3).cut (grid1.coords t) ((dat1 (F := Ideal) V c).after 3 t) = _
  rw [after1_3]
  unfold out1_3
  rw [View.canon_unit_zero Edge.hz, pay_eq]
  simp only [View.ld_unit_zero (S := S2048x128) Edge.hz, View.ld_unit_zero (S := S2048x256) Edge.hz]
  funext y
  exact Edge.body_of_blocks _ _ _ (iblk1 V c 0 t) (iblk1 V c 1 t) (iblk1 V c 2 t) (muS V c) (muD V c) (xs V c) y
    (((cfg1.win 3).blk t).view.emb y)
    (fun k => congrArg (muS V c) (Shape.idx_ext₂ rfl (Edge.col_val 128 k.val)))
    (fun k => congrArg (muD V c) (Shape.idx_ext₂ rfl (Edge.col_val 128 k.val))) rfl

theorem msg_at (m : Fin 550912) (j : Fin 256) :
    msg V c (ix2 m j) = xs V c (ix2 m j) * Spec.alpha Spec.epsCos (muS V c) (muD V c) m :=
  congrFun ((dat1 (F := Ideal) V c).arrAt_eq_of_cover 3 (G V c) (fun t _ => flushed_eq V c t) cover) (ix2 m j)

end Cert.KernelIdeal.EdgeK1

end
-- ==== Proof.EdgeR.lean ====
import proofs.«418090_j57904749084726_1_alg».proof.ReferenceIdeal
import proofs.«418090_j57904749084726_1_alg».proof.Proof.Spec
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.EdgeR

open Idealize.ShloMosaic Idealize.ShloMosaic.ValueIdx
open Cert.ReferenceIdeal Cert.ReferenceIdeal.Facts₀

variable [Facts]

theorem rowSum_at {M K : Nat} (h' : (⟨2, ![M, K]⟩ : Shape).ReducesTo [1] ⟨1, ![M]⟩)
    (h : (⟨2, ![M, K]⟩ : Shape).Reduces [1] ⟨1, ![M]⟩) (hu : 0 < (⟨0, ![]⟩ : Shape).numel)
    (x : FVec Ideal ⟨2, ![M, K]⟩ .f32) (m : Fin M) :
    Host.reduceAdd x (constant (F := Ideal) ⟨0, ![]⟩ .f32 0x00000000#32) h' hu (ix1 m) = ∑ k : Fin K, x (ix2 m k) := by
  rw [hostReduceAdd_apply, Ideal.hostReduceAdd_single h' h, constant_apply, Ideal.ofBits_zero_f32, zero_add]
  refine Finset.sum_congr rfl fun k _ => congrArg x ?_
  funext a
  apply Fin.ext
  match a with
  | ⟨0, _⟩ => rfl
  | ⟨1, _⟩ => rfl

def norm128 (x : FVec Ideal S550000x128 .f32) : FVec Ideal S550000 .f32 :=
  Host.sqrt (Host.reduceAdd (mulf x x) (constant (F := Ideal) S_ .f32 0x00000000#32) reducesTo_S550000x128_S550000_d1 h_S_)

def norm256 (x : FVec Ideal S550000x256 .f32) : FVec Ideal S550000 .f32 :=
  Host.sqrt (Host.reduceAdd (mulf x x) (constant (F := Ideal) S_ .f32 0x00000000#32) reducesTo_S550000x256_S550000_d1 h_S_)

def alpha0 (A C : FVec Ideal S550000x128 .f32) : FVec Ideal S550000 .f32 :=
  Host.divf
    (Host.reduceAdd (mulf A C) (constant (F := Ideal) S_ .f32 0x00000000#32) reducesTo_S550000x128_S550000_d1 h_S_)
    (maximumf (mulf (norm128 A) (norm128 C))
      (broadcastInDim S550000 ![] bcast_S_S550000 (constant (F := Ideal) S_ .f32 0x322BCC77#32)))

def alpha1 (A C : FVec Ideal S550000x256 .f32) : FVec Ideal S550000 .f32 :=
  Host.divf
    (Host.reduceAdd (mulf A C) (constant (F := Ideal) S_ .f32 0x00000000#32) reducesTo_S550000x256_S550000_d1 h_S_)
    (maximumf (mulf (norm256 A) (norm256 C))
      (broadcastInDim S550000 ![] bcast_S_S550000 (constant (F := Ideal) S_ .f32 0x322BCC77#32)))

def alpha2 (A C : FVec Ideal S550000x256 .f32) : FVec Ideal S550000 .f32 := alpha1 A C

def msg0 (XS : FVec Ideal S550000x4x64 .f32) (al : FVec Ideal S550000 .f32) : FVec Ideal S550000x4x64 .f32 :=
  mulf XS (broadcastInDim S550000x4x64 ![0, 1, 2] bcast_S550000x1x1_S550000x4x64_0_1_2
    (broadcastInDim S550000x1x1 ![0] bcast_S550000_S550000x1x1_0 al))

def msg1 (XS : FVec Ideal S550000x4x64 .f32) (al : FVec Ideal S550000 .f32) : FVec Ideal S550000x4x64 .f32 := msg0 XS al

def msg2 (XS : FVec Ideal S550000x1x40 .f32) (al : FVec Ideal S550000 .f32) : FVec Ideal S550000x1x40 .f32 :=
  mulf XS (broadcastInDim S550000x1x40 ![0, 1, 2] bcast_S550000x1x1_S550000x1x40_0_1_2
    (broadcastInDim S550000x1x1 ![0] bcast_S550000_S550000x1x1_0 al))

theorem hostSqrt_apply {s : Shape} (x : FVec Ideal s .f32) (i : s.Idx) : Host.sqrt x i = Ideal.sqrt (x i) := rfl

theorem norm128_at (x : FVec Ideal S550000x128 .f32) (m : Fin 550000) :
    norm128 x (ix1 m) = Ideal.sqrt (∑ k : Fin 128, x (ix2 m k) * x (ix2 m k)) := by
  unfold norm128
  rw [hostSqrt_apply, rowSum_at reducesTo_S550000x128_S550000_d1 (by decide) h_S_]
  simp only [mulf_apply]

theorem norm256_at (x : FVec Ideal S550000x256 .f32) (m : Fin 550000) :
    norm256 x (ix1 m) = Ideal.sqrt (∑ k : Fin 256, x (ix2 m k) * x (ix2 m k)) := by
  unfold norm256
  rw [hostSqrt_apply, rowSum_at reducesTo_S550000x256_S550000_d1 (by decide) h_S_]
  simp only [mulf_apply]

theorem alpha0_at (A C : FVec Ideal S550000x128 .f32) (m : Fin 550000) :
    alpha0 A C (ix1 m) = Spec.alpha Spec.epsCos A C m := by
  unfold alpha0 Spec.alpha Spec.epsCos
  rw [hostDivf_apply, maximumf_apply, mulf_apply, norm128_at, norm128_at, broadcastInDim_scalar_apply, constant_apply,
    rowSum_at reducesTo_S550000x128_S550000_d1 (by decide) h_S_]
  simp only [mulf_apply]

theorem alpha1_at (A C : FVec Ideal S550000x256 .f32) (m : Fin 550000) :
    alpha1 A C (ix1 m) = Spec.alpha Spec.epsCos A C m := by
  unfold alpha1 Spec.alpha Spec.epsCos
  rw [hostDivf_apply, maximumf_apply, mulf_apply, norm256_at, norm256_at, broadcastInDim_scalar_apply, constant_apply,
    rowSum_at reducesTo_S550000x256_S550000_d1 (by decide) h_S_]
  simp only [mulf_apply]

theorem alpha2_at (A C : FVec Ideal S550000x256 .f32) (m : Fin 550000) :
    alpha2 A C (ix1 m) = Spec.alpha Spec.epsCos A C m := alpha1_at A C m

theorem bcast3_at {H C : Nat} (h1 : (⟨1, ![550000]⟩ : Shape).BroadcastsInDim ⟨3, ![550000, 1, 1]⟩ ![0])
    (h2 : (⟨3, ![550000, 1, 1]⟩ : Shape).BroadcastsInDim ⟨3, ![550000, H, C]⟩ ![0, 1, 2])
    (al : FVec Ideal ⟨1, ![550000]⟩ .f32) (m : Fin 550000) (h : Fin H) (c : Fin C) :
    broadcastInDim (⟨3, ![550000, H, C]⟩ : Shape) ![0, 1, 2] h2 (broadcastInDim (⟨3, ![550000, 1, 1]⟩ : Shape) ![0] h1 al) (ix3 m h c)
      = al (ix1 m) := by
  rw [broadcastInDim_apply ![0, 1, 2] h2 _ (ix3 m h c) (ix3 m 0 0) (fun a => by
        match a with
        | ⟨0, _⟩ => rfl
        | ⟨1, _⟩ => rfl
        | ⟨2, _⟩ => rfl),
    broadcastInDim_apply ![0] h1 al (ix3 m 0 0) (ix1 m) (fun a => by
        match a with
        | ⟨0, _⟩ => rfl)]

theorem msg0_at (XS : FVec Ideal S550000x4x64 .f32) (al : FVec Ideal S550000 .f32) (m : Fin 550000) (h : Fin 4) (c : Fin 64) :
    msg0 XS al (ix3 m h c) = XS (ix3 m h c) * al (ix1 m) := by
  unfold msg0
  rw [mulf_apply, bcast3_at]

theorem msg1_at (XS : FVec Ideal S550000x4x64 .f32) (al : FVec Ideal S550000 .f32) (m : Fin 550000) (h : Fin 4) (c : Fin 64) :
    msg1 XS al (ix3 m h c) = XS (ix3 m h c) * al (ix1 m) := msg0_at XS al m h c

theorem msg2_at (XS : FVec Ideal S550000x1x40 .f32) (al : FVec Ideal S550000 .f32) (m : Fin 550000) (h : Fin 1) (c : Fin 40) :
    msg2 XS al (ix3 m h c) = XS (ix3 m h c) * al (ix1 m) := by
  unfold msg2
  rw [mulf_apply, bcast3_at]

end Cert.ReferenceIdeal.EdgeR

end
-- ==== Proof.Layer0.lean ====
import proofs.«418090_j57904749084726_1_alg».proof.Proof.Layer0C
import proofs.«418090_j57904749084726_1_alg».proof.Proof.Kept
import proofs.«418090_j57904749084726_1_alg».proof.Proof.EdgeK1
import proofs.«418090_j57904749084726_1_alg».proof.Proof.EdgeR

noncomputable section

namespace Cert.Layer0

open Idealize.ShloMosaic Idealize.ShloMosaic.TcCoe Idealize.SL.Sem Idealize.ShloMosaic.ValueIdx
open Cert.KernelIdeal.KChain Cert.ReferenceIdeal.RChain Cert.ReferenceIdeal.RefRun

section K
open Cert.KernelIdeal Cert.KernelIdeal.Facts₀

def withLoops (v : IVec S500000 32) : IVec S550000 32 :=
  concatenate S550000 0 [⟨S500000, v⟩, ⟨S50000, iotaInDim S50000 32 0⟩] concatenates_S500000_S50000_S550000_d0

def colOf (v : IVec S500000 32) : IVec S550000x1 32 :=
  broadcastInDim S550000x1 ![0] bcast_S550000_S550000x1_0
    (select
      (cmpi CmpIPredicate.slt (withLoops v)
        (broadcastInDim S550000 ![] bcast_S_S550000 (constantI S_ 32 0#32)))
      (addi (withLoops v)
        (broadcastInDim S550000 ![] bcast_S_S550000 (constantI S_ 32 50000#32))) (withLoops v))

theorem k_xs_at (UK : VKs) (c : Dev nD) (m : Fin 550000) (j : Fin 256) (hm : m.val < 550912) :
    (kseg1 UK c (Proc.devRef .tc main_v53) : Spec.A2 550912 256) (ix2 (⟨m.val, hm⟩ : Fin 550912) j)
      = Host.gather gather_S50000x256_S550000x1_S550000x256_1_0_n_n_0_1_1256 (UK c (Proc.devRef .tc main_v26_0))
          (colOf (UK c (Proc.devRef .tc main_v1))) (ix2 m j) := by
  after_results_simp
  exact Cert.Layout.padK256_at _ _ m j hm

theorem k_muS_at (UK : VKs) (c : Dev nD) (m : Fin 550000) (k : Fin 128) (hm : m.val < 550912) :
    (kseg1 UK c (Proc.devRef .tc main_v51) : Spec.A2 550912 128) (ix2 (⟨m.val, hm⟩ : Fin 550912) k)
      = Host.gather gather_S50000x128_S550000x1_S550000x128_1_0_n_n_0_1_1128 (UK c (Proc.devRef .tc main_v22))
          (colOf (UK c (Proc.devRef .tc main_v1))) (ix2 m k) := by
  after_results_simp
  exact Cert.Layout.padK128_at _ _ m k hm

theorem k_muD_at (UK : VKs) (c : Dev nD) (m : Fin 550000) (k : Fin 128) (hm : m.val < 550912) :
    (kseg1 UK c (Proc.devRef .tc main_v52) : Spec.A2 550912 128) (ix2 (⟨m.val, hm⟩ : Fin 550912) k)
      = Host.gather gather_S50000x128_S550000x1_S550000x128_1_0_n_n_0_1_1128 (UK c (Proc.devRef .tc main_v22))
          (colOf (UK c (Proc.devRef .tc main_v3))) (ix2 m k) := by
  after_results_simp
  exact Cert.Layout.padK128_at _ _ m k hm

theorem k_d2 (UK : VKs) (c : Dev nD) :
    kseg1 UK c (Proc.devRef .tc main_v29) = withLoops (UK c (Proc.devRef .tc main_v3)) := by
  after_results_simp
  rfl

theorem k_bias (UK : VKs) (c : Dev nD) :
    kseg1 UK c (Proc.devRef .tc main_v26_1) = UK c (Proc.devRef .tc main_v26_1) := by
  after_results_simp

end K

section R
open Cert.ReferenceIdeal Cert.ReferenceIdeal.Facts₀

set_option maxHeartbeats 4000000 in

theorem r_msg (UR : VRs) :
    StableHlo.after rops2 UR (Proc.devRef .tc main_v83)
      = Cert.ReferenceIdeal.EdgeR.msg0
          (Host.gather gather_S50000x4x64_S550000x1_S550000x4x64_12_0_n_n_0_1_1464 (UR (Proc.devRef .tc main_v48))
            (colOf (UR (Proc.devRef .tc main_v1))))
          (Cert.ReferenceIdeal.EdgeR.alpha0
            (Host.gather gather_S50000x128_S550000x1_S550000x128_1_0_n_n_0_1_1128 (UR (Proc.devRef .tc main_v22))
              (colOf (UR (Proc.devRef .tc main_v1))))
            (Host.gather gather_S50000x128_S550000x1_S550000x128_1_0_n_n_0_1_1128 (UR (Proc.devRef .tc main_v22))
              (colOf (UR (Proc.devRef .tc main_v3))))) := by
  after_results_simp
  rfl

theorem r_d2 (UR : VRs) :
    StableHlo.after rops2 UR (Proc.devRef .tc main_v51) = withLoops (UR (Proc.devRef .tc main_v3)) := by
  after_results_simp
  rfl

end R

theorem stepB1 (UK : VKs) (UR : VRs) (c : Dev Cert.KernelIdeal.nD) (hm : Mid UK UR c) :
    Mid2 (kreg1 (kseg1 UK)) (StableHlo.after rops2 UR) c := by
  obtain ⟨hmu, hs, hd, hX, hB⟩ := hm
  refine ⟨?_, ?_, ?_⟩
  · intro m h cc
    have hm' : m.val < 550912 := lt_of_lt_of_le m.isLt (by norm_num)
    have e54 : kreg1 (kseg1 UK) c (Proc.devRef .tc Cert.KernelIdeal.main_v54)
        = Cert.KernelIdeal.EdgeK1.msg (fun c b => kseg1 UK c b) c := kreg1_arr (kseg1 UK) c 3
    rw [e54, Cert.KernelIdeal.EdgeK1.msg_at, r_msg, Cert.ReferenceIdeal.EdgeR.msg0_at, Cert.ReferenceIdeal.EdgeR.alpha0_at]
    refine congrArg₂ (· * ·) ?_ ?_
    · refine (k_xs_at UK c m _ hm').trans ?_
      rw [hs]
      exact Cert.GatherScatter.gather_flat _ _ _ _ hX m h cc
    · refine Spec.alpha_congr _ _ _ _ _ _ _ (fun k => ?_) (fun k => ?_)
      · refine (k_muS_at UK c m k hm').trans ?_
        rw [hmu, hs]
        rfl
      · refine (k_muD_at UK c m k hm').trans ?_
        rw [hmu, hd]
        rfl
  · rw [kreg1_of_ne (kseg1 UK) c Cert.KernelIdeal.main_v29 (by decide), k_d2, r_d2, hd]
  · intro n j
    rw [kreg1_of_ne (kseg1 UK) c Cert.KernelIdeal.main_v26_1 (by decide), k_bias,
      kept_of_forall rops2_keep UR (r := Cert.ReferenceIdeal.main_arg0) (by decide),
      kept_of_forall rops2_keep UR (r := Cert.ReferenceIdeal.main_arg5) (by decide),
      kept_of_forall rops2_keep UR (r := Cert.ReferenceIdeal.main_arg6) (by decide)]
    exact hB n j

theorem layer0 (VK : VKs) (VR : VRs) (c : Dev Cert.KernelIdeal.nD)
    (h0 : VK c (Proc.devRef .tc Cert.KernelIdeal.main_arg0) = VR (Proc.devRef .tc Cert.ReferenceIdeal.main_arg0))
    (h1 : VK c (Proc.devRef .tc Cert.KernelIdeal.main_arg1) = VR (Proc.devRef .tc Cert.ReferenceIdeal.main_arg1))
    (h2 : VK c (Proc.devRef .tc Cert.KernelIdeal.main_arg2) = VR (Proc.devRef .tc Cert.ReferenceIdeal.main_arg2))
    (h3 : VK c (Proc.devRef .tc Cert.KernelIdeal.main_arg3) = VR (Proc.devRef .tc Cert.ReferenceIdeal.main_arg3))
    (h4 : VK c (Proc.devRef .tc Cert.KernelIdeal.main_arg4) = VR (Proc.devRef .tc Cert.ReferenceIdeal.main_arg4))
    (h5 : VK c (Proc.devRef .tc Cert.KernelIdeal.main_arg5) = VR (Proc.devRef .tc Cert.ReferenceIdeal.main_arg5))
    (h6 : VK c (Proc.devRef .tc Cert.KernelIdeal.main_arg6) = VR (Proc.devRef .tc Cert.ReferenceIdeal.main_arg6)) :
    KL0 VK c (Proc.devRef .tc Cert.KernelIdeal.main_v65) = RL0 VR (Proc.devRef .tc Cert.ReferenceIdeal.main_v93)
    ∧ KL0 VK c (Proc.devRef .tc Cert.KernelIdeal.main_v1) = RL0 VR (Proc.devRef .tc Cert.ReferenceIdeal.main_v1)
    ∧ KL0 VK c (Proc.devRef .tc Cert.KernelIdeal.main_v3) = RL0 VR (Proc.devRef .tc Cert.ReferenceIdeal.main_v3) :=
  ⟨stepB2 _ _ c (stepB1 _ _ c (stepA VK VR c h0 h1 h2 h3 h4 h5 h6)), Cert.Kept.src0 VK VR c h1, Cert.Kept.dst0 VK VR c h1⟩

end Cert.Layer0

end
-- ==== Proof.DenseK2.lean ====
import proofs.«418090_j57904749084726_1_alg».proof.Proof.Gen.KernelIdeal.Frame
import proofs.«418090_j57904749084726_1_alg».proof.Proof.Spec
import proofs.«418090_j57904749084726_1_alg».proof.Proof.DenseLib
import Idealize.ShloMosaic.Lib.Pipeline.Value
import Idealize.ShloMosaic.Lib.ValueLayout
import Idealize.ShloMosaic.PureOps.Ideal.Laws

noncomputable section

namespace Cert.KernelIdeal.DenseK2

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.DenseLib

theorem pay4_at (v0 : Vec Ideal S2000x256 .f32) (v2 : Vec Ideal S256x256 .f32) (r : Fin 2000) (j : Fin 256) :
    k2_pay4 v0 v2 (ix2 r j) = ∑ k : Fin 256, v0 (ix2 r k) * v2 (ix2 k j) := by
  unfold k2_pay4 k2_pay3
  simp only [shapeCast_self]
  exact (mm_at dot_S2000x256_S256x256_S2000x256_1_0_0_1_n_n_wf _ _ r j).trans rfl

theorem pay5_eq (v5 : Vec Ideal S1x64 .f32) : k2_pay5 v5 = v5 := shapeCast_self _ _
theorem pay6_eq (v7 : Vec Ideal S1x64 .f32) : k2_pay6 v7 = v7 := shapeCast_self _ _

theorem hz : (![0, 0] : Fin 2 → Nat) = fun _ => 0 := funext fun a => by fin_cases a <;> rfl

-- Each of the four stored slabs is one head's normalised slice, so together they are the block's normalised projection.
theorem out6_eq (x0 : Vec Ideal S2000x256 .f32) (x1 : Vec Ideal S256x256 .f32) (x2 x3 : Vec Ideal S1x64 .f32)
    (x4 : Vec Ideal S256x256 .f32) (x5 : Vec Ideal S1x256 .f32) (y : S2000x256.Idx) :
    out2_6 x0 x1 x2 x3 x4 x5 y = xllnArr x0 x1 x2 x3 y := by
  unfold out2_6
  simp only [View.ld_unit_zero (S := S2000x256) hz, View.ld_unit_zero (S := S256x256) hz, View.ld_unit_zero (S := S1x64) hz]
  refine (View.canon_apply_of_pieces (Val := Elt Ideal) (S := S2000x256) (e := .f32) (xllnArr x0 x1 (k2_pay5 x2) (k2_pay6 x3)) _ ?_ y
    (cover2_6 _ _ _ _ y)).trans (by rw [pay5_eq, pay6_eq])
  intro p hp x
  simp only [List.mem_cons, List.not_mem_nil, or_false] at hp
  rcases hp with rfl | rfl | rfl | rfl
  · exact piece_at x0 x1 _ _ _ (pay4_at x0 x1) 192 3 rfl slices_S2000x256_o0_192_S2000x64 inb_S2000x256_S2000x64_0_192 _ _ _ _ x
  · exact piece_at x0 x1 _ _ _ (pay4_at x0 x1) 128 2 rfl slices_S2000x256_o0_128_S2000x64 inb_S2000x256_S2000x64_0_128 _ _ _ _ x
  · exact piece_at x0 x1 _ _ _ (pay4_at x0 x1) 64 1 rfl slices_S2000x256_o0_64_S2000x64 inb_S2000x256_S2000x64_0_64 _ _ _ _ x
  · exact piece_at x0 x1 _ _ _ (pay4_at x0 x1) 0 0 rfl slices_S2000x256_o0_0_S2000x64 inb_S2000x256_S2000x64_0_0 _ _ _ _ x

theorem out7_eq (x0 : Vec Ideal S2000x256 .f32) (x1 : Vec Ideal S256x256 .f32) (x2 x3 : Vec Ideal S1x64 .f32)
    (x4 : Vec Ideal S256x256 .f32) (x5 : Vec Ideal S1x256 .f32) (y : S2000x256.Idx) :
    out2_7 x0 x1 x2 x3 x4 x5 y = biasArr x0 x4 x5 y := by
  unfold out2_7
  rw [View.canon_unit_zero hz]
  simp only [View.ld_unit_zero (S := S2000x256) hz, View.ld_unit_zero (S := S256x256) hz, View.ld_unit_zero (S := S1x256) hz]
  obtain ⟨r, j, rfl⟩ : ∃ (r : Fin 2000) (j : Fin 256), y = ix2 r j := ⟨y 0, y 1, eq_ix2 y⟩
  unfold k2_pay2 k2_pay3
  simp only [addf_apply, shapeCast_self, broadcastTo_1b_ab_apply]
  exact congrArg (· + x5 (ix2 0 j)) ((mm_at dot_S2000x256_S256x256_S2000x256_1_0_0_1_n_n_wf _ _ r j).trans rfl)

section Arrays

variable (V : (c : Dev nD) → (b : Ref sig .tc) → Buf (Elt Ideal) ((c : Thread nD τ).loc b)) (c : Dev nD)

theorem idx_rows : ∀ t : Fin cfg2.N, (win2_0.index t (0 : Fin 2) = t.val ∧ win2_0.index t (1 : Fin 2) = 0)
    ∧ (win2_6.index t (0 : Fin 2) = t.val ∧ win2_6.index t (1 : Fin 2) = 0)
    ∧ win2_7.index t (0 : Fin 2) = t.val ∧ win2_7.index t (1 : Fin 2) = 0 :=
  (by decide +kernel : ∀ t : Fin grid2.N, _)

theorem idx_fixed : ∀ (t : Fin cfg2.N) (a : Fin 2), win2_1.index t a = 0 ∧ win2_2.index t a = 0 ∧ win2_3.index t a = 0
    ∧ win2_4.index t a = 0 ∧ win2_5.index t a = 0 :=
  (by decide +kernel : ∀ t : Fin grid2.N, _)

-- The feature block at point `t` is rows `2000 t` to `2000 t + 1999` of the features.
theorem iblk_X (t : Fin cfg2.N) (r : Fin 2000) (k : Fin 256) (n : Fin 50000) (hn : n.val = 2000 * t.val + r.val) :
    (iblk2 V c 0 t : Vec Ideal S2000x256 .f32) (ix2 r k) = (V c main_v65 : S50000x256.Idx → EReal) (ix2 n k) := by
  obtain ⟨⟨e0, e1⟩, -⟩ := idx_rows t
  unfold iblk2
  show V c main_v65 (((cfg2.win 0).blk t).view.emb (ix2 r k)) = V c main_v65 (ix2 n k)
  refine congrArg _ (funext fun a => Fin.ext ?_)
  match a with
  | ⟨0, _⟩ => show win2_0.index t (0 : Fin 2) * 2000 + 1 * r.val = n.val; rw [e0, hn]; omega
  | ⟨1, _⟩ => show win2_0.index t (1 : Fin 2) * 256 + 1 * k.val = k.val; rw [e1]; omega

theorem iblk_W (t : Fin cfg2.N) : (iblk2 V c 1 t : Vec Ideal S256x256 .f32) = (V c main_arg7 : S256x256.Idx → EReal) :=
  funext fun y => congrArg (V c main_arg7) (funext fun a => Fin.ext (Pipeline.Window.rect_emb_val_of_index_zero win2_1 t a (idx_fixed t a).1 y))
theorem iblk_g (t : Fin cfg2.N) : (iblk2 V c 2 t : Vec Ideal S1x64 .f32) = (V c main_v85 : S1x64.Idx → EReal) :=
  funext fun y => congrArg (V c main_v85) (funext fun a => Fin.ext (Pipeline.Window.rect_emb_val_of_index_zero win2_2 t a (idx_fixed t a).2.1 y))
theorem iblk_b (t : Fin cfg2.N) : (iblk2 V c 3 t : Vec Ideal S1x64 .f32) = (V c main_v86 : S1x64.Idx → EReal) :=
  funext fun y => congrArg (V c main_v86) (funext fun a => Fin.ext (Pipeline.Window.rect_emb_val_of_index_zero win2_3 t a (idx_fixed t a).2.2.1 y))
theorem iblk_Bw (t : Fin cfg2.N) : (iblk2 V c 4 t : Vec Ideal S256x256 .f32) = (V c main_arg10 : S256x256.Idx → EReal) :=
  funext fun y => congrArg (V c main_arg10) (funext fun a => Fin.ext (Pipeline.Window.rect_emb_val_of_index_zero win2_4 t a (idx_fixed t a).2.2.2.1 y))
theorem iblk_bb (t : Fin cfg2.N) : (iblk2 V c 5 t : Vec Ideal S1x256 .f32) = (V c main_v87 : S1x256.Idx → EReal) :=
  funext fun y => congrArg (V c main_v87) (funext fun a => Fin.ext (Pipeline.Window.rect_emb_val_of_index_zero win2_5 t a (idx_fixed t a).2.2.2.2 y))

def G6 : S50000x256.Idx → EReal := xllnArr (V c main_v65) (V c main_arg7) (V c main_v85) (V c main_v86)
def G7 : S50000x256.Idx → EReal := biasArr (V c main_v65) (V c main_arg10) (V c main_v87)

theorem flushed6_eq (t : Fin cfg2.N) :
    (dat2 V c).flushed 6 t = ((cfg2.win 6).blk t).view.read (Elt Ideal) (G6 V c) := by
  show (cfg2.win 6).cut (grid2.coords t) ((dat2 V c).after 6 t) = _
  rw [after2_6]
  obtain ⟨-, ⟨e0, e1⟩, -⟩ := idx_rows t
  funext j
  refine (out6_eq _ _ _ _ _ _ _).trans ?_
  rw [iblk_W V c t, iblk_g V c t, iblk_b V c t]
  refine xllnArr_congr _ _ _ _ _ _ _ (fun k => iblk_X V c t _ k _ ?_) ?_
  · show win2_6.index t (0 : Fin 2) * 2000 + 1 * (j 0).val = 2000 * t.val + (j 0).val
    rw [e0]; omega
  · show (j 1).val = win2_6.index t (1 : Fin 2) * 256 + 1 * (j 1).val
    rw [e1]; omega

theorem flushed7_eq (t : Fin cfg2.N) :
    (dat2 V c).flushed 7 t = ((cfg2.win 7).blk t).view.read (Elt Ideal) (G7 V c) := by
  show (cfg2.win 7).cut (grid2.coords t) ((dat2 V c).after 7 t) = _
  rw [after2_7]
  obtain ⟨-, -, e0, e1⟩ := idx_rows t
  funext j
  refine (out7_eq _ _ _ _ _ _ _).trans ?_
  rw [iblk_Bw V c t, iblk_bb V c t]
  refine biasArr_congr _ _ _ _ _ _ (fun k => iblk_X V c t _ k _ ?_) (Fin.ext ?_)
  · show win2_7.index t (0 : Fin 2) * 2000 + 1 * (j 0).val = 2000 * t.val + (j 0).val
    rw [e0]; omega
  · show (j 1).val = win2_7.index t (1 : Fin 2) * 256 + 1 * (j 1).val
    rw [e1]; omega

-- Row `n` lies in the block of point `n / 2000`, so the 25 row blocks cover each output array.
theorem cover6 (i : S50000x256.Idx) : ∃ t : Fin cfg2.N, (cfg2.win 6).flush t = true ∧ i ∈ ((cfg2.win 6).blk t).view.set := by
  have hi0 : (i 0).val < 50000 := (i 0).isLt
  have hi1 : (i 1).val < 256 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, ⟨e0, e1⟩, -⟩ := idx_rows t
  refine ⟨t, flush2_6 t, ?_⟩
  show i ∈ ((View.whole main_v88_0).slice (win2_6.rect t)).set
  rw [View.set_slice_whole, Rect.mem_set_unit]
  intro a
  match a with
  | ⟨0, _⟩ => show win2_6.index t (0 : Fin 2) * 2000 ≤ (i 0).val ∧ (i 0).val < win2_6.index t (0 : Fin 2) * 2000 + 2000; rw [e0, ht]; omega
  | ⟨1, _⟩ => show win2_6.index t (1 : Fin 2) * 256 ≤ (i 1).val ∧ (i 1).val < win2_6.index t (1 : Fin 2) * 256 + 256; rw [e1]; omega

theorem cover7 (i : S50000x256.Idx) : ∃ t : Fin cfg2.N, (cfg2.win 7).flush t = true ∧ i ∈ ((cfg2.win 7).blk t).view.set := by
  have hi0 : (i 0).val < 50000 := (i 0).isLt
  have hi1 : (i 1).val < 256 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, e0, e1⟩ := idx_rows t
  refine ⟨t, flush2_7 t, ?_⟩
  show i ∈ ((View.whole main_v88_1).slice (win2_7.rect t)).set
  rw [View.set_slice_whole, Rect.mem_set_unit]
  intro a
  match a with
  | ⟨0, _⟩ => show win2_7.index t (0 : Fin 2) * 2000 ≤ (i 0).val ∧ (i 0).val < win2_7.index t (0 : Fin 2) * 2000 + 2000; rw [e0, ht]; omega
  | ⟨1, _⟩ => show win2_7.index t (1 : Fin 2) * 256 ≤ (i 1).val ∧ (i 1).val < win2_7.index t (1 : Fin 2) * 256 + 256; rw [e1]; omega

theorem xlln_at (n : Fin 50000) (h : Fin 4) (cc : Fin 64) :
    (Gen.dat2 (F := Ideal) V c).arrAt 6 cfg2.N (ValueIdx.ix2 n (Spec.fl (by norm_num : 4 * 64 = 256) h cc))
      = Spec.xlln (by norm_num : 4 * 64 = 256) Spec.c64 Spec.epsLn (V c main_v65) (V c main_arg7)
          (fun c' => V c main_v85 (ValueIdx.ix2 0 c')) (fun c' => V c main_v86 (ValueIdx.ix2 0 c')) n h cc :=
  (congrFun ((dat2 V c).arrAt_eq_of_cover 6 (G6 V c) (fun t _ => flushed6_eq V c t) cover6) _).trans (xllnArr_fl _ _ _ _ n h cc)

theorem bias_at (n : Fin 50000) (j : Fin 256) :
    (Gen.dat2 (F := Ideal) V c).arrAt 7 cfg2.N (ValueIdx.ix2 n j)
      = Spec.biasLin (V c main_v65) (V c main_arg10) (fun j' => V c main_v87 (ValueIdx.ix2 0 j')) n j :=
  congrFun ((dat2 V c).arrAt_eq_of_cover 7 (G7 V c) (fun t _ => flushed7_eq V c t) cover7) _

end Arrays

end Cert.KernelIdeal.DenseK2

end
-- ==== Proof.Layer1A.lean ====
import proofs.«418090_j57904749084726_1_alg».proof.Proof.KChain
import proofs.«418090_j57904749084726_1_alg».proof.Proof.RChain
import proofs.«418090_j57904749084726_1_alg».proof.Proof.DenseK2
import proofs.«418090_j57904749084726_1_alg».proof.Proof.DenseR
import proofs.«418090_j57904749084726_1_alg».proof.Proof.Layout

noncomputable section

namespace Cert.Layer1

open Idealize.ShloMosaic Idealize.ShloMosaic.TcCoe Idealize.SL.Sem Idealize.ShloMosaic.ValueIdx
open Cert.KernelIdeal.KChain Cert.ReferenceIdeal.RChain Cert.ReferenceIdeal.RefRun

abbrev KV : Type := Cert.KernelIdeal.KChain.Vals Ideal
abbrev RV : Type := Valuation Cert.ReferenceIdeal.τ Cert.ReferenceIdeal.sig (Elt Ideal)

theorem hD : 4 * 64 = 256 := by norm_num

abbrev UKof (VK : KV) : KV := kreg2 (kseg2b VK)
abbrev URof (VR : RV) : RV := StableHlo.after rops5 (StableHlo.after rops4 VR)

section Pieces

variable (VK : KV) (VR : RV) (c : Dev Cert.KernelIdeal.nD)

theorem keepR {r : Ref Cert.ReferenceIdeal.sig .tc}
    (hr : r ∈ [Cert.ReferenceIdeal.main_v93, Cert.ReferenceIdeal.main_v1, Cert.ReferenceIdeal.main_v3,
      Cert.ReferenceIdeal.main_arg10, Cert.ReferenceIdeal.main_arg11]) :
    URof VR (Proc.devRef .tc r) = VR (Proc.devRef .tc r) := by
  show StableHlo.after rops5 (StableHlo.after rops4 VR) _ = _
  fin_cases hr <;> after_results_simp

theorem r138 : URof VR (Proc.devRef .tc Cert.ReferenceIdeal.main_v138)
    = Cert.ReferenceIdeal.DenseR.ln1 (VR (Proc.devRef .tc Cert.ReferenceIdeal.main_v93)) (VR (Proc.devRef .tc Cert.ReferenceIdeal.main_arg7))
        (VR (Proc.devRef .tc Cert.ReferenceIdeal.main_arg8)) (VR (Proc.devRef .tc Cert.ReferenceIdeal.main_arg9)) := by
  show StableHlo.after rops5 (StableHlo.after rops4 VR) _ = _
  after_results_simp
  rfl

theorem keepK {r : Ref Cert.KernelIdeal.sig .tc}
    (hr : r ∈ [Cert.KernelIdeal.main_v65, Cert.KernelIdeal.main_v1, Cert.KernelIdeal.main_v3,
      Cert.KernelIdeal.main_arg7, Cert.KernelIdeal.main_arg10]) :
    kseg2b VK c (Proc.devRef .tc r) = VK c (Proc.devRef .tc r) := by
  fin_cases hr <;> after_results_simp

theorem k85 (c' : Fin 64) : kseg2b VK c (Proc.devRef .tc Cert.KernelIdeal.main_v85) (ix2 (0 : Fin 1) c')
    = VK c (Proc.devRef .tc Cert.KernelIdeal.main_arg8) (ix1 c') := by
  after_results_simp
  exact Cert.Layout.rowK64_at _ c'

theorem k86 (c' : Fin 64) : kseg2b VK c (Proc.devRef .tc Cert.KernelIdeal.main_v86) (ix2 (0 : Fin 1) c')
    = VK c (Proc.devRef .tc Cert.KernelIdeal.main_arg9) (ix1 c') := by
  after_results_simp
  exact Cert.Layout.rowK64_at _ c'

theorem k87 (j' : Fin 256) : kseg2b VK c (Proc.devRef .tc Cert.KernelIdeal.main_v87) (ix2 (0 : Fin 1) j')
    = VK c (Proc.devRef .tc Cert.KernelIdeal.main_arg11) (ix1 j') := by
  after_results_simp
  exact Cert.Layout.rowK256_at _ j'

end Pieces

theorem stepA (VK : KV) (VR : RV) (c : Dev Cert.KernelIdeal.nD)
    (hh : VK c (Proc.devRef .tc Cert.KernelIdeal.main_v65) = VR (Proc.devRef .tc Cert.ReferenceIdeal.main_v93))
    (hs : VK c (Proc.devRef .tc Cert.KernelIdeal.main_v1) = VR (Proc.devRef .tc Cert.ReferenceIdeal.main_v1))
    (hd : VK c (Proc.devRef .tc Cert.KernelIdeal.main_v3) = VR (Proc.devRef .tc Cert.ReferenceIdeal.main_v3))
    (h7 : VK c (Proc.devRef .tc Cert.KernelIdeal.main_arg7) = VR (Proc.devRef .tc Cert.ReferenceIdeal.main_arg7))
    (h8 : VK c (Proc.devRef .tc Cert.KernelIdeal.main_arg8) = VR (Proc.devRef .tc Cert.ReferenceIdeal.main_arg8))
    (h9 : VK c (Proc.devRef .tc Cert.KernelIdeal.main_arg9) = VR (Proc.devRef .tc Cert.ReferenceIdeal.main_arg9))
    (h10 : VK c (Proc.devRef .tc Cert.KernelIdeal.main_arg10) = VR (Proc.devRef .tc Cert.ReferenceIdeal.main_arg10))
    (h11 : VK c (Proc.devRef .tc Cert.KernelIdeal.main_arg11) = VR (Proc.devRef .tc Cert.ReferenceIdeal.main_arg11)) :
    UKof VK c (Proc.devRef .tc Cert.KernelIdeal.main_v84) = URof VR (Proc.devRef .tc Cert.ReferenceIdeal.main_v112)
    ∧ UKof VK c (Proc.devRef .tc Cert.KernelIdeal.main_v1) = URof VR (Proc.devRef .tc Cert.ReferenceIdeal.main_v1)
    ∧ UKof VK c (Proc.devRef .tc Cert.KernelIdeal.main_v3) = URof VR (Proc.devRef .tc Cert.ReferenceIdeal.main_v3)
    ∧ (∀ (n : Fin 50000) (h : Fin 4) (cc : Fin 64),
        UKof VK c (Proc.devRef .tc Cert.KernelIdeal.main_v88_0) (ix2 n (Spec.fl hD h cc))
          = URof VR (Proc.devRef .tc Cert.ReferenceIdeal.main_v138) (ix3 n h cc))
    ∧ (∀ (n : Fin 50000) (j : Fin 256),
        UKof VK c (Proc.devRef .tc Cert.KernelIdeal.main_v88_1) (ix2 n j)
          = Spec.biasLin (URof VR (Proc.devRef .tc Cert.ReferenceIdeal.main_v93)) (URof VR (Proc.devRef .tc Cert.ReferenceIdeal.main_arg10))
              (fun j' => URof VR (Proc.devRef .tc Cert.ReferenceIdeal.main_arg11) (ix1 j')) n j) := by
  refine ⟨?_, ?_, ?_, fun n h cc => ?_, fun n j => ?_⟩
  · show kreg2 (kseg2b VK) c (Proc.devRef .tc Cert.KernelIdeal.main_v84)
      = StableHlo.after rops5 (StableHlo.after rops4 VR) (Proc.devRef .tc Cert.ReferenceIdeal.main_v112)
    rw [kreg2_of_ne _ _ _ (by decide)]
    after_results_simp
    rw [hh, hs, hd]
    rfl
  · show kreg2 (kseg2b VK) c _ = _
    rw [kreg2_of_ne _ _ _ (by decide)]
    exact (keepK VK c (by decide)).trans (hs.trans (keepR VR (by decide)).symm)
  · show kreg2 (kseg2b VK) c _ = _
    rw [kreg2_of_ne _ _ _ (by decide)]
    exact (keepK VK c (by decide)).trans (hd.trans (keepR VR (by decide)).symm)
  · refine (congrFun (kreg2_arr (kseg2b VK) c 6) _).trans ?_
    refine (Cert.KernelIdeal.DenseK2.xlln_at (fun c b => kseg2b VK c b) c n h cc).trans ?_
    refine Eq.trans ?_ ((congrFun (r138 VR) (ix3 n h cc)).trans (Cert.ReferenceIdeal.DenseR.ln1_at _ _ _ _ n h cc)).symm
    exact Spec.xlln_congr _ _ _ ((keepK VK c (by decide)).trans hh) ((keepK VK c (by decide)).trans h7)
      (fun c' => (k85 VK c c').trans (congrFun h8 _)) (fun c' => (k86 VK c c').trans (congrFun h9 _)) n h cc
  · refine (congrFun (kreg2_arr (kseg2b VK) c 7) _).trans ?_
    refine (Cert.KernelIdeal.DenseK2.bias_at (fun c b => kseg2b VK c b) c n j).trans ?_
    exact Spec.biasLin_congr ((keepK VK c (by decide)).trans (hh.trans (keepR VR (by decide)).symm))
      ((keepK VK c (by decide)).trans (h10.trans (keepR VR (by decide)).symm))
      (fun j' => (k87 VK c j').trans ((congrFun h11 _).trans (congrFun (keepR VR (r := Cert.ReferenceIdeal.main_arg11) (by decide)).symm _))) n j

end Cert.Layer1

end
-- ==== Proof.EdgeK3.lean ====
import proofs.«418090_j57904749084726_1_alg».proof.Proof.Gen.KernelIdeal.Frame
import proofs.«418090_j57904749084726_1_alg».proof.Proof.EdgeLib

noncomputable section

namespace Cert.KernelIdeal.EdgeK3

open Cert.KernelIdeal.Gen Idealize.ShloMosaic Idealize.ShloMosaic.TcCoe Idealize.ShloMosaic.ValueIdx

/-- The region's stored value is the shared body at this region's widths. -/
theorem pay_eq (x0 x1 : Vec Ideal S2048x256 .f32) (x2 : Vec Ideal S2048x256 .f32) :
    k3_pay1 x0 x1 x2
      = Edge.body reduces_S2048x256_S2048 shapeCasts_S2048_S2048x1 broadcasts_S2048x1_S2048x256 x0 x1 x2 := by
  unfold k3_pay1
  simp only [shapeCast_self]
  rfl

/-- Checked at each of the 269 grid points. -/
theorem idx_row : ∀ t : Fin cfg3.N, win3_3.index t (0 : Fin 2) = t.val :=
  (by decide +kernel : ∀ t : Fin grid3.N, _)

/-- 269 blocks of 2048 rows are all 550912 rows: an index lies in the block of the grid point its row falls in. -/
theorem cover (i : S550912x256.Idx) :
    ∃ t : Fin cfg3.N, (cfg3.win 3).flush t = true ∧ i ∈ ((cfg3.win 3).blk t).view.set := by
  have ht : (i 0).val / 2048 < cfg3.N := Nat.div_lt_of_lt_mul (i 0).isLt
  refine ⟨⟨_, ht⟩, flush3_3 _, ?_⟩
  show i ∈ ((View.whole main_v116).slice (win3_3.rect ⟨_, ht⟩)).set
  rw [View.set_slice_whole, Rect.mem_set_unit]
  exact Edge.mem_rowBlock (sz := S2048x256.size) i (idx_row ⟨_, ht⟩) rfl (by decide) (i 1).isLt

variable (V : (c : Dev nD) → (b : Ref sig .tc) → Buf (Elt Ideal) ((c : Thread nD τ).loc b)) (c : Dev nD)

abbrev muS : Spec.A2 550912 256 := V c main_v113
abbrev muD : Spec.A2 550912 256 := V c main_v114
abbrev xs : Spec.A2 550912 256 := V c main_v115
abbrev msg : Spec.A2 550912 256 := (Gen.dat3 (F := Ideal) V c).arrAt 3 cfg3.N

abbrev G : Spec.A2 550912 256 := fun i => xs V c i * Spec.alpha Spec.epsCos (muS V c) (muD V c) (i 0)

/-- The four blocks at point `t` are the same 2048 rows at full width, so the body's value at a block entry is `G` at the array's entry. -/
theorem flushed_eq (t : Fin cfg3.N) :
    (dat3 (F := Ideal) V c).flushed 3 t = ((cfg3.win 3).blk t).view.read (Elt Ideal) (G V c) := by
  show (cfg3.win 3).cut (grid3.coords t) ((dat3 (F := Ideal) V c).after 3 t) = _
  rw [after3_3]
  unfold out3_3
  rw [View.canon_unit_zero Edge.hz, pay_eq]
  simp only [View.ld_unit_zero (S := S2048x256) Edge.hz]
  funext y
  exact Edge.body_of_blocks _ _ _ (iblk3 V c 0 t) (iblk3 V c 1 t) (iblk3 V c 2 t) (muS V c) (muD V c) (xs V c) y
    (((cfg3.win 3).blk t).view.emb y)
    (fun k => congrArg (muS V c) (Shape.idx_ext₂ rfl (Edge.col_val 256 k.val)))
    (fun k => congrArg (muD V c) (Shape.idx_ext₂ rfl (Edge.col_val 256 k.val))) rfl

theorem msg_at (m : Fin 550912) (j : Fin 256) :
    msg V c (ix2 m j) = xs V c (ix2 m j) * Spec.alpha Spec.epsCos (muS V c) (muD V c) m :=
  congrFun ((dat3 (F := Ideal) V c).arrAt_eq_of_cover 3 (G V c) (fun t _ => flushed_eq V c t) cover) (ix2 m j)

end Cert.KernelIdeal.EdgeK3

end
-- ==== Proof.Layer1.lean ====
import proofs.«418090_j57904749084726_1_alg».proof.Proof.Layer1A
import proofs.«418090_j57904749084726_1_alg».proof.Proof.Kept
import proofs.«418090_j57904749084726_1_alg».proof.Proof.EdgeK3
import proofs.«418090_j57904749084726_1_alg».proof.Proof.EdgeR
import proofs.«418090_j57904749084726_1_alg».proof.Proof.DenseR
import proofs.«418090_j57904749084726_1_alg».proof.Proof.Act
import proofs.«418090_j57904749084726_1_alg».proof.Proof.GatherScatter
import proofs.«418090_j57904749084726_1_alg».proof.Proof.Layout
import proofs.«418090_j57904749084726_1_alg».proof.Proof.Spec

noncomputable section

namespace Cert.Layer1

open Idealize.ShloMosaic Idealize.ShloMosaic.TcCoe Idealize.SL.Sem Idealize.ShloMosaic.ValueIdx
open Cert.KernelIdeal.KChain Cert.ReferenceIdeal.RChain Cert.ReferenceIdeal.RefRun

section KSide
open Cert.KernelIdeal Cert.KernelIdeal.Facts₀

def loops (e : IVec S500000 32) : IVec S550000 32 :=
  concatenate S550000 0 [⟨S500000, e⟩, ⟨S50000, iotaInDim S50000 32 0⟩] concatenates_S500000_S50000_S550000_d0

def wrapCol (s : IVec S550000 32) : IVec S550000x1 32 :=
  broadcastInDim S550000x1 ![0] bcast_S550000_S550000x1_0
    (select (cmpi .slt s (broadcastInDim S550000 ![] bcast_S_S550000 (constantI S_ 32 0#32)))
      (addi s (broadcastInDim S550000 ![] bcast_S_S550000 (constantI S_ 32 50000#32))) s)

def col (s : IVec S550000 32) : IVec S550000x1 32 := broadcastInDim S550000x1 ![0] bcast_S550000_S550000x1_0 s

def padRows (x : FVec Ideal S550000x256 .f32) : FVec Ideal S550912x256 .f32 :=
  pad S550912x256 ![0, 0] ![912, 0] ![0, 0] x (sitofp .f32 (constantI S_ 32 0#32) : FVec Ideal S_ .f32)
    pads_S550000x256_S550912x256_09120_000 h_S_

def rowsOf (x : FVec Ideal S50000x256 .f32) (idx : IVec S550000x1 32) : FVec Ideal S550000x256 .f32 :=
  Host.gather gather_S50000x256_S550000x1_S550000x256_1_0_n_n_0_1_1256 x idx

def preAct (iT : IVec S550000x1 32) (M : FVec Ideal S550912x256 .f32) (B : FVec Ideal S50000x256 .f32) :
    FVec Ideal S50000x256 .f32 :=
  addf
    (Host.scatterAdd scatter_S50000x256_S550000x1_S550000x256_1_0_0_1
      (broadcastInDim S50000x256 ![] bcast_S_S50000x256 (constant (F := Ideal) S_ .f32 0x00000000#32))
      iT
      (extractStridedSlice S550000x256 ![0, 0] M slices_S550912x256_S550000x256_0_0))
    B

end KSide

section RSide
open Cert.ReferenceIdeal Cert.ReferenceIdeal.Facts₀

def preActR (iT : IVec S550000x1 32) (U3 : FVec Ideal S550000x4x64 .f32) (Xin : FVec Ideal S50000x256 .f32)
    (Bw : FVec Ideal S256x256 .f32) (bb : FVec Ideal S256 .f32) : FVec Ideal S50000x256 .f32 :=
  addf (addf
      (shapeCast S50000x256
        (Host.scatterAdd scatter_S50000x4x64_S550000x1_S550000x4x64_12_0_0_1
          (broadcastInDim S50000x4x64 ![] bcast_S_S50000x4x64 (constant (F := Ideal) S_ .f32 0x00000000#32)) iT U3)
        shapeCasts_S50000x4x64_S50000x256)
      (Host.dotGeneral dot_S50000x256_S256x256_S50000x256_1_0_0_1_n_n none Xin Bw))
    (broadcastInDim S50000x256 (![0, 1] : Fin 2 → Fin S50000x256.rank) bcast_S1x256_S50000x256_0_1
      (broadcastInDim S1x256 (![1] : Fin 1 → Fin S1x256.rank) bcast_S256_S1x256_1 bb))

def msgR (X3 : FVec Ideal S50000x4x64 .f32) (mu : FVec Ideal S50000x256 .f32) (iS iD : IVec S550000x1 32) :
    FVec Ideal S550000x4x64 .f32 :=
  EdgeR.msg1 (Host.gather gather_S50000x4x64_S550000x1_S550000x4x64_12_0_n_n_0_1_1464 X3 iS)
    (EdgeR.alpha1 (Host.gather gather_S50000x256_S550000x1_S550000x256_1_0_n_n_0_1_1256 mu iS)
      (Host.gather gather_S50000x256_S550000x1_S550000x256_1_0_n_n_0_1_1256 mu iD))

end RSide

section Core

theorem core
    (iS iD iT : IVec Cert.KernelIdeal.S550000x1 32)
    (mu : FVec Ideal Cert.KernelIdeal.S50000x256 .f32)
    (X2 : FVec Ideal Cert.KernelIdeal.S50000x256 .f32) (X3 : FVec Ideal Cert.ReferenceIdeal.S50000x4x64 .f32)
    (hX : ∀ (n : Fin 50000) (h : Fin 4) (cc : Fin 64), X2 (ix2 n (Spec.fl hD h cc)) = X3 (ix3 n h cc))
    (B1 : FVec Ideal Cert.KernelIdeal.S50000x256 .f32)
    (Xin : FVec Ideal Cert.ReferenceIdeal.S50000x256 .f32) (Bw : FVec Ideal Cert.ReferenceIdeal.S256x256 .f32)
    (bb : FVec Ideal Cert.ReferenceIdeal.S256 .f32)
    (hB : ∀ (n : Fin 50000) (j : Fin 256), B1 (ix2 n j) = Spec.biasLin Xin Bw (fun j' => bb (ix1 j')) n j)
    (MSG : FVec Ideal Cert.KernelIdeal.S550912x256 .f32)
    (hMSG : ∀ (m : Fin 550912) (j : Fin 256), MSG (ix2 m j)
        = padRows (rowsOf X2 iS) (ix2 m j)
            * Spec.alpha Spec.epsCos (padRows (rowsOf mu iS)) (padRows (rowsOf mu iD)) m) :
    Act.eluK (preAct iT MSG B1)
      = Act.eluR (preActR iT (msgR X3 mu iS iD) Xin Bw bb) := by
  unfold preAct preActR
  have hU : ∀ (m : Fin 550000) (h : Fin 4) (c : Fin 64),
      extractStridedSlice Cert.KernelIdeal.S550000x256 ![0, 0] MSG Cert.KernelIdeal.Facts₀.slices_S550912x256_S550000x256_0_0
          (ix2 m (Spec.fl hD h c))
        = msgR X3 mu iS iD (ix3 m h c) := by
    intro m h c
    unfold msgR
    have hm : m.val < 550912 := by have := m.isLt; omega
    rw [Cert.Layout.sliceK256_at MSG m _ hm, hMSG, Cert.ReferenceIdeal.EdgeR.msg1_at, Cert.ReferenceIdeal.EdgeR.alpha1_at]
    have e1 : padRows (rowsOf X2 iS) (ix2 (⟨m.val, hm⟩ : Fin 550912) (Spec.fl hD h c))
        = Host.gather Cert.ReferenceIdeal.gather_S50000x4x64_S550000x1_S550000x4x64_12_0_n_n_0_1_1464 X3 iS (ix3 m h c) :=
      (Cert.Layout.padK256_at _ _ m _ hm).trans (Cert.GatherScatter.gather_flat iS hD X2 X3 hX m h c)
    rw [e1]
    refine congrArg _ ?_
    exact Spec.alpha_congr _ _ _ _ _ _ m
      (fun k => Cert.Layout.padK256_at _ _ m k hm) (fun k => Cert.Layout.padK256_at _ _ m k hm)
  have hZ : ∀ (n : Fin 50000) (h : Fin 4) (c : Fin 64),
      broadcastInDim Cert.KernelIdeal.S50000x256 ![] Cert.KernelIdeal.Facts₀.bcast_S_S50000x256
          (constant (F := Ideal) Cert.KernelIdeal.S_ .f32 0x00000000#32) (ix2 n (Spec.fl hD h c))
        = broadcastInDim Cert.ReferenceIdeal.S50000x4x64 ![] Cert.ReferenceIdeal.Facts₀.bcast_S_S50000x4x64
            (constant (F := Ideal) Cert.ReferenceIdeal.S_ .f32 0x00000000#32) (ix3 n h c) :=
    fun n h c => (Cert.Layout.zerosK256_at _).trans (Cert.Layout.zerosR4x64_at _).symm
  funext i
  rw [Act.eluK_at, Act.eluR_at]
  refine congrArg Spec.elu ?_
  obtain ⟨n, j, rfl⟩ : ∃ (n : Fin 50000) (j : Fin 256), i = ix2 n j := ⟨i 0, i 1, eq_ix2 i⟩
  obtain ⟨h, cc, rfl⟩ := Spec.fl_surj hD (by norm_num) j
  rw [addf_apply, addf_apply, addf_apply, hB, Cert.Layout.mergeR_at, Cert.ReferenceIdeal.DenseR.dotB1_at,
    Cert.ReferenceIdeal.DenseR.bb1_at,
    Cert.GatherScatter.scatter_flat iT hD _ _ hU _ _ hZ n h cc]
  unfold Spec.biasLin
  rw [add_assoc]

end Core

section KRead
open Cert.KernelIdeal Cert.KernelIdeal.Facts₀

theorem k3_v113 (UK : KV) (c : Dev nD) :
    kseg3 UK c main_v113
      = padRows (rowsOf (UK c main_v84) (wrapCol (loops (UK c main_v1)))) := by
  after_results_simp
  rfl

theorem k3_v114 (UK : KV) (c : Dev nD) :
    kseg3 UK c main_v114
      = padRows (rowsOf (UK c main_v84) (wrapCol (loops (UK c main_v3)))) := by
  after_results_simp
  rfl

theorem k3_v115 (UK : KV) (c : Dev nD) :
    kseg3 UK c main_v115
      = padRows (rowsOf (UK c main_v88_0) (wrapCol (loops (UK c main_v1)))) := by
  after_results_simp
  rfl

theorem k3_v91 (UK : KV) (c : Dev nD) :
    kseg3 UK c main_v91 = loops (UK c main_v3) := by
  after_results_simp
  rfl

theorem k3_v88_1 (UK : KV) (c : Dev nD) :
    kseg3 UK c main_v88_1 = UK c main_v88_1 := by
  after_results_simp

theorem k4_v121 (V : Valuation τ sig (Elt Ideal)) :
    StableHlo.after Gen.hostOps4 V main_v121
      = preAct (col (V main_v91)) (V main_v116) (V main_v88_1) := by
  after_results_simp
  rfl

theorem k4_v123 (V : Valuation τ sig (Elt Ideal)) :
    StableHlo.after Gen.hostOps4 V main_v123
      = cmpf .ogt (preAct (col (V main_v91)) (V main_v116) (V main_v88_1))
          (broadcastInDim S50000x256 ![] bcast_S_S50000x256 (constant (F := Ideal) S_ .f32 0x00000000#32)) := by
  after_results_simp
  rfl

theorem k4_v126 (V : Valuation τ sig (Elt Ideal)) :
    StableHlo.after Gen.hostOps4 V main_v126
      = subf (Host.exp (preAct (col (V main_v91)) (V main_v116) (V main_v88_1)))
          (broadcastInDim S50000x256 ![] bcast_S_S50000x256 (constant (F := Ideal) S_ .f32 0x3F800000#32)) := by
  after_results_simp
  rfl

theorem k41_v127 (V : Valuation τ sig (Elt Ideal)) :
    StableHlo.after Gen.hostOps4_1 V main_v127
      = select (V main_v123) (V main_v121) (V main_v126) := by
  after_results_simp
  rfl

theorem k4a_v127 (W : KV) (c : Dev nD) :
    kseg4a W c main_v127
      = Act.eluK (preAct (col (W c main_v91)) (W c main_v116) (W c main_v88_1)) := by
  show StableHlo.after Gen.hostOps4_1 (StableHlo.after Gen.hostOps4 (W c)) main_v127 = _
  rw [k41_v127, k4_v121, k4_v123, k4_v126]
  rfl

theorem kreg3_v116 (W : KV) (c : Dev nD) :
    kreg3 W c main_v116 = EdgeK3.msg (fun c b => W c b) c :=
  kreg3_arr W c 3

end KRead

section RRead
open Cert.ReferenceIdeal Cert.ReferenceIdeal.Facts₀ Cert.ReferenceIdeal.RefRun

theorem r6_v173 (UR : RV) :
    StableHlo.after rops6 UR main_v173
      = msgR (UR main_v138) (UR main_v112) (wrapCol (loops (UR main_v1)))
          (wrapCol (loops (UR main_v3))) := by
  after_results_simp
  rfl

theorem r6_v141 (UR : RV) :
    StableHlo.after rops6 UR main_v141 = loops (UR main_v3) := by
  after_results_simp
  rfl

theorem r6_v93 (UR : RV) :
    StableHlo.after rops6 UR main_v93 = UR main_v93 := by
  after_results_simp

theorem r6_arg10 (UR : RV) :
    StableHlo.after rops6 UR main_arg10 = UR main_arg10 := by
  after_results_simp

theorem r6_arg11 (UR : RV) :
    StableHlo.after rops6 UR main_arg11 = UR main_arg11 := by
  after_results_simp

open Idealize.ShloMosaic.StableHlo in

local macro "read_results" loc:(Lean.Parser.Tactic.location)? : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] $[$loc]?)

theorem r7_v182 (W : RV) :
    StableHlo.after rops7 W main_v182
      = preActR (col (W main_v141)) (W main_v173) (W main_v93)
          (W main_arg10) (W main_arg11) := by
  after_results_simp
  rfl

theorem r7_v183 (W : RV) :
    StableHlo.after rops7 W main_v183
      = Act.eluR (preActR (col (W main_v141)) (W main_v173) (W main_v93)
          (W main_arg10) (W main_arg11)) := by
  have e := r7_v182 W
  read_results at e ⊢
  rw [e]
  generalize preActR (col (W main_v141)) (W main_v173) (W main_v93)
          (W main_arg10) (W main_arg11) = Y
  rfl

end RRead

theorem stepB (UK : KV) (UR : RV) (c : Dev Cert.KernelIdeal.nD)
    (hmu : UK c Cert.KernelIdeal.main_v84 = UR Cert.ReferenceIdeal.main_v112)
    (hs : UK c Cert.KernelIdeal.main_v1 = UR Cert.ReferenceIdeal.main_v1)
    (hd : UK c Cert.KernelIdeal.main_v3 = UR Cert.ReferenceIdeal.main_v3)
    (hx : ∀ (n : Fin 50000) (h : Fin 4) (cc : Fin 64),
        UK c Cert.KernelIdeal.main_v88_0 (ix2 n (Spec.fl hD h cc))
          = UR Cert.ReferenceIdeal.main_v138 (ix3 n h cc))
    (hb : ∀ (n : Fin 50000) (j : Fin 256),
        UK c Cert.KernelIdeal.main_v88_1 (ix2 n j)
          = Spec.biasLin (UR Cert.ReferenceIdeal.main_v93) (UR Cert.ReferenceIdeal.main_arg10)
              (fun j' => UR Cert.ReferenceIdeal.main_arg11 (ix1 j')) n j) :
    kseg4a (kreg3 (kseg3 UK)) c Cert.KernelIdeal.main_v127
        = StableHlo.after rops7 (StableHlo.after rops6 UR) Cert.ReferenceIdeal.main_v183 := by
  have e115 : Cert.KernelIdeal.EdgeK3.xs (fun c b => kseg3 UK c b) c = _ := k3_v115 UK c
  have e113 : Cert.KernelIdeal.EdgeK3.muS (fun c b => kseg3 UK c b) c = _ := k3_v113 UK c
  have e114 : Cert.KernelIdeal.EdgeK3.muD (fun c b => kseg3 UK c b) c = _ := k3_v114 UK c
  rw [k4a_v127, kreg3_v116, kreg3_of_ne _ c Cert.KernelIdeal.main_v91 (by decide), kreg3_of_ne _ c Cert.KernelIdeal.main_v88_1 (by decide), k3_v91, k3_v88_1,
    r7_v183, r6_v173, r6_v141, r6_v93, r6_arg10, r6_arg11, ← hmu, ← hs, ← hd]
  exact core _ _ _ _ _ _ hx _ _ _ _ hb _ fun m j => by rw [Cert.KernelIdeal.EdgeK3.msg_at, e115, e113, e114]

theorem layer1 (VK : KV) (VR : RV) (c : Dev Cert.KernelIdeal.nD)
    (hh : VK c (Proc.devRef .tc Cert.KernelIdeal.main_v65) = VR (Proc.devRef .tc Cert.ReferenceIdeal.main_v93))
    (hs : VK c (Proc.devRef .tc Cert.KernelIdeal.main_v1) = VR (Proc.devRef .tc Cert.ReferenceIdeal.main_v1))
    (hd : VK c (Proc.devRef .tc Cert.KernelIdeal.main_v3) = VR (Proc.devRef .tc Cert.ReferenceIdeal.main_v3))
    (h7 : VK c (Proc.devRef .tc Cert.KernelIdeal.main_arg7) = VR (Proc.devRef .tc Cert.ReferenceIdeal.main_arg7))
    (h8 : VK c (Proc.devRef .tc Cert.KernelIdeal.main_arg8) = VR (Proc.devRef .tc Cert.ReferenceIdeal.main_arg8))
    (h9 : VK c (Proc.devRef .tc Cert.KernelIdeal.main_arg9) = VR (Proc.devRef .tc Cert.ReferenceIdeal.main_arg9))
    (h10 : VK c (Proc.devRef .tc Cert.KernelIdeal.main_arg10) = VR (Proc.devRef .tc Cert.ReferenceIdeal.main_arg10))
    (h11 : VK c (Proc.devRef .tc Cert.KernelIdeal.main_arg11) = VR (Proc.devRef .tc Cert.ReferenceIdeal.main_arg11)) :
    KL1 VK c (Proc.devRef .tc Cert.KernelIdeal.main_v127) = RL1 VR (Proc.devRef .tc Cert.ReferenceIdeal.main_v183)
    ∧ KL1 VK c (Proc.devRef .tc Cert.KernelIdeal.main_v1) = RL1 VR (Proc.devRef .tc Cert.ReferenceIdeal.main_v1)
    ∧ KL1 VK c (Proc.devRef .tc Cert.KernelIdeal.main_v3) = RL1 VR (Proc.devRef .tc Cert.ReferenceIdeal.main_v3) := by
  obtain ⟨a1, a2, a3, a4, a5⟩ := stepA VK VR c hh hs hd h7 h8 h9 h10 h11
  exact ⟨stepB (UKof VK) (URof VR) c a1 a2 a3 a4 a5, Cert.Kept.src1 VK VR c hs, Cert.Kept.dst1 VK VR c hd⟩

end Cert.Layer1

end
-- ==== Proof.DenseK4.lean ====
import proofs.«418090_j57904749084726_1_alg».proof.Proof.Gen.KernelIdeal.Frame
import proofs.«418090_j57904749084726_1_alg».proof.Proof.Spec
import proofs.«418090_j57904749084726_1_alg».proof.Proof.DenseLib
import Idealize.ShloMosaic.Lib.Pipeline.Value
import Idealize.ShloMosaic.Lib.ValueLayout
import Idealize.ShloMosaic.PureOps.Ideal.Laws

noncomputable section

namespace Cert.KernelIdeal.DenseK4

open Cert.KernelIdeal Cert.KernelIdeal.Gen Cert.KernelIdeal.DenseLib Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem fl_one (cc : Fin 40) : Spec.fl (by norm_num : 1 * 40 = 40) (0 : Fin 1) cc = cc :=
  Fin.ext (by simp [Spec.fl_val])

theorem proj_at {n : ℕ} (w : DotDims.WF S2000x256 ⟨2, ![256, n]⟩ ⟨2, ![2000, n]⟩ [1] [0] [0] [1] [] [])
    (x0 : Vec Ideal S2000x256 .f32) (x1 : Vec Ideal ⟨2, ![256, n]⟩ .f32) (h : FTy.bf16.bits < FTy.f32.bits) (p : Fin 2000) (b : Fin n) :
    matmul (⟨[1], [0], [0], [1], [], [], w⟩ : DotDims _ _ _) none (k4_pay2 (F := Ideal) x0) (truncf .bf16 (x1 : FVec Ideal ⟨2, ![256, n]⟩ .f32) h)
        (constant (F := Ideal) ⟨2, ![2000, n]⟩ .f32 0x00000000#32) (ix2 p b)
      = ∑ k : Fin 256, x0 (ix2 p k) * x1 (ix2 k b) := by
  refine (mm_at w _ _ p b).trans ?_
  unfold k4_pay2
  simp only [shapeCast_self]
  rfl

theorem pay3_at (x0 : Vec Ideal S2000x256 .f32) (x1 : Vec Ideal S256x40 .f32) (x2 x3 : Vec Ideal S1x40 .f32) (p : Fin 2000) (q : Fin 40) :
    (k4_pay3 (F := Ideal) x0 x1 x2 x3 : FVec Ideal S2000x40 .f32) (ix2 p q)
      = Spec.lnRow Spec.c40 Spec.epsLn (fun c' => ∑ k : Fin 256, x0 (ix2 p k) * x1 (ix2 k c'))
          (fun c' => x2 (ix2 0 c')) (fun c' => x3 (ix2 0 c')) q := by
  refine (lnVec_apply _ _ _ Spec.c40 Spec.epsLn reduces_S2000x40_S2000 shapeCasts_S2000_S2000x1 broadcasts_S2000x1_S2000x40
    broadcasts_S1x40_S2000x40 p q).trans ?_
  congr 1 <;> funext c'
  · exact proj_at dot_S2000x256_S256x40_S2000x40_1_0_0_1_n_n_wf x0 x1 _ p c'
  · rw [shapeCast_self]
  · rw [shapeCast_self]

theorem pay1_at (x0 : Vec Ideal S2000x256 .f32) (x4 : Vec Ideal S256x1 .f32) (x5 : Vec Ideal S1x1 .f32) (p : Fin 2000) (u : Fin 1) :
    (k4_pay1 (F := Ideal) (k4_pay4 (F := Ideal) x0 x4) x5 : FVec Ideal S2000x1 .f32) (ix2 p u)
      = (∑ k : Fin 256, x0 (ix2 p k) * x4 (ix2 k u)) + x5 (ix2 0 u) := by
  unfold k4_pay1 k4_pay4
  simp only [addf_apply, broadcastTo_1b_ab_apply, shapeCast_self]
  exact congrArg (· + x5 (ix2 0 u)) (proj_at dot_S2000x256_S256x1_S2000x1_1_0_0_1_n_n_wf x0 x4 _ p u)

theorem hz : (![0, 0] : Fin 2 → Nat) = fun _ => 0 := funext fun a => by fin_cases a <;> rfl

-- The normalised projection of one head of 40 channels, as one function of a two-coordinate index.
def xllnArr4 {N : ℕ} (X : Spec.A2 N 256) (W : Spec.A2 256 40) (g b : Spec.A2 1 40) : (⟨2, ![N, 40]⟩ : Shape).Idx → EReal := fun i =>
  Spec.xlln (by norm_num : 1 * 40 = 40) Spec.c40 Spec.epsLn X W (fun c' => g (ix2 0 c')) (fun c' => b (ix2 0 c')) (i 0) 0 (i 1)

theorem xllnArr4_congr {N N' : ℕ} (X : Spec.A2 N 256) (X' : Spec.A2 N' 256) (W : Spec.A2 256 40) (g b : Spec.A2 1 40)
    (y : (⟨2, ![N, 40]⟩ : Shape).Idx) (i : (⟨2, ![N', 40]⟩ : Shape).Idx)
    (hX : ∀ k, X (ix2 (y 0) k) = X' (ix2 (i 0) k)) (h1 : y 1 = i 1) : xllnArr4 X W g b y = xllnArr4 X' W g b i := by
  unfold xllnArr4 Spec.xlln Spec.dotRow
  simp only [hX, h1]

theorem out6_eq (x0 : Vec Ideal S2000x256 .f32) (x1 : Vec Ideal S256x40 .f32) (x2 x3 : Vec Ideal S1x40 .f32)
    (x4 : Vec Ideal S256x1 .f32) (x5 : Vec Ideal S1x1 .f32) (y : S2000x40.Idx) :
    out4_6 x0 x1 x2 x3 x4 x5 y = xllnArr4 x0 x1 x2 x3 y := by
  unfold out4_6
  rw [View.canon_unit_zero hz]
  simp only [View.ld_unit_zero (S := S2000x256) hz, View.ld_unit_zero (S := S256x40) hz, View.ld_unit_zero (S := S1x40) hz]
  obtain ⟨p, q, rfl⟩ : ∃ (p : Fin 2000) (q : Fin 40), y = ix2 p q := ⟨y 0, y 1, eq_ix2 y⟩
  rw [pay3_at]
  unfold xllnArr4 Spec.xlln Spec.dotRow
  simp only [fl_one]

theorem out7_eq (x0 : Vec Ideal S2000x256 .f32) (x1 : Vec Ideal S256x40 .f32) (x2 x3 : Vec Ideal S1x40 .f32)
    (x4 : Vec Ideal S256x1 .f32) (x5 : Vec Ideal S1x1 .f32) (y : S2000x1.Idx) :
    out4_7 x0 x1 x2 x3 x4 x5 y = biasArr x0 x4 x5 y := by
  unfold out4_7
  rw [View.canon_unit_zero hz]
  simp only [View.ld_unit_zero (S := S2000x256) hz, View.ld_unit_zero (S := S256x1) hz, View.ld_unit_zero (S := S1x1) hz]
  obtain ⟨p, u, rfl⟩ : ∃ (p : Fin 2000) (u : Fin 1), y = ix2 p u := ⟨y 0, y 1, eq_ix2 y⟩
  exact (pay1_at x0 x4 x5 p u).trans rfl

theorem idx_rows : ∀ t : Fin cfg4.N, (win4_0.index t (0 : Fin 2) = t.val ∧ win4_0.index t (1 : Fin 2) = 0)
    ∧ (win4_6.index t (0 : Fin 2) = t.val ∧ win4_6.index t (1 : Fin 2) = 0)
    ∧ win4_7.index t (0 : Fin 2) = t.val ∧ win4_7.index t (1 : Fin 2) = 0 :=
  (by decide +kernel : ∀ t : Fin grid4.N, _)

theorem idx_fixed : ∀ (t : Fin cfg4.N) (a : Fin 2), win4_1.index t a = 0 ∧ win4_2.index t a = 0 ∧ win4_3.index t a = 0
    ∧ win4_4.index t a = 0 ∧ win4_5.index t a = 0 :=
  (by decide +kernel : ∀ t : Fin grid4.N, _)

-- The feature block at point `t` is rows `2000 t` to `2000 t + 1999` of the layer's input.
theorem iblk_X (c : Dev nD) (t : Fin cfg4.N) (r : Fin 2000) (k : Fin 256) (n : Fin 50000) (hn : n.val = 2000 * t.val + r.val) :
    (iblk4 V c 0 t : Vec Ideal S2000x256 .f32) (ix2 r k) = (V c main_v127 : S50000x256.Idx → EReal) (ix2 n k) := by
  obtain ⟨⟨e0, e1⟩, -⟩ := idx_rows t
  unfold iblk4
  show V c main_v127 (((cfg4.win 0).blk t).view.emb (ix2 r k)) = V c main_v127 (ix2 n k)
  refine congrArg _ (funext fun a => Fin.ext ?_)
  match a with
  | ⟨0, _⟩ => show win4_0.index t (0 : Fin 2) * 2000 + 1 * r.val = n.val; rw [e0, hn]; omega
  | ⟨1, _⟩ => show win4_0.index t (1 : Fin 2) * 256 + 1 * k.val = k.val; rw [e1]; omega

theorem iblk_W (c : Dev nD) (t : Fin cfg4.N) : (iblk4 V c 1 t : Vec Ideal S256x40 .f32) = (V c main_arg12 : S256x40.Idx → EReal) :=
  funext fun y => congrArg (V c main_arg12) (funext fun a => Fin.ext (Pipeline.Window.rect_emb_val_of_index_zero win4_1 t a (idx_fixed t a).1 y))
theorem iblk_g (c : Dev nD) (t : Fin cfg4.N) : (iblk4 V c 2 t : Vec Ideal S1x40 .f32) = (V c main_v147 : S1x40.Idx → EReal) :=
  funext fun y => congrArg (V c main_v147) (funext fun a => Fin.ext (Pipeline.Window.rect_emb_val_of_index_zero win4_2 t a (idx_fixed t a).2.1 y))
theorem iblk_b (c : Dev nD) (t : Fin cfg4.N) : (iblk4 V c 3 t : Vec Ideal S1x40 .f32) = (V c main_v148 : S1x40.Idx → EReal) :=
  funext fun y => congrArg (V c main_v148) (funext fun a => Fin.ext (Pipeline.Window.rect_emb_val_of_index_zero win4_3 t a (idx_fixed t a).2.2.1 y))
theorem iblk_Bw (c : Dev nD) (t : Fin cfg4.N) : (iblk4 V c 4 t : Vec Ideal S256x1 .f32) = (V c main_arg15 : S256x1.Idx → EReal) :=
  funext fun y => congrArg (V c main_arg15) (funext fun a => Fin.ext (Pipeline.Window.rect_emb_val_of_index_zero win4_4 t a (idx_fixed t a).2.2.2.1 y))
theorem iblk_bb (c : Dev nD) (t : Fin cfg4.N) : (iblk4 V c 5 t : Vec Ideal S1x1 .f32) = (V c main_v149 : S1x1.Idx → EReal) :=
  funext fun y => congrArg (V c main_v149) (funext fun a => Fin.ext (Pipeline.Window.rect_emb_val_of_index_zero win4_5 t a (idx_fixed t a).2.2.2.2 y))

def G6 (c : Dev nD) : S50000x40.Idx → EReal := xllnArr4 (V c main_v127) (V c main_arg12) (V c main_v147) (V c main_v148)
def G7 (c : Dev nD) : S50000x1.Idx → EReal := biasArr (V c main_v127) (V c main_arg15) (V c main_v149)

theorem flushed6_eq (c : Dev nD) (t : Fin cfg4.N) :
    (dat4 V c).flushed 6 t = ((cfg4.win 6).blk t).view.read (Elt Ideal) (G6 V c) := by
  show (cfg4.win 6).cut (grid4.coords t) ((dat4 V c).after 6 t) = _
  rw [after4_6]
  obtain ⟨-, ⟨e0, e1⟩, -⟩ := idx_rows t
  funext j
  refine (out6_eq _ _ _ _ _ _ _).trans ?_
  rw [iblk_W V c t, iblk_g V c t, iblk_b V c t]
  refine xllnArr4_congr _ _ _ _ _ _ _ (fun k => iblk_X V c t _ k _ ?_) (Fin.ext ?_)
  · show win4_6.index t (0 : Fin 2) * 2000 + 1 * (j 0).val = 2000 * t.val + (j 0).val
    rw [e0]; omega
  · show (j 1).val = win4_6.index t (1 : Fin 2) * 40 + 1 * (j 1).val
    rw [e1]; omega

theorem flushed7_eq (c : Dev nD) (t : Fin cfg4.N) :
    (dat4 V c).flushed 7 t = ((cfg4.win 7).blk t).view.read (Elt Ideal) (G7 V c) := by
  show (cfg4.win 7).cut (grid4.coords t) ((dat4 V c).after 7 t) = _
  rw [after4_7]
  obtain ⟨-, -, e0, e1⟩ := idx_rows t
  funext j
  refine (out7_eq _ _ _ _ _ _ _).trans ?_
  rw [iblk_Bw V c t, iblk_bb V c t]
  refine biasArr_congr _ _ _ _ _ _ (fun k => iblk_X V c t _ k _ ?_) (Fin.ext ?_)
  · show win4_7.index t (0 : Fin 2) * 2000 + 1 * (j 0).val = 2000 * t.val + (j 0).val
    rw [e0]; omega
  · show (j 1).val = win4_7.index t (1 : Fin 2) * 1 + 1 * (j 1).val
    rw [e1]; omega

-- Row `n` lies in the block of point `n / 2000`, so the 25 row blocks cover each output array.
theorem cover6 (i : S50000x40.Idx) : ∃ t : Fin cfg4.N, (cfg4.win 6).flush t = true ∧ i ∈ ((cfg4.win 6).blk t).view.set := by
  have hi0 : (i 0).val < 50000 := (i 0).isLt
  have hi1 : (i 1).val < 40 := (i 1).isLt
  have hN : cfg4.N = 25 := N_4
  obtain ⟨t, ht⟩ : ∃ t : Fin cfg4.N, t.val = (i 0).val / 2000 := ⟨⟨(i 0).val / 2000, by rw [hN]; omega⟩, rfl⟩
  obtain ⟨-, ⟨e0, e1⟩, -⟩ := idx_rows t
  refine ⟨t, flush4_6 t, ?_⟩
  show i ∈ ((View.whole main_v150_0).slice (win4_6.rect t)).set
  rw [View.set_slice_whole, Rect.mem_set_unit]
  intro a
  match a with
  | ⟨0, _⟩ => show win4_6.index t (0 : Fin 2) * 2000 ≤ (i 0).val ∧ (i 0).val < win4_6.index t (0 : Fin 2) * 2000 + 2000; rw [e0, ht]; omega
  | ⟨1, _⟩ => show win4_6.index t (1 : Fin 2) * 40 ≤ (i 1).val ∧ (i 1).val < win4_6.index t (1 : Fin 2) * 40 + 40; rw [e1]; omega

theorem cover7 (i : S50000x1.Idx) : ∃ t : Fin cfg4.N, (cfg4.win 7).flush t = true ∧ i ∈ ((cfg4.win 7).blk t).view.set := by
  have hi0 : (i 0).val < 50000 := (i 0).isLt
  have hi1 : (i 1).val < 1 := (i 1).isLt
  have hN : cfg4.N = 25 := N_4
  obtain ⟨t, ht⟩ : ∃ t : Fin cfg4.N, t.val = (i 0).val / 2000 := ⟨⟨(i 0).val / 2000, by rw [hN]; omega⟩, rfl⟩
  obtain ⟨-, -, e0, e1⟩ := idx_rows t
  refine ⟨t, flush4_7 t, ?_⟩
  show i ∈ ((View.whole main_v150_1).slice (win4_7.rect t)).set
  rw [View.set_slice_whole, Rect.mem_set_unit]
  intro a
  match a with
  | ⟨0, _⟩ => show win4_7.index t (0 : Fin 2) * 2000 ≤ (i 0).val ∧ (i 0).val < win4_7.index t (0 : Fin 2) * 2000 + 2000; rw [e0, ht]; omega
  | ⟨1, _⟩ => show win4_7.index t (1 : Fin 2) * 1 ≤ (i 1).val ∧ (i 1).val < win4_7.index t (1 : Fin 2) * 1 + 1; rw [e1]; omega

theorem xlln_at (c : Dev nD) (n : Fin 50000) (cc : Fin 40) :
    (Gen.dat4 (F := Ideal) V c).arrAt 6 cfg4.N (ix2 n cc)
      = Spec.xlln (by norm_num : 1 * 40 = 40) Spec.c40 Spec.epsLn (V c main_v127) (V c main_arg12)
          (fun c' => V c main_v147 (ix2 0 c')) (fun c' => V c main_v148 (ix2 0 c')) n 0 cc :=
  congrFun ((dat4 V c).arrAt_eq_of_cover 6 (G6 V c) (fun t _ => flushed6_eq V c t) cover6) (ix2 n cc)

theorem bias_at (c : Dev nD) (n : Fin 50000) :
    (Gen.dat4 (F := Ideal) V c).arrAt 7 cfg4.N (ix2 n 0)
      = Spec.biasLin (V c main_v127) (V c main_arg15) (fun j' => V c main_v149 (ix2 0 j')) n 0 :=
  congrFun ((dat4 V c).arrAt_eq_of_cover 7 (G7 V c) (fun t _ => flushed7_eq V c t) cover7) (ix2 n 0)

end Cert.KernelIdeal.DenseK4

end
-- ==== Proof.Layer2A.lean ====
import proofs.«418090_j57904749084726_1_alg».proof.Proof.KChain
import proofs.«418090_j57904749084726_1_alg».proof.Proof.RChain
import proofs.«418090_j57904749084726_1_alg».proof.Proof.DenseK4
import proofs.«418090_j57904749084726_1_alg».proof.Proof.DenseR
import proofs.«418090_j57904749084726_1_alg».proof.Proof.Layout
import proofs.«418090_j57904749084726_1_alg».proof.Proof.Spec

noncomputable section

namespace Cert.Layer2

open Idealize.ShloMosaic Idealize.ShloMosaic.TcCoe Idealize.SL.Sem Idealize.ShloMosaic.StableHlo Idealize.ShloMosaic.ValueIdx
open Cert.KernelIdeal.KChain Cert.ReferenceIdeal.RChain Cert.ReferenceIdeal.RefRun

section StepA
variable (VK : Vals Ideal) (VR : Valuation Cert.ReferenceIdeal.τ Cert.ReferenceIdeal.sig (Elt Ideal)) (c : Dev Cert.KernelIdeal.nD)

theorem A_r228 : StableHlo.after rops9 (StableHlo.after rops8 VR) Cert.ReferenceIdeal.main_v228
    = Cert.ReferenceIdeal.DenseR.ln2 (VR Cert.ReferenceIdeal.main_v183) (VR Cert.ReferenceIdeal.main_arg12)
        (VR Cert.ReferenceIdeal.main_arg13) (VR Cert.ReferenceIdeal.main_arg14) := by
  after_results_simp
  rfl

theorem stepA_mu
    (hh : VK c Cert.KernelIdeal.main_v127 = VR Cert.ReferenceIdeal.main_v183)
    (hs : VK c Cert.KernelIdeal.main_v1 = VR Cert.ReferenceIdeal.main_v1)
    (hd : VK c Cert.KernelIdeal.main_v3 = VR Cert.ReferenceIdeal.main_v3) :
    kreg4 (kseg4b VK) c Cert.KernelIdeal.main_v146
      = StableHlo.after rops9 (StableHlo.after rops8 VR) Cert.ReferenceIdeal.main_v202 := by
  rw [kreg4_of_ne _ _ _ (by decide)]
  after_results_simp
  rw [hh, hs, hd]
  rfl

theorem stepA_src
    (hs : VK c Cert.KernelIdeal.main_v1 = VR Cert.ReferenceIdeal.main_v1) :
    kreg4 (kseg4b VK) c Cert.KernelIdeal.main_v1
      = StableHlo.after rops9 (StableHlo.after rops8 VR) Cert.ReferenceIdeal.main_v1 := by
  rw [kreg4_of_ne _ _ _ (by decide)]
  after_results_simp
  exact hs

theorem stepA_dst
    (hd : VK c Cert.KernelIdeal.main_v3 = VR Cert.ReferenceIdeal.main_v3) :
    kreg4 (kseg4b VK) c Cert.KernelIdeal.main_v3
      = StableHlo.after rops9 (StableHlo.after rops8 VR) Cert.ReferenceIdeal.main_v3 := by
  rw [kreg4_of_ne _ _ _ (by decide)]
  after_results_simp
  exact hd

theorem stepA_xlln
    (hh : VK c Cert.KernelIdeal.main_v127 = VR Cert.ReferenceIdeal.main_v183)
    (h12 : VK c Cert.KernelIdeal.main_arg12 = VR Cert.ReferenceIdeal.main_arg12)
    (h13 : VK c Cert.KernelIdeal.main_arg13 = VR Cert.ReferenceIdeal.main_arg13)
    (h14 : VK c Cert.KernelIdeal.main_arg14 = VR Cert.ReferenceIdeal.main_arg14)
    (n : Fin 50000) (cc : Fin 40) :
    (kreg4 (kseg4b VK) c Cert.KernelIdeal.main_v150_0 : Spec.A2 50000 40) (ix2 n cc)
      = (StableHlo.after rops9 (StableHlo.after rops8 VR) Cert.ReferenceIdeal.main_v228 : Spec.A3 50000 1 40) (ix3 n 0 cc) := by
  rw [show kreg4 (kseg4b VK) c Cert.KernelIdeal.main_v150_0 = _ from kreg4_arr (kseg4b VK) c 6, A_r228,
    Cert.KernelIdeal.DenseK4.xlln_at (fun c b => kseg4b VK c b) c n cc, Cert.ReferenceIdeal.DenseR.ln2_at]
  after_results_simp
  exact Spec.xlln_congr _ _ _ hh h12 (fun c' => (Cert.Layout.rowK40_at _ c').trans (congrFun h13 _))
    (fun c' => (Cert.Layout.rowK40_at _ c').trans (congrFun h14 _)) n 0 cc

theorem stepA_bias
    (hh : VK c Cert.KernelIdeal.main_v127 = VR Cert.ReferenceIdeal.main_v183)
    (h15 : VK c Cert.KernelIdeal.main_arg15 = VR Cert.ReferenceIdeal.main_arg15)
    (h16 : VK c Cert.KernelIdeal.main_arg16 = VR Cert.ReferenceIdeal.main_arg16)
    (n : Fin 50000) :
    (kreg4 (kseg4b VK) c Cert.KernelIdeal.main_v150_1 : Spec.A2 50000 1) (ix2 n 0)
      = Spec.biasLin
          (StableHlo.after rops9 (StableHlo.after rops8 VR) Cert.ReferenceIdeal.main_v183 : Spec.A2 50000 256)
          (StableHlo.after rops9 (StableHlo.after rops8 VR) Cert.ReferenceIdeal.main_arg15 : Spec.A2 256 1)
          (fun j => (StableHlo.after rops9 (StableHlo.after rops8 VR) Cert.ReferenceIdeal.main_arg16 : Spec.A1 1) (ix1 j)) n 0 := by
  rw [show kreg4 (kseg4b VK) c Cert.KernelIdeal.main_v150_1 = _ from kreg4_arr (kseg4b VK) c 7,
    Cert.KernelIdeal.DenseK4.bias_at (fun c b => kseg4b VK c b) c n]
  after_results_simp
  exact Spec.biasLin_congr hh h15 (fun j' => (Cert.Layout.rowK1_at _ j').trans (congrFun h16 _)) n 0

end StepA

end Cert.Layer2

end
-- ==== Proof.EdgeK5.lean ====
import proofs.«418090_j57904749084726_1_alg».proof.Proof.Gen.KernelIdeal.Frame
import proofs.«418090_j57904749084726_1_alg».proof.Proof.EdgeLib

noncomputable section

namespace Cert.KernelIdeal.EdgeK5

open Cert.KernelIdeal.Gen Idealize.ShloMosaic Idealize.ShloMosaic.TcCoe Idealize.ShloMosaic.ValueIdx

/-- The region's stored value is the shared body at this region's widths. -/
theorem pay_eq (x0 x1 : Vec Ideal S2048x256 .f32) (x2 : Vec Ideal S2048x40 .f32) :
    k5_pay1 x0 x1 x2
      = Edge.body reduces_S2048x256_S2048 shapeCasts_S2048_S2048x1 broadcasts_S2048x1_S2048x40 x0 x1 x2 := by
  unfold k5_pay1
  simp only [shapeCast_self]
  rfl

/-- Checked at each of the 269 grid points. -/
theorem idx_row : ∀ t : Fin cfg5.N, win5_3.index t (0 : Fin 2) = t.val :=
  (by decide +kernel : ∀ t : Fin grid5.N, _)

/-- 269 blocks of 2048 rows are all 550912 rows: an index lies in the block of the grid point its row falls in. -/
theorem cover (i : S550912x40.Idx) :
    ∃ t : Fin cfg5.N, (cfg5.win 3).flush t = true ∧ i ∈ ((cfg5.win 3).blk t).view.set := by
  have ht : (i 0).val / 2048 < cfg5.N := Nat.div_lt_of_lt_mul (i 0).isLt
  refine ⟨⟨_, ht⟩, flush5_3 _, ?_⟩
  show i ∈ ((View.whole main_v178).slice (win5_3.rect ⟨_, ht⟩)).set
  rw [View.set_slice_whole, Rect.mem_set_unit]
  exact Edge.mem_rowBlock (sz := S2048x40.size) i (idx_row ⟨_, ht⟩) rfl (by decide) (i 1).isLt

variable (V : (c : Dev nD) → (b : Ref sig .tc) → Buf (Elt Ideal) ((c : Thread nD τ).loc b)) (c : Dev nD)

abbrev muS : Spec.A2 550912 256 := V c main_v175
abbrev muD : Spec.A2 550912 256 := V c main_v176
abbrev xs : Spec.A2 550912 40 := V c main_v177
abbrev msg : Spec.A2 550912 40 := (Gen.dat5 (F := Ideal) V c).arrAt 3 cfg5.N

abbrev G : Spec.A2 550912 40 := fun i => xs V c i * Spec.alpha Spec.epsCos (muS V c) (muD V c) (i 0)

/-- The four blocks at point `t` are the same 2048 rows at full width, so the body's value at a block entry is `G` at the array's entry. -/
theorem flushed_eq (t : Fin cfg5.N) :
    (dat5 (F := Ideal) V c).flushed 3 t = ((cfg5.win 3).blk t).view.read (Elt Ideal) (G V c) := by
  show (cfg5.win 3).cut (grid5.coords t) ((dat5 (F := Ideal) V c).after 3 t) = _
  rw [after5_3]
  unfold out5_3
  rw [View.canon_unit_zero Edge.hz, pay_eq]
  simp only [View.ld_unit_zero (S := S2048x256) Edge.hz, View.ld_unit_zero (S := S2048x40) Edge.hz]
  funext y
  exact Edge.body_of_blocks _ _ _ (iblk5 V c 0 t) (iblk5 V c 1 t) (iblk5 V c 2 t) (muS V c) (muD V c) (xs V c) y
    (((cfg5.win 3).blk t).view.emb y)
    (fun k => congrArg (muS V c) (Shape.idx_ext₂ rfl (Edge.col_val 256 k.val)))
    (fun k => congrArg (muD V c) (Shape.idx_ext₂ rfl (Edge.col_val 256 k.val))) rfl

theorem msg_at (m : Fin 550912) (j : Fin 40) :
    msg V c (ix2 m j) = xs V c (ix2 m j) * Spec.alpha Spec.epsCos (muS V c) (muD V c) m :=
  congrFun ((dat5 (F := Ideal) V c).arrAt_eq_of_cover 3 (G V c) (fun t _ => flushed_eq V c t) cover) (ix2 m j)

end Cert.KernelIdeal.EdgeK5

end
-- ==== Proof.Layer2.lean ====
import proofs.«418090_j57904749084726_1_alg».proof.Proof.Layer2A
import proofs.«418090_j57904749084726_1_alg».proof.Proof.EdgeK5
import proofs.«418090_j57904749084726_1_alg».proof.Proof.EdgeR
import proofs.«418090_j57904749084726_1_alg».proof.Proof.Act
import proofs.«418090_j57904749084726_1_alg».proof.Proof.GatherScatter
import Idealize.ShloMosaic.Lib.StableHlo.Run

noncomputable section

namespace Cert.Layer2

open Idealize.ShloMosaic Idealize.ShloMosaic.TcCoe Idealize.SL.Sem Idealize.ShloMosaic.StableHlo Idealize.ShloMosaic.ValueIdx
open Cert.KernelIdeal.KChain Cert.ReferenceIdeal.RChain Cert.ReferenceIdeal.RefRun

abbrev up (m : Fin 550000) : Fin 550912 := ⟨m.val, by have := m.isLt; omega⟩

local macro "read_rest" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

section Tail
variable (YK : Valuation Cert.KernelIdeal.τ Cert.KernelIdeal.sig (Elt Ideal)) (YR : Valuation Cert.ReferenceIdeal.τ Cert.ReferenceIdeal.sig (Elt Ideal))

theorem lsm_eq (h : YK Cert.KernelIdeal.main_v184 = YR Cert.ReferenceIdeal.main_v275) :
    StableHlo.after Cert.KernelIdeal.Gen.hostOps6_1 YK Cert.KernelIdeal.main_v185 = StableHlo.after rops12 YR Cert.ReferenceIdeal.main_v276 := by
  after_results
  rw [h]
end Tail

section StepB3
variable (WK : Vals Ideal) (XR : Valuation Cert.ReferenceIdeal.τ Cert.ReferenceIdeal.sig (Elt Ideal)) (c : Dev Cert.KernelIdeal.nD)

section KSide
open Cert.KernelIdeal Cert.KernelIdeal.Gen

theorem k184 : StableHlo.after hostOps6 (WK c) main_v184
    = addf
        (Host.scatterAdd scatter_S50000x40_S550000x1_S550000x40_1_0_0_1
          (broadcastInDim S50000x40 ![] bcast_S_S50000x40 (constant (F := Ideal) S_ .f32 0x00000000#32))
          (broadcastInDim S550000x1 ![0] bcast_S550000_S550000x1_0 (WK c main_v153))
          (extractStridedSlice S550000x40 ![0, 0] (WK c main_v178) slices_S550912x40_S550000x40_0_0))
        (broadcastInDim S50000x40 ![0, 1] bcast_S50000x1_S50000x40_0_1 (WK c main_v150_1)) := by
  after_results <;> rfl

end KSide

section RSide
open Cert.ReferenceIdeal Cert.ReferenceIdeal.Gen

theorem r275 : StableHlo.after rops11 XR main_v275
    = addf
        (addf
          (Cert.Act.headMean
            (Host.scatterAdd scatter_S50000x1x40_S550000x1_S550000x1x40_12_0_0_1
              (broadcastInDim S50000x1x40 ![] bcast_S_S50000x1x40 (constant (F := Ideal) S_ .f32 0x00000000#32))
              (broadcastInDim S550000x1 ![0] bcast_S550000_S550000x1_0 (XR main_v231))
              (XR main_v263)))
          (broadcastInDim S50000x40 ![0, 1] bcast_S50000x1_S50000x40_0_1
            (Host.dotGeneral (φ₁ := .f32) (φ₂ := .f32) dot_S50000x256_S256x1_S50000x1_1_0_0_1_n_n none (XR main_v183) (XR main_arg15))))
        (broadcastInDim S50000x40 ![0, 1] bcast_S1x1_S50000x40_0_1
          (broadcastInDim S1x1 ![1] bcast_S1_S1x1_1 (XR main_arg16))) := by
  after_results <;> rfl

end RSide

end StepB3

section StepB1
variable (UK : Vals Ideal) (UR : Valuation Cert.ReferenceIdeal.τ Cert.ReferenceIdeal.sig (Elt Ideal)) (c : Dev Cert.KernelIdeal.nD)

theorem d2_eq (hd : UK c Cert.KernelIdeal.main_v3 = UR Cert.ReferenceIdeal.main_v3) :
    kseg5 UK c Cert.KernelIdeal.main_v153 = StableHlo.after rops10 UR Cert.ReferenceIdeal.main_v231 := by
  after_results_simp
  read_rest
  rw [hd]

theorem col173_eq (hs : UK c Cert.KernelIdeal.main_v1 = UR Cert.ReferenceIdeal.main_v1) :
    kseg5 UK c Cert.KernelIdeal.main_v173 = StableHlo.after rops10 UR Cert.ReferenceIdeal.main_v259 := by
  after_results_simp
  read_rest
  rw [hs]

theorem g160_eq (hmu : UK c Cert.KernelIdeal.main_v146 = UR Cert.ReferenceIdeal.main_v202) (hs : UK c Cert.KernelIdeal.main_v1 = UR Cert.ReferenceIdeal.main_v1) :
    kseg5 UK c Cert.KernelIdeal.main_v160 = StableHlo.after rops10 UR Cert.ReferenceIdeal.main_v238 := by
  after_results_simp
  read_rest
  rw [hmu, hs]
  rfl
theorem g167_eq (hmu : UK c Cert.KernelIdeal.main_v146 = UR Cert.ReferenceIdeal.main_v202) (hd : UK c Cert.KernelIdeal.main_v3 = UR Cert.ReferenceIdeal.main_v3) :
    kseg5 UK c Cert.KernelIdeal.main_v167 = StableHlo.after rops10 UR Cert.ReferenceIdeal.main_v245 := by
  after_results_simp
  read_rest
  rw [hmu, hd]
  rfl

section KSide
open Cert.KernelIdeal Cert.KernelIdeal.Gen

theorem k175 : kseg5 UK c main_v175
    = pad S550912x256 ![0, 0] ![912, 0] ![0, 0] (kseg5 UK c main_v160) (kseg5 UK c main_call8_v0)
        pads_S550000x256_S550912x256_09120_000 h_S_ := by
  after_results_simp
  rfl
theorem k176 : kseg5 UK c main_v176
    = pad S550912x256 ![0, 0] ![912, 0] ![0, 0] (kseg5 UK c main_v167) (kseg5 UK c main_call9_v0)
        pads_S550000x256_S550912x256_09120_000 h_S_ := by
  after_results_simp
  rfl
theorem k177 : kseg5 UK c main_v177
    = pad S550912x40 ![0, 0] ![912, 0] ![0, 0] (kseg5 UK c main_v174) (kseg5 UK c main_call10_v0)
        pads_S550000x40_S550912x40_09120_000 h_S_ := by
  after_results_simp
  rfl
theorem k174 : kseg5 UK c main_v174
    = Host.gather gather_S50000x40_S550000x1_S550000x40_1_0_n_n_0_1_140 (UK c main_v150_0) (kseg5 UK c main_v173) := by
  after_results_simp

theorem keepK150_1 : kseg5 UK c main_v150_1 = UK c main_v150_1 := by
  after_results_simp

end KSide

section RSide
open Cert.ReferenceIdeal Cert.ReferenceIdeal.Gen

theorem r260 : StableHlo.after rops10 UR main_v260
    = Host.gather gather_S50000x1x40_S550000x1_S550000x1x40_12_0_n_n_0_1_1140 (UR main_v228) (StableHlo.after rops10 UR main_v259) := by
  after_results_simp
theorem r253 : StableHlo.after rops10 UR main_v253
    = Cert.ReferenceIdeal.EdgeR.alpha2 (StableHlo.after rops10 UR main_v238) (StableHlo.after rops10 UR main_v245) := by
  after_results_simp
  rfl
theorem r263 : StableHlo.after rops10 UR main_v263
    = Cert.ReferenceIdeal.EdgeR.msg2 (StableHlo.after rops10 UR main_v260) (StableHlo.after rops10 UR main_v253) := by
  after_results_simp
  rfl

theorem keepR183 : StableHlo.after rops10 UR main_v183 = UR main_v183 := by
  after_results_simp
theorem keepR15 : StableHlo.after rops10 UR main_arg15 = UR main_arg15 := by
  after_results_simp
theorem keepR16 : StableHlo.after rops10 UR main_arg16 = UR main_arg16 := by
  after_results_simp

end RSide

theorem stepB
    (hmu : UK c Cert.KernelIdeal.main_v146 = UR Cert.ReferenceIdeal.main_v202)
    (hs : UK c Cert.KernelIdeal.main_v1 = UR Cert.ReferenceIdeal.main_v1)
    (hd : UK c Cert.KernelIdeal.main_v3 = UR Cert.ReferenceIdeal.main_v3)
    (hx : ∀ (n : Fin 50000) (cc : Fin 40), (UK c Cert.KernelIdeal.main_v150_0 : Spec.A2 50000 40) (ix2 n cc)
            = (UR Cert.ReferenceIdeal.main_v228 : Spec.A3 50000 1 40) (ix3 n 0 cc))
    (hb : ∀ n : Fin 50000, (UK c Cert.KernelIdeal.main_v150_1 : Spec.A2 50000 1) (ix2 n 0)
            = Spec.biasLin (UR Cert.ReferenceIdeal.main_v183 : Spec.A2 50000 256)
                (UR Cert.ReferenceIdeal.main_arg15 : Spec.A2 256 1)
                (fun j => (UR Cert.ReferenceIdeal.main_arg16 : Spec.A1 1) (ix1 j)) n 0) :
    kseg6 (kreg5 (kseg5 UK)) c Cert.KernelIdeal.main_v185
      = StableHlo.after rops12 (StableHlo.after rops11 (StableHlo.after rops10 UR)) Cert.ReferenceIdeal.main_v276 := by
  refine lsm_eq (StableHlo.after Cert.KernelIdeal.Gen.hostOps6 (kreg5 (kseg5 UK) c)) (StableHlo.after rops11 (StableHlo.after rops10 UR)) ?_
  funext i
  obtain ⟨n, j, rfl⟩ : ∃ (n : Fin 50000) (j : Fin 40), i = ix2 n j := ⟨i 0, i 1, eq_ix2 i⟩
  rw [k184, r275, addf_apply, addf_apply, addf_apply, Cert.Layout.colK40_at, kreg5_of_ne _ c Cert.KernelIdeal.main_v150_1 (by decide),
    keepK150_1, hb n, keepR183, keepR15, keepR16, Cert.ReferenceIdeal.DenseR.bcol2_at, Cert.ReferenceIdeal.DenseR.dotB2_at, Cert.ReferenceIdeal.DenseR.bb2_at,
    Cert.Act.headMean_at]
  unfold Spec.biasLin
  rw [← add_assoc]
  refine congrArg₂ (· + ·) (congrArg₂ (· + ·) ?_ rfl) rfl
  rw [kreg5_of_ne _ c Cert.KernelIdeal.main_v153 (by decide), d2_eq UK UR c hd]
  refine Cert.GatherScatter.scatter_flat40 _ _ _ (fun m cc => ?_) _ _ (fun n' cc => ?_) n j
  · refine (Cert.Layout.sliceK40_at _ m cc (up m).isLt).trans ?_
    rw [show kreg5 (kseg5 UK) c Cert.KernelIdeal.main_v178 = _ from kreg5_arr (kseg5 UK) c 3]
    refine (Cert.KernelIdeal.EdgeK5.msg_at _ c (up m) cc).trans ?_
    rw [r263, Cert.ReferenceIdeal.EdgeR.msg2_at, r253, Cert.ReferenceIdeal.EdgeR.alpha2_at]
    refine congrArg₂ (· * ·) ?_ ?_
    · show kseg5 UK c Cert.KernelIdeal.main_v177 (ix2 (up m) cc) = _
      rw [k177]
      refine (Cert.Layout.padK40_at _ _ m cc _).trans ?_
      rw [k174, r260, col173_eq UK UR c hs]
      exact Cert.GatherScatter.gather_flat40 _ _ _ hx m cc
    · rw [← g160_eq UK UR c hmu hs, ← g167_eq UK UR c hmu hd]
      refine Spec.alpha_congr Spec.epsCos _ _ _ _ (up m) m (fun k => ?_) (fun k => ?_)
      · show kseg5 UK c Cert.KernelIdeal.main_v175 (ix2 (up m) k) = _
        rw [k175]
        exact Cert.Layout.padK256_at _ _ m k _
      · show kseg5 UK c Cert.KernelIdeal.main_v176 (ix2 (up m) k) = _
        rw [k176]
        exact Cert.Layout.padK256_at _ _ m k _
  · rw [Cert.Layout.zerosK40_at, Cert.Layout.zerosR1x40_at]

end StepB1

theorem layer2 (VK : Vals Ideal) (VR : Valuation Cert.ReferenceIdeal.τ Cert.ReferenceIdeal.sig (Elt Ideal)) (c : Dev Cert.KernelIdeal.nD)
    (hh : VK c (Proc.devRef .tc Cert.KernelIdeal.main_v127) = VR (Proc.devRef .tc Cert.ReferenceIdeal.main_v183))
    (hs : VK c (Proc.devRef .tc Cert.KernelIdeal.main_v1) = VR (Proc.devRef .tc Cert.ReferenceIdeal.main_v1))
    (hd : VK c (Proc.devRef .tc Cert.KernelIdeal.main_v3) = VR (Proc.devRef .tc Cert.ReferenceIdeal.main_v3))
    (h12 : VK c (Proc.devRef .tc Cert.KernelIdeal.main_arg12) = VR (Proc.devRef .tc Cert.ReferenceIdeal.main_arg12))
    (h13 : VK c (Proc.devRef .tc Cert.KernelIdeal.main_arg13) = VR (Proc.devRef .tc Cert.ReferenceIdeal.main_arg13))
    (h14 : VK c (Proc.devRef .tc Cert.KernelIdeal.main_arg14) = VR (Proc.devRef .tc Cert.ReferenceIdeal.main_arg14))
    (h15 : VK c (Proc.devRef .tc Cert.KernelIdeal.main_arg15) = VR (Proc.devRef .tc Cert.ReferenceIdeal.main_arg15))
    (h16 : VK c (Proc.devRef .tc Cert.KernelIdeal.main_arg16) = VR (Proc.devRef .tc Cert.ReferenceIdeal.main_arg16)) :
    KL2 VK c (Proc.devRef .tc Cert.KernelIdeal.main_v185) = RL2 VR (Proc.devRef .tc Cert.ReferenceIdeal.main_v276) :=
  stepB (kreg4 (kseg4b VK)) (StableHlo.after rops9 (StableHlo.after rops8 VR)) c
    (stepA_mu VK VR c hh hs hd) (stepA_src VK VR c hs) (stepA_dst VK VR c hd)
    (stepA_xlln VK VR c hh h12 h13 h14) (stepA_bias VK VR c hh h15 h16)

end Cert.Layer2

end
-- ==== Proof.lean ====
import proofs.«418090_j57904749084726_1_alg».proof.Defs
import proofs.«418090_j57904749084726_1_alg».proof.Proof.Gen.Kernel
import proofs.«418090_j57904749084726_1_alg».proof.Proof.Gen.Kernel.Skeleton
import proofs.«418090_j57904749084726_1_alg».proof.Proof.Gen.Kernel.Launch
import proofs.«418090_j57904749084726_1_alg».proof.Proof.Gen.Kernel.Points
import proofs.«418090_j57904749084726_1_alg».proof.Proof.Gen.Kernel.Frame
import proofs.«418090_j57904749084726_1_alg».proof.Proof.Gen.KernelIdeal
import proofs.«418090_j57904749084726_1_alg».proof.Proof.Gen.KernelIdeal.Skeleton
import proofs.«418090_j57904749084726_1_alg».proof.Proof.Gen.KernelIdeal.Launch
import proofs.«418090_j57904749084726_1_alg».proof.Proof.Gen.KernelIdeal.Points
import proofs.«418090_j57904749084726_1_alg».proof.Proof.Gen.KernelIdeal.Frame
import proofs.«418090_j57904749084726_1_alg».proof.Proof.Gen.ReferenceIdeal
import proofs.«418090_j57904749084726_1_alg».proof.Proof.Gen.Pre_finite_inputs
import proofs.«418090_j57904749084726_1_alg».proof.Proof.KRun
import proofs.«418090_j57904749084726_1_alg».proof.Proof.KChain
import proofs.«418090_j57904749084726_1_alg».proof.Proof.RChain
import proofs.«418090_j57904749084726_1_alg».proof.Proof.RefRun
import proofs.«418090_j57904749084726_1_alg».proof.Proof.Kept
import proofs.«418090_j57904749084726_1_alg».proof.Proof.Layer0
import proofs.«418090_j57904749084726_1_alg».proof.Proof.Layer1
import proofs.«418090_j57904749084726_1_alg».proof.Proof.Layer2
import Idealize.ShloMosaic.PureOps.Ideal
import Idealize.ShloMosaic.Adequacy
import Idealize.ShloMosaic.Init

noncomputable section

namespace Cert.Proof

open Idealize.ShloMosaic Idealize.SL.Sem Cert.KernelIdeal.KChain Cert.ReferenceIdeal.RChain

theorem frame_k : Cert.frame_Kernel := fun m ρ _ => Cert.Kernel.Gen.frame m ρ
theorem frame_ki : Cert.frame_KernelIdeal := fun m ρ _ => Cert.KernelIdeal.Gen.frame m ρ

-- the three layers chained from the launch contents, each later layer's weights carried unchanged through the earlier ones
theorem algebraic : Cert.algebraic_KernelIdeal_ReferenceIdeal := by
  intro m ρ m' ρ' _ hagree
  refine ⟨fun c => Cert.KernelIdeal.Gen.W33 m ρ c (Proc.devRef .tc Cert.KernelIdeal.main_v185), Cert.KernelIdeal.KRun.run (F := Ideal) m ρ, ?_⟩
  refine (θ_run Cert.ReferenceIdeal.defs _ _).mono (fun r h c => ?_) (Cert.ReferenceIdeal.RefRun.run (F := Ideal) m' ρ')
  refine ⟨(h c _).trans ?_, ?_, ?_, ?_, ?_, ?_, ?_, ?_, ?_, ?_, ?_, ?_, ?_, ?_, ?_, ?_, ?_, ?_⟩
  rotate_left
  all_goals try exact (h c _).trans (Cert.ReferenceIdeal.RefRun.args_kept m' c (by decide))
  obtain ⟨a0, a1, a2, a3, a4, a5, a6, a7, a8, a9, a10, a11, a12, a13, a14, a15, a16⟩ := hagree c
  rw [Cert.KernelIdeal.KChain.W33_eq]
  have kR := fun r hr => Cert.ReferenceIdeal.RefRun.keptR0 (StableHlo.launchContents m' c) (r := r) hr
  obtain ⟨p0, p1, p3⟩ := Cert.Layer0.layer0 (Cert.KernelIdeal.Gen.W0 m ρ) (StableHlo.launchContents m' c) c
    a0.symm a1.symm a2.symm a3.symm a4.symm a5.symm a6.symm
  have f7 := (Cert.Kept.k0K7 (Cert.KernelIdeal.Gen.W0 m ρ) c).trans (a7.symm.trans (kR Cert.ReferenceIdeal.main_arg7 (by decide)).symm)
  have f8 := (Cert.Kept.k0K8 (Cert.KernelIdeal.Gen.W0 m ρ) c).trans (a8.symm.trans (kR Cert.ReferenceIdeal.main_arg8 (by decide)).symm)
  have f9 := (Cert.Kept.k0K9 (Cert.KernelIdeal.Gen.W0 m ρ) c).trans (a9.symm.trans (kR Cert.ReferenceIdeal.main_arg9 (by decide)).symm)
  have f10 := (Cert.Kept.k0K10 (Cert.KernelIdeal.Gen.W0 m ρ) c).trans (a10.symm.trans (kR Cert.ReferenceIdeal.main_arg10 (by decide)).symm)
  have f11 := (Cert.Kept.k0K11 (Cert.KernelIdeal.Gen.W0 m ρ) c).trans (a11.symm.trans (kR Cert.ReferenceIdeal.main_arg11 (by decide)).symm)
  have f12 := (Cert.Kept.k0K12 (Cert.KernelIdeal.Gen.W0 m ρ) c).trans (a12.symm.trans (kR Cert.ReferenceIdeal.main_arg12 (by decide)).symm)
  have f13 := (Cert.Kept.k0K13 (Cert.KernelIdeal.Gen.W0 m ρ) c).trans (a13.symm.trans (kR Cert.ReferenceIdeal.main_arg13 (by decide)).symm)
  have f14 := (Cert.Kept.k0K14 (Cert.KernelIdeal.Gen.W0 m ρ) c).trans (a14.symm.trans (kR Cert.ReferenceIdeal.main_arg14 (by decide)).symm)
  have f15 := (Cert.Kept.k0K15 (Cert.KernelIdeal.Gen.W0 m ρ) c).trans (a15.symm.trans (kR Cert.ReferenceIdeal.main_arg15 (by decide)).symm)
  have f16 := (Cert.Kept.k0K16 (Cert.KernelIdeal.Gen.W0 m ρ) c).trans (a16.symm.trans (kR Cert.ReferenceIdeal.main_arg16 (by decide)).symm)
  obtain ⟨q0, q1, q3⟩ := Cert.Layer1.layer1 _ _ c p0 p1 p3 f7 f8 f9 f10 f11
  have g12 := (Cert.Kept.k1K12 (KL0 (Cert.KernelIdeal.Gen.W0 m ρ)) c).trans (f12.trans (Cert.ReferenceIdeal.RefRun.keptR1 (RL0 (StableHlo.launchContents m' c)) (r := Cert.ReferenceIdeal.main_arg12) (by decide)).symm)
  have g13 := (Cert.Kept.k1K13 (KL0 (Cert.KernelIdeal.Gen.W0 m ρ)) c).trans (f13.trans (Cert.ReferenceIdeal.RefRun.keptR1 (RL0 (StableHlo.launchContents m' c)) (r := Cert.ReferenceIdeal.main_arg13) (by decide)).symm)
  have g14 := (Cert.Kept.k1K14 (KL0 (Cert.KernelIdeal.Gen.W0 m ρ)) c).trans (f14.trans (Cert.ReferenceIdeal.RefRun.keptR1 (RL0 (StableHlo.launchContents m' c)) (r := Cert.ReferenceIdeal.main_arg14) (by decide)).symm)
  have g15 := (Cert.Kept.k1K15 (KL0 (Cert.KernelIdeal.Gen.W0 m ρ)) c).trans (f15.trans (Cert.ReferenceIdeal.RefRun.keptR1 (RL0 (StableHlo.launchContents m' c)) (r := Cert.ReferenceIdeal.main_arg15) (by decide)).symm)
  have g16 := (Cert.Kept.k1K16 (KL0 (Cert.KernelIdeal.Gen.W0 m ρ)) c).trans (f16.trans (Cert.ReferenceIdeal.RefRun.keptR1 (RL0 (StableHlo.launchContents m' c)) (r := Cert.ReferenceIdeal.main_arg16) (by decide)).symm)
  exact (Cert.Layer2.layer2 _ _ c q0 q1 q3 g12 g13 g14 g15 g16).symm

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefRun.frame_ri, trivial, algebraic⟩

end Cert.Proof

end
